-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v145)) (v1 : (c : Dev Cert.KernelIdeal.nD) → Buf (Elt Ideal) ((c.tc : Thread Cert.KernelIdeal.nD Cert.KernelIdeal.τ).loc Cert.KernelIdeal.main_v48)) (v2 : (c : Dev Cert.KernelIdeal.nD) → Buf (Elt Ideal) ((c.tc : Thread Cert.KernelIdeal.nD Cert.KernelIdeal.τ).loc Cert.KernelIdeal.main_v92)) (v3 : (c : Dev Cert.KernelIdeal.nD) → Buf (Elt Ideal) ((c.tc : Thread Cert.KernelIdeal.nD Cert.KernelIdeal.τ).loc Cert.KernelIdeal.main_v136)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_v92) = v2 c
          ∧ r.2.mem ((c.tc : Thread Cert.KernelIdeal.nD Cert.KernelIdeal.τ).loc Cert.KernelIdeal.main_v136) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v125) = v2 c
          ∧ r.2.mem ((c.tc : Thread Cert.ReferenceIdeal.nD Cert.ReferenceIdeal.τ).loc Cert.ReferenceIdeal.main_v186) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S100000 : Shape := ⟨1, ![100000]⟩
abbrev S3 : Shape := ⟨1, ![3]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3 : S_.BroadcastsInDim S3 (![] : Fin 0 → Fin S3.rank)
  reducesTo_S3_S_d0 : S3.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg9 : FVec F S3x128 .f32) (main_v63 : IVec S_ 1) (main_v67 : IVec S_ 1) : IVec S_ 1 :=
  let main_v68 : IVec S_ 1 := andi main_v63 main_v67
  let main_cst_26 : FVec F S_ .f32 := constant S_ .f32 0x00000000#32
  let main_v69 : FVec F S3x128 .f32 := broadcastInDim S3x128 ![] bcast_S_S3x128 main_cst_26
  let main_v70 : IVec S3x128 1 := cmpf .oge main_arg9 main_v69
  let main_c_27 : IVec S_ 1 := constantI S_ 1 1#1
  let main_v71 : IVec S_ 1 := (fun x v => Host.reduce IntOp.andi x v reducesTo_S3x128_S_d0_1 h_S_) main_v70 main_c_27
  let main_v72 : IVec S_ 1 := andi main_v68 main_v71
  main_v72

def fn_part3 {F : FTy → Type} [FloatOps F] (main_arg9 : FVec F S3x128 .f32) (main_arg13 : FVec F S128 .f32) (main_arg14 : FVec F S128x16 .f32) (main_arg15 : FVec F S16 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x16 .f32 := Host.absf main_arg14
  let main_cst_22 : FVec F S_ .f32 := constant S_ .f32 0x7F800000#32
  let main_v60 : FVec F S128x16 .f32 := broadcastInDim S128x16 ![] bcast_S_S128x16 main_cst_22
  let main_v61 : IVec S128x16 1 := cmpf .olt main_v59 main_v60
  let main_c_23 : IVec S_ 1 := constantI S_ 1 1#1
  let main_v62 : IVec S_ 1 := (fun x v => Host.reduce IntOp.andi x v reducesTo_S128x16_S_d0_1 h_S_) main_v61 main_c_23
  let main_v63 : IVec S_ 1 := andi main_v58 main_v62
  let main_v64 : FVec F S16 .f32 := Host.absf main_arg15
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg9 main_v63 main_v67

def fn_part2 {F : FTy → Type} [FloatOps F] (main_arg9 : FVec F S3x128 .f32) (main_arg10 : FVec F S3x128x128 .f32) (main_arg11 : FVec F S3x128 .f32) (main_arg12 : FVec F S128x128 .f32) (main_arg13 : FVec F S128 .f32) (main_arg14 : FVec F S128x16 .f32) (main_arg15 : FVec F S16 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg10
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg11
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg9 main_arg13 main_arg14 main_arg15 main_v48 main_v49 main_v50

def fn_part1 {F : FTy → Type} [FloatOps F] (main_arg6 : FVec F S3x128 .f32) (main_arg7 : FVec F S3x128 .f32) (main_arg8 : FVec F S3x128 .f32) (main_arg9 : FVec F S3x128 .f32) (main_arg10 : FVec F S3x128x128 .f32) (main_arg11 : FVec F S3x128 .f32) (main_arg12 : FVec F S128x128 .f32) (main_arg13 : FVec F S128 .f32) (main_arg14 : FVec F S128x16 .f32) (main_arg15 : FVec F S16 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x128 .f32) (main_arg1 : IVec S2x640000 32) (main_arg2 : IVec S100000 32) (main_arg3 : FVec F S3 .f32) (main_arg4 : FVec F S3x128x128 .f32) (main_arg5 : FVec F S3x128 .f32) (main_arg6 : FVec F S3x128 .f32) (main_arg7 : FVec F S3x128 .f32) (main_arg8 : FVec F S3x128 .f32) (main_arg9 : FVec F S3x128 .f32) (main_arg10 : FVec F S3x128x128 .f32) (main_arg11 : FVec F S3x128 .f32) (main_arg12 : FVec F S128x128 .f32) (main_arg13 : FVec F S128 .f32) (main_arg14 : FVec F S128x16 .f32) (main_arg15 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3 .f32 := Host.absf main_arg3
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_c_1 : IVec S_ 1 := constantI S_ 1 1#1
  let main_v7 : IVec S_ 1 := (fun x v => Host.reduce IntOp.andi x v reducesTo_S3_S_d0 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x640000 : Shape := ⟨2, ![2, 640000]⟩
abbrev S100000 : Shape := ⟨1, ![100000]⟩
abbrev S3 : Shape := ⟨1, ![3]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x640000 : Shape := ⟨2, ![1, 640000]⟩
abbrev S640000 : Shape := ⟨1, ![640000]⟩
abbrev S100000x1 : Shape := ⟨2, ![100000, 1]⟩
abbrev S_ : Shape := ⟨0, ![]⟩
abbrev S640000x1 : Shape := ⟨2, ![640000, 1]⟩
abbrev S640000x128 : Shape := ⟨2, ![640000, 128]⟩
abbrev S1 : Shape := ⟨1, ![1]⟩
abbrev S1x128 : Shape := ⟨2, ![1, 128]⟩
abbrev S1x128x128 : Shape := ⟨3, ![1, 128, 128]⟩
abbrev S2000x128 : Shape := ⟨2, ![2000, 128]⟩
abbrev S512x128 : Shape := ⟨2, ![512, 128]⟩
abbrev S1000x128 : Shape := ⟨2, ![1000, 128]⟩
abbrev S1000x1 : Shape := ⟨2, ![1000, 1]⟩
abbrev S1000x512 : Shape := ⟨2, ![1000, 512]⟩
abbrev S512x16 : Shape := ⟨2, ![512, 16]⟩
abbrev S1x16 : Shape := ⟨2, ![1, 16]⟩

abbrev nBuf : Space → Nat
  | .hbm => 179
  | .vmem => 48
  | .smem => 0
  | _ => 0

abbrev hbmTy0_0 (i : Nat) : BufTy := match i % 128 with
  | 0 => ⟨S100000x128, .f32⟩
  | 1 => ⟨S2x640000, .i32⟩
  | 2 => ⟨S100000, .i32⟩
  | 3 => ⟨S3, .f32⟩
  | 4 => ⟨S3x128x128, .f32⟩
  | 5 => ⟨S3x128, .f32⟩
  | 6 => ⟨S3x128, .f32⟩
  | 7 => ⟨S3x128, .f32⟩
  | 8 => ⟨S3x128, .f32⟩
  | 9 => ⟨S3x128, .f32⟩
  | 10 => ⟨S3x128x128, .f32⟩
  | 11 => ⟨S3x128, .f32⟩
  | 12 => ⟨S128x128, .f32⟩
  | 13 => ⟨S128, .f32⟩
  | 14 => ⟨S128x16, .f32⟩
  | 15 => ⟨S16, .f32⟩
  | 16 => ⟨S1x640000, .i32⟩
  | 17 => ⟨S640000, .i32⟩
  | 18 => ⟨S1x640000, .i32⟩
  | 19 => ⟨S640000, .i32⟩
  | 20 => ⟨S100000x1, .i32⟩
  | 21 => ⟨S_, .i32⟩
  | 22 => ⟨S640000, .i32⟩
  | 23 => ⟨S640000, .i1⟩
  | 24 => ⟨S_, .i32⟩
  | 25 => ⟨S640000, .i32⟩
  | 26 => ⟨S640000, .i32⟩
  | 27 => ⟨S640000, .i32⟩
  | 28 => ⟨S640000x1, .i32⟩
  | 29 => ⟨S640000x128, .f32⟩
  | 30 => ⟨S_, .f32⟩
  | 31 => ⟨S100000x128, .f32⟩
  | 32 => ⟨S640000x1, .i32⟩
  | 33 => ⟨S100000x128, .f32⟩
  | 34 => ⟨S1, .f32⟩
  | 35 => ⟨S_, .f32⟩
  | 36 => ⟨S_, .f32⟩
  | 37 => ⟨S_, .f32⟩
  | 38 => ⟨S100000x128, .f32⟩
  | 39 => ⟨S100000x128, .f32⟩
  | 40 => ⟨S100000x128, .f32⟩
  | 41 => ⟨S1x128, .f32⟩
  | 42 => ⟨S128, .f32⟩
  | 43 => ⟨S1x128, .f32⟩
  | 44 => ⟨S128, .f32⟩
  | 45 => ⟨S_, .f32⟩
  | 46 => ⟨S128, .f32⟩
  | 47 => ⟨S128, .f32⟩
  | 48 => ⟨S128, .f32⟩
  | 49 => ⟨S128, .f32⟩
  | 50 => ⟨S1x128, .f32⟩
  | 51 => ⟨S128, .f32⟩
  | 52 => ⟨S1x128, .f32⟩
  | 53 => ⟨S128, .f32⟩
  | 54 => ⟨S128, .f32⟩
  | 55 => ⟨S128, .f32⟩
  | 56 => ⟨S1x128x128, .f32⟩
  | 57 => ⟨S128x128, .f32⟩
  | 58 => ⟨S1x128, .f32⟩
  | 59 => ⟨S128, .f32⟩
  | 60 => ⟨S1x128x128, .f32⟩
  | 61 => ⟨S128x128, .f32⟩
  | 62 => ⟨S1x128, .f32⟩
  | 63 => ⟨S128, .f32⟩
  | 64 => ⟨S1x128, .f32⟩
  | 65 => ⟨S1x128, .f32⟩
  | 66 => ⟨S1x128, .f32⟩
  | 67 => ⟨S1x128, .f32⟩
  | 68 => ⟨S100000x128, .f32⟩
  | 69 => ⟨S512x128, .f32⟩
  | 70 => ⟨S_, .i32⟩
  | 71 => ⟨S640000, .i32⟩
  | 72 => ⟨S640000, .i1⟩
  | 73 => ⟨S_, .i32⟩
  | 74 => ⟨S640000, .i32⟩
  | 75 => ⟨S640000, .i32⟩
  | 76 => ⟨S640000, .i32⟩
  | 77 => ⟨S640000x1, .i32⟩
  | 78 => ⟨S640000x128, .f32⟩
  | 79 => ⟨S_, .f32⟩
  | 80 => ⟨S100000x128, .f32⟩
  | 81 => ⟨S640000x1, .i32⟩
  | 82 => ⟨S100000x128, .f32⟩
  | 83 => ⟨S1, .f32⟩
  | 84 => ⟨S_, .f32⟩
  | 85 => ⟨S_, .f32⟩
  | 86 => ⟨S_, .f32⟩
  | 87 => ⟨S100000x128, .f32⟩
  | 88 => ⟨S100000x128, .f32⟩
  | 89 => ⟨S100000x128, .f32⟩
  | 90 => ⟨S1x128, .f32⟩
  | 91 => ⟨S128, .f32⟩
  | 92 => ⟨S1x128, .f32⟩
  | 93 => ⟨S128, .f32⟩
  | 94 => ⟨S_, .f32⟩
  | 95 => ⟨S128, .f32⟩
  | 96 => ⟨S128, .f32⟩
  | 97 => ⟨S128, .f32⟩
  | 98 => ⟨S128, .f32⟩
  | 99 => ⟨S1x128, .f32⟩
  | 100 => ⟨S128, .f32⟩
  | 101 => ⟨S1x128, .f32⟩
  | 102 => ⟨S128, .f32⟩
  | 103 => ⟨S128, .f32⟩
  | 104 => ⟨S128, .f32⟩
  | 105 => ⟨S1x128x128, .f32⟩
  | 106 => ⟨S128x128, .f32⟩
  | 107 => ⟨S1x128, .f32⟩
  | 108 => ⟨S128, .f32⟩
  | 109 => ⟨S1x128x128, .f32⟩
  | 110 => ⟨S128x128, .f32⟩
  | 111 => ⟨S1x128, .f32⟩
  | 112 => ⟨S128, .f32⟩
  | 113 => ⟨S1x128, .f32⟩
  | 114 => ⟨S1x128, .f32⟩
  | 115 => ⟨S1x128, .f32⟩
  | 116 => ⟨S1x128, .f32⟩
  | 117 => ⟨S100000x128, .f32⟩
  | 118 => ⟨S512x128, .f32⟩
  | 119 => ⟨S_, .i32⟩
  | 120 => ⟨S640000, .i32⟩
  | 121 => ⟨S640000, .i1⟩
  | 122 => ⟨S_, .i32⟩
  | 123 => ⟨S640000, .i32⟩
  | 124 => ⟨S640000, .i32⟩
  | 125 => ⟨S640000, .i32⟩
  | 126 => ⟨S640000x1, .i32⟩
  | 127 => ⟨S640000x128, .f32⟩
  | _ => ⟨S100000x128, .f32⟩

abbrev hbmTy0_1 (i : Nat) : BufTy := match i % 128 with
  | 0 => ⟨S_, .f32⟩
  | 1 => ⟨S100000x128, .f32⟩
  | 2 => ⟨S640000x1, .i32⟩
  | 3 => ⟨S100000x128, .f32⟩
  | 4 => ⟨S1, .f32⟩
  | 5 => ⟨S_, .f32⟩
  | 6 => ⟨S_, .f32⟩
  | 7 => ⟨S_, .f32⟩
  | 8 => ⟨S100000x128, .f32⟩
  | 9 => ⟨S100000x128, .f32⟩
  | 10 => ⟨S100000x128, .f32⟩
  | 11 => ⟨S1x128, .f32⟩
  | 12 => ⟨S128, .f32⟩
  | 13 => ⟨S1x128, .f32⟩
  | 14 => ⟨S128, .f32⟩
  | 15 => ⟨S_, .f32⟩
  | 16 => ⟨S128, .f32⟩
  | 17 => ⟨S128, .f32⟩
  | 18 => ⟨S128, .f32⟩
  | 19 => ⟨S128, .f32⟩
  | 20 => ⟨S1x128, .f32⟩
  | 21 => ⟨S128, .f32⟩
  | 22 => ⟨S1x128, .f32⟩
  | 23 => ⟨S128, .f32⟩
  | 24 => ⟨S128, .f32⟩
  | 25 => ⟨S128, .f32⟩
  | 26 => ⟨S1x128x128, .f32⟩
  | 27 => ⟨S128x128, .f32⟩
  | 28 => ⟨S1x128, .f32⟩
  | 29 => ⟨S128, .f32⟩
  | 30 => ⟨S1x128x128, .f32⟩
  | 31 => ⟨S128x128, .f32⟩
  | 32 => ⟨S1x128, .f32⟩
  | 33 => ⟨S128, .f32⟩
  | 34 => ⟨S1x128, .f32⟩
  | 35 => ⟨S1x128, .f32⟩
  | 36 => ⟨S1x128, .f32⟩
  | 37 => ⟨S1x128, .f32⟩
  | 38 => ⟨S100000x128, .f32⟩
  | 39 => ⟨S512x128, .f32⟩
  | 40 => ⟨S512x128, .f32⟩
  | 41 => ⟨S1x128, .f32⟩
  | 42 => ⟨S512x128, .f32⟩
  | 43 => ⟨S512x128, .f32⟩
  | 44 => ⟨S_, .f32⟩
  | 45 => ⟨S512x128, .f32⟩
  | 46 => ⟨S512x128, .f32⟩
  | 47 => ⟨S512x16, .f32⟩
  | 48 => ⟨S1x16, .f32⟩
  | 49 => ⟨S512x16, .f32⟩
  | 50 => ⟨S512x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1000x128, .f32⟩
  | .local _ .vmem, ⟨11, _⟩ => ⟨S1000x128, .f32⟩
  | .local _ .vmem, ⟨12, _⟩ => ⟨S1000x1, .i32⟩
  | .local _ .vmem, ⟨13, _⟩ => ⟨S1000x1, .i32⟩
  | .local _ .vmem, ⟨14, _⟩ => ⟨S512x128, .f32⟩
  | .local _ .vmem, ⟨15, _⟩ => ⟨S512x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S1000x128, .f32⟩
  | .local _ .vmem, ⟨27, _⟩ => ⟨S1000x128, .f32⟩
  | .local _ .vmem, ⟨28, _⟩ => ⟨S1000x1, .i32⟩
  | .local _ .vmem, ⟨29, _⟩ => ⟨S1000x1, .i32⟩
  | .local _ .vmem, ⟨30, _⟩ => ⟨S512x128, .f32⟩
  | .local _ .vmem, ⟨31, _⟩ => ⟨S512x128, .f32⟩
  | .local _ .vmem, ⟨32, _⟩ => ⟨S2000x128, .f32⟩
  | .local _ .vmem, ⟨33, _⟩ => ⟨S2000x128, .f32⟩
  | .local _ .vmem, ⟨34, _⟩ => ⟨S128x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S1000x128, .f32⟩
  | .local _ .vmem, ⟨43, _⟩ => ⟨S1000x128, .f32⟩
  | .local _ .vmem, ⟨44, _⟩ => ⟨S1000x1, .i32⟩
  | .local _ .vmem, ⟨45, _⟩ => ⟨S1000x1, .i32⟩
  | .local _ .vmem, ⟨46, _⟩ => ⟨S512x128, .f32⟩
  | .local _ .vmem, ⟨47, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_3 : Ref sig .tc := ⟨.hbm, 70, rfl⟩
abbrev main_v49 : Ref sig .tc := ⟨.hbm, 71, rfl⟩
abbrev main_v50 : Ref sig .tc := ⟨.hbm, 72, rfl⟩
abbrev main_c_4 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_5 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_6 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_7 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_c_8 : Ref sig .tc := ⟨.hbm, 119, rfl⟩
abbrev main_v93 : Ref sig .tc := ⟨.hbm, 120, rfl⟩
abbrev main_v94 : Ref sig .tc := ⟨.hbm, 121, rfl⟩
abbrev main_c_9 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_10 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_11 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_12 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_call0_cst : Ref sig .tc := ⟨.hbm, 172, rfl⟩
abbrev main_call0_v0 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_scratch0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg6_0 : Ref sig .tc := ⟨.vmem, 39, rfl⟩
abbrev cc4_stg7_0 : Ref sig .tc := ⟨.vmem, 40, rfl⟩
abbrev cc4_stg7_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_scratch0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem6_0 : DmaSem sig := 37
abbrev cc4_sem7_0 : DmaSem sig := 38
abbrev cc4_sem7_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![100], ![false]⟩

def k1_cond2 (i : grid1.Coords) : BitVec 1 :=
  let arg0 : BitVec 32 := BitVec.ofNat 32 (i 0).val
  let c99_i32 : BitVec 32 := 99#32
  let v21 : BitVec 1 := Scalar.cmpi .eq arg0 c99_i32
  let v22 : BitVec 32 := Scalar.extui v21
  let c0_i32_8 : BitVec 32 := 0#32
  let v23 : BitVec 1 := Scalar.cmpi .ne v22 c0_i32_8
  v23

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![100], ![false]⟩

def k3_cond2 (i : grid3.Coords) : BitVec 1 :=
  let arg0 : BitVec 32 := BitVec.ofNat 32 (i 0).val
  let c99_i32 : BitVec 32 := 99#32
  let v21 : BitVec 1 := Scalar.cmpi .eq arg0 c99_i32
  let v22 : BitVec 32 := Scalar.extui v21
  let c0_i32_8 : BitVec 32 := 0#32
  let v23 : BitVec 1 := Scalar.cmpi .ne v22 c0_i32_8
  v23

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![100], ![false]⟩

def k5_cond2 (i : grid5.Coords) : BitVec 1 :=
  let arg0 : BitVec 32 := BitVec.ofNat 32 (i 0).val
  let c99_i32 : BitVec 32 := 99#32
  let v21 : BitVec 1 := Scalar.cmpi .eq arg0 c99_i32
  let v22 : BitVec 32 := Scalar.extui v21
  let c0_i32_8 : BitVec 32 := 0#32
  let v23 : BitVec 1 := Scalar.cmpi .ne v22 c0_i32_8
  v23

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S512x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S100000_S100000x1 : S100000.ShapeCasts S100000x1
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  slices_S3_S1_0 : S3.Slices ![0] S1
  shapeCasts_S1_S_ : S1.ShapeCasts S_
  slices_S3x128_S1x128_0_0 : S3x128.Slices ![0, 0] S1x128
  shapeCasts_S1x128_S128 : S1x128.ShapeCasts S128
  bcast_S_S128 : S_.BroadcastsInDim S128 (![] : Fin 0 → Fin S128.rank)
  slices_S3x128x128_S1x128x128_0_0_0 : S3x128x128.Slices ![0, 0, 0] S1x128x128
  shapeCasts_S1x128x128_S128x128 : S1x128x128.ShapeCasts S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x512_d1_w32 : S1000x512.Iotas .tc 32 [1]
  broadcasts_S1000x1_S1000x512 : S1000x1.Broadcasts S1000x512
  natLt_1_32 : 1 < 32
  slices_S3_S1_1 : S3.Slices ![1] S1
  slices_S3x128_S1x128_1_0 : S3x128.Slices ![1, 0] S1x128
  slices_S3x128x128_S1x128x128_1_0_0 : S3x128x128.Slices ![1, 0, 0] S1x128x128
  slices_S3_S1_2 : S3.Slices ![2] S1
  slices_S3x128_S1x128_2_0 : S3x128.Slices ![2, 0] S1x128
  slices_S3x128x128_S1x128x128_2_0_0 : S3x128x128.Slices ![2, 0, 0] S1x128x128
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S2000x128_S128x128_S2000x128_1_0_0_1_n_n_wf : DotDims.WF S2000x128 S128x128 S2000x128 [1] [0] [0] [1] [] []
  dot_S1000x512_S1000x128_S512x128_0_0_1_1_n_n_wf : DotDims.WF S1000x512 S1000x128 S512x128 [0] [0] [1] [1] [] []
  dot_S512x128_S128x128_S512x128_1_0_0_1_n_n_wf : DotDims.WF S512x128 S128x128 S512x128 [1] [0] [0] [1] [] []
  dot_S512x128_S128x16_S512x16_1_0_0_1_n_n_wf : DotDims.WF S512x128 S128x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S100000x128.size a
  hwx1_0 : ∀ i : grid1.Coords, EltTy.bits .f32 = 32 ∨ (Rect.block (s := S100000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S100000x1.size a
  hwx1_1 : ∀ i : grid1.Coords, EltTy.bits .i32 = 32 ∨ (Rect.block (s := S100000x1) S1000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S512x128.size a
  hwx1_2 : ∀ i : grid1.Coords, EltTy.bits .f32 = 32 ∨ (Rect.block (s := S512x128) S512x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S100000x128.size a
  hwx2_7 : ∀ i : grid2.Coords, EltTy.bits .f32 = 32 ∨ (Rect.block (s := S100000x128) S2000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S100000x128.size a
  hwx3_0 : ∀ i : grid3.Coords, EltTy.bits .f32 = 32 ∨ (Rect.block (s := S100000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S100000x1.size a
  hwx3_1 : ∀ i : grid3.Coords, EltTy.bits .i32 = 32 ∨ (Rect.block (s := S100000x1) S1000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x128.size a ≤ S512x128.size a
  hwx3_2 : ∀ i : grid3.Coords, EltTy.bits .f32 = 32 ∨ (Rect.block (s := S512x128) S512x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S100000x128.size a
  hwx4_7 : ∀ i : grid4.Coords, EltTy.bits .f32 = 32 ∨ (Rect.block (s := S100000x128) S2000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S100000x128.size a
  hwx5_0 : ∀ i : grid5.Coords, EltTy.bits .f32 = 32 ∨ (Rect.block (s := S100000x128) S1000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x1.size a ≤ S100000x1.size a
  hwx5_1 : ∀ i : grid5.Coords, EltTy.bits .i32 = 32 ∨ (Rect.block (s := S100000x1) S1000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S512x128.size a ≤ S512x128.size a
  hwx5_2 : ∀ i : grid5.Coords, EltTy.bits .f32 = 32 ∨ (Rect.block (s := S512x128) S512x128.size (cc5_transform_2 i) (hinb5_2 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1000x512_S1000x128_S512x128_0_0_1_1_n_n : DotDims S1000x512 S1000x128 S512x128 where
  lhsContracting := [0]
  rhsContracting := [0]
  lhsNonContracting := [1]
  rhsNonContracting := [1]
  lhsBatch := []
  rhsBatch := []
  wf := dot_S1000x512_S1000x128_S512x128_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x16_S512x16_1_0_0_1_n_n : DotDims S512x128 S128x16 S512x16 where
  lhsContracting := [1]
  rhsContracting := [0]
  lhsNonContracting := [0]
  rhsNonContracting := [1]
  lhsBatch := []
  rhsBatch := []
  wf := dot_S512x128_S128x16_S512x16_1_0_0_1_n_n_wf

abbrev win0_0 : Pipeline.Window sig grid0 :=
  Pipeline.Window.ofSpec (Memref.whole main_v20) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v46) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v47) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v47) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S512x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v64) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v80) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v87) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v88) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v89) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v84) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v90) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v91) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v91) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S1000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v92) S512x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v108) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v124) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v131) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v132) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v133) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v128) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v134) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v135) S2000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v135) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v4) S1000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v136) S512x128.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x640000 : Shape := ⟨2, ![2, 640000]⟩
abbrev S100000 : Shape := ⟨1, ![100000]⟩
abbrev S3 : Shape := ⟨1, ![3]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1 : Shape := ⟨1, ![1]⟩
abbrev S1x128x128 : Shape := ⟨3, ![1, 128, 128]⟩
abbrev S1x128 : Shape := ⟨2, ![1, 128]⟩
abbrev S512x128 : Shape := ⟨2, ![512, 128]⟩
abbrev S100000x1 : Shape := ⟨2, ![100000, 1]⟩
abbrev S512x16 : Shape := ⟨2, ![512, 16]⟩
abbrev S1x16 : Shape := ⟨2, ![1, 16]⟩

abbrev nBuf : Space → Nat
  | .hbm => 250
  | .vmem => 0
  | .smem => 0
  | _ => 0

abbrev hbmTy0_0 (i : Nat) : BufTy := match i % 128 with
  | 0 => ⟨S100000x128, .f32⟩
  | 1 => ⟨S2x640000, .i32⟩
  | 2 => ⟨S100000, .i32⟩
  | 3 => ⟨S3, .f32⟩
  | 4 => ⟨S3x128x128, .f32⟩
  | 5 => ⟨S3x128, .f32⟩
  | 6 => ⟨S3x128, .f32⟩
  | 7 => ⟨S3x128, .f32⟩
  | 8 => ⟨S3x128, .f32⟩
  | 9 => ⟨S3x128, .f32⟩
  | 10 => ⟨S3x128x128, .f32⟩
  | 11 => ⟨S3x128, .f32⟩
  | 12 => ⟨S128x128, .f32⟩
  | 13 => ⟨S128, .f32⟩
  | 14 => ⟨S128x16, .f32⟩
  | 15 => ⟨S16, .f32⟩
  | 16 => ⟨S1x640000, .i32⟩
  | 17 => ⟨S640000, .i32⟩
  | 18 => ⟨S1x640000, .i32⟩
  | 19 => ⟨S640000, .i32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S640000x128, .f32⟩
  | 29 => ⟨S_, .f32⟩
  | 30 => ⟨S100000x128, .f32⟩
  | 31 => ⟨S640000x1, .i32⟩
  | 32 => ⟨S100000x128, .f32⟩
  | 33 => ⟨S1, .f32⟩
  | 34 => ⟨S_, .f32⟩
  | 35 => ⟨S_, .f32⟩
  | 36 => ⟨S_, .f32⟩
  | 37 => ⟨S100000x128, .f32⟩
  | 38 => ⟨S100000x128, .f32⟩
  | 39 => ⟨S100000x128, .f32⟩
  | 40 => ⟨S1x128x128, .f32⟩
  | 41 => ⟨S128x128, .f32⟩
  | 42 => ⟨S100000x128, .f32⟩
  | 43 => ⟨S1x128, .f32⟩
  | 44 => ⟨S128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S1x128, .f32⟩
  | 52 => ⟨S128, .f32⟩
  | 53 => ⟨S1x128, .f32⟩
  | 54 => ⟨S100000x128, .f32⟩
  | 55 => ⟨S100000x128, .f32⟩
  | 56 => ⟨S1x128, .f32⟩
  | 57 => ⟨S128, .f32⟩
  | 58 => ⟨S_, .f32⟩
  | 59 => ⟨S128, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S1x128, .f32⟩
  | 66 => ⟨S128, .f32⟩
  | 67 => ⟨S1x128, .f32⟩
  | 68 => ⟨S100000x128, .f32⟩
  | 69 => ⟨S100000x128, .f32⟩
  | 70 => ⟨S1x128, .f32⟩
  | 71 => ⟨S128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S1x128x128, .f32⟩
  | 79 => ⟨S128x128, .f32⟩
  | 80 => ⟨S100000x128, .f32⟩
  | 81 => ⟨S1x128, .f32⟩
  | 82 => ⟨S128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S_, .f32⟩
  | 90 => ⟨S512x128, .f32⟩
  | 91 => ⟨S100000x1, .i32⟩
  | 92 => ⟨S512x128, .f32⟩
  | 93 => ⟨S_, .i32⟩
  | 94 => ⟨S640000, .i32⟩
  | 95 => ⟨S640000, .i1⟩
  | 96 => ⟨S_, .i32⟩
  | 97 => ⟨S640000, .i32⟩
  | 98 => ⟨S640000, .i32⟩
  | 99 => ⟨S640000, .i32⟩
  | 100 => ⟨S640000x1, .i32⟩
  | 101 => ⟨S640000x128, .f32⟩
  | 102 => ⟨S_, .f32⟩
  | 103 => ⟨S100000x128, .f32⟩
  | 104 => ⟨S640000x1, .i32⟩
  | 105 => ⟨S100000x128, .f32⟩
  | 106 => ⟨S1, .f32⟩
  | 107 => ⟨S_, .f32⟩
  | 108 => ⟨S_, .f32⟩
  | 109 => ⟨S_, .f32⟩
  | 110 => ⟨S100000x128, .f32⟩
  | 111 => ⟨S100000x128, .f32⟩
  | 112 => ⟨S100000x128, .f32⟩
  | 113 => ⟨S1x128x128, .f32⟩
  | 114 => ⟨S128x128, .f32⟩
  | 115 => ⟨S100000x128, .f32⟩
  | 116 => ⟨S1x128, .f32⟩
  | 117 => ⟨S128, .f32⟩
  | 118 => ⟨S1x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S1x128, .f32⟩
  | 125 => ⟨S128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S1x128, .f32⟩
  | 2 => ⟨S128, .f32⟩
  | 3 => ⟨S_, .f32⟩
  | 4 => ⟨S128, .f32⟩
  | 5 => ⟨S128, .f32⟩
  | 6 => ⟨S128, .f32⟩
  | 7 => ⟨S1x128, .f32⟩
  | 8 => ⟨S100000x128, .f32⟩
  | 9 => ⟨S100000x128, .f32⟩
  | 10 => ⟨S1x128, .f32⟩
  | 11 => ⟨S128, .f32⟩
  | 12 => ⟨S1x128, .f32⟩
  | 13 => ⟨S100000x128, .f32⟩
  | 14 => ⟨S100000x128, .f32⟩
  | 15 => ⟨S1x128, .f32⟩
  | 16 => ⟨S128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S1x128x128, .f32⟩
  | 24 => ⟨S128x128, .f32⟩
  | 25 => ⟨S100000x128, .f32⟩
  | 26 => ⟨S1x128, .f32⟩
  | 27 => ⟨S128, .f32⟩
  | 28 => ⟨S1x128, .f32⟩
  | 29 => ⟨S100000x128, .f32⟩
  | 30 => ⟨S100000x128, .f32⟩
  | 31 => ⟨S_, .f32⟩
  | 32 => ⟨S100000x128, .f32⟩
  | 33 => ⟨S100000x128, .f32⟩
  | 34 => ⟨S_, .f32⟩
  | 35 => ⟨S512x128, .f32⟩
  | 36 => ⟨S100000x1, .i32⟩
  | 37 => ⟨S512x128, .f32⟩
  | 38 => ⟨S_, .i32⟩
  | 39 => ⟨S640000, .i32⟩
  | 40 => ⟨S640000, .i1⟩
  | 41 => ⟨S_, .i32⟩
  | 42 => ⟨S640000, .i32⟩
  | 43 => ⟨S640000, .i32⟩
  | 44 => ⟨S640000, .i32⟩
  | 45 => ⟨S640000x1, .i32⟩
  | 46 => ⟨S640000x128, .f32⟩
  | 47 => ⟨S_, .f32⟩
  | 48 => ⟨S100000x128, .f32⟩
  | 49 => ⟨S640000x1, .i32⟩
  | 50 => ⟨S100000x128, .f32⟩
  | 51 => ⟨S1, .f32⟩
  | 52 => ⟨S_, .f32⟩
  | 53 => ⟨S_, .f32⟩
  | 54 => ⟨S_, .f32⟩
  | 55 => ⟨S100000x128, .f32⟩
  | 56 => ⟨S100000x128, .f32⟩
  | 57 => ⟨S100000x128, .f32⟩
  | 58 => ⟨S1x128x128, .f32⟩
  | 59 => ⟨S128x128, .f32⟩
  | 60 => ⟨S100000x128, .f32⟩
  | 61 => ⟨S1x128, .f32⟩
  | 62 => ⟨S128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S1x128, .f32⟩
  | 70 => ⟨S128, .f32⟩
  | 71 => ⟨S1x128, .f32⟩
  | 72 => ⟨S100000x128, .f32⟩
  | 73 => ⟨S100000x128, .f32⟩
  | 74 => ⟨S1x128, .f32⟩
  | 75 => ⟨S128, .f32⟩
  | 76 => ⟨S_, .f32⟩
  | 77 => ⟨S128, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S1x128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S128, .f32⟩
  | 90 => ⟨S1x128, .f32⟩
  | 91 => ⟨S100000x128, .f32⟩
  | 92 => ⟨S100000x128, .f32⟩
  | 93 => ⟨S_, .f32⟩
  | 94 => ⟨S100000x128, .f32⟩
  | 95 => ⟨S100000x128, .f32⟩
  | 96 => ⟨S1x128x128, .f32⟩
  | 97 => ⟨S128x128, .f32⟩
  | 98 => ⟨S100000x128, .f32⟩
  | 99 => ⟨S1x128, .f32⟩
  | 100 => ⟨S128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S_, .f32⟩
  | 108 => ⟨S512x128, .f32⟩
  | 109 => ⟨S100000x1, .i32⟩
  | 110 => ⟨S512x128, .f32⟩
  | 111 => ⟨S512x128, .f32⟩
  | 112 => ⟨S1x128, .f32⟩
  | 113 => ⟨S512x128, .f32⟩
  | 114 => ⟨S512x128, .f32⟩
  | 115 => ⟨S_, .f32⟩
  | 116 => ⟨S512x128, .f32⟩
  | 117 => ⟨S512x128, .f32⟩
  | 118 => ⟨S512x16, .f32⟩
  | 119 => ⟨S1x16, .f32⟩
  | 120 => ⟨S512x16, .f32⟩
  | 121 => ⟨S512x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_cst : Ref sig .tc := ⟨.hbm, 48, rfl⟩
abbrev main_call0_v0 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call2_cst : Ref sig .tc := ⟨.hbm, 86, rfl⟩
abbrev main_call2_v0 : Ref sig .tc := ⟨.hbm, 87, rfl⟩
abbrev main_v61 : Ref sig .tc := ⟨.hbm, 88, rfl⟩
abbrev main_cst_3 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_4 : Ref sig .tc := ⟨.hbm, 93, rfl⟩
abbrev main_v65 : Ref sig .tc := ⟨.hbm, 94, rfl⟩
abbrev main_v66 : Ref sig .tc := ⟨.hbm, 95, rfl⟩
abbrev main_c_5 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_6 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_7 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_call3_cst : Ref sig .tc := ⟨.hbm, 121, rfl⟩
abbrev main_call3_v0 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_8 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_call4_cst : Ref sig .tc := ⟨.hbm, 148, rfl⟩
abbrev main_call4_v0 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_call5_cst : Ref sig .tc := ⟨.hbm, 159, rfl⟩
abbrev main_call5_v0 : Ref sig .tc := ⟨.hbm, 160, rfl⟩
abbrev main_v122 : Ref sig .tc := ⟨.hbm, 161, rfl⟩
abbrev main_cst_9 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_c_10 : Ref sig .tc := ⟨.hbm, 166, rfl⟩
abbrev main_v126 : Ref sig .tc := ⟨.hbm, 167, rfl⟩
abbrev main_v127 : Ref sig .tc := ⟨.hbm, 168, rfl⟩
abbrev main_c_11 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_cst_12 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_13 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_call6_cst : Ref sig .tc := ⟨.hbm, 194, rfl⟩
abbrev main_call6_v0 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_cst_14 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_call7_cst : Ref sig .tc := ⟨.hbm, 221, rfl⟩
abbrev main_call7_v0 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_call8_cst : Ref sig .tc := ⟨.hbm, 232, rfl⟩
abbrev main_call8_v0 : Ref sig .tc := ⟨.hbm, 233, rfl⟩
abbrev main_v183 : Ref sig .tc := ⟨.hbm, 234, rfl⟩
abbrev main_cst_15 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_call9_cst : Ref sig .tc := ⟨.hbm, 243, rfl⟩
abbrev main_call9_v0 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  slices_S3_S1_0 : S3.Slices ![0] S1
  shapeCasts_S1_S_ : S1.ShapeCasts S_
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S512x128 : S_.BroadcastsInDim S512x128 (![] : Fin 0 → Fin S512x128.rank)
  bcast_S100000_S100000x1_0 : S100000.BroadcastsInDim S100000x1 (![0] : Fin 1 → Fin S100000x1.rank)
  slices_S3_S1_1 : S3.Slices ![1] S1
  slices_S3x128x128_S1x128x128_1_0_0 : S3x128x128.Slices ![1, 0, 0] S1x128x128
  slices_S3x128_S1x128_1_0 : S3x128.Slices ![1, 0] S1x128
  slices_S3_S1_2 : S3.Slices ![2] S1
  slices_S3x128x128_S1x128x128_2_0_0 : S3x128x128.Slices ![2, 0, 0] S1x128x128
  slices_S3x128_S1x128_2_0 : S3x128.Slices ![2, 0] S1x128
  bcast_S1x128_S512x128_0_1 : S1x128.BroadcastsInDim S512x128 (![0, 1] : Fin 2 → Fin S512x128.rank)
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  dot_S512x128_S128x128_S512x128_1_0_0_1_n_n_wf : DotDims.WF S512x128 S128x128 S512x128 [1] [0] [0] [1] [] []
  dot_S512x128_S128x16_S512x16_1_0_0_1_n_n_wf : DotDims.WF S512x128 S128x16 S512x16 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x16_S512x16_1_0_0_1_n_n : DotDims S512x128 S128x16 S512x16 where
  lhsContracting := [1]
  rhsContracting := [0]
  lhsNonContracting := [0]
  rhsNonContracting := [1]
  lhsBatch := []
  rhsBatch := []
  wf := dot_S512x128_S128x16_S512x16_1_0_0_1_n_n_wf

class Facts : Prop extends Facts₀ where

variable [Facts]
-- ==== Proof.KB.MlpBody.lean ====
import proofs.«416174_j54228257079641_1_alg».proof.Proof.Gen.Kernel.Launch
import proofs.«416174_j54228257079641_1_alg».proof.Proof.Gen.Kernel.Skeleton
import Idealize.ShloMosaic.Lib.Pipeline.FrameBody
import Idealize.ShloMosaic.Lib.Pipeline.TableIdle

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem

variable {F : FTy → Type} [FloatOps F]

local notation "𝕄" => MT nD τ sig Unit (Elt F) ℕ (UR sig nD τ) ℕ

abbrev rTile : Rect S2000x128 := Rect.unit (s := S2000x128) ![0, 0] S2000x128.size inb_S2000x128_S2000x128_0_0
abbrev rMat : Rect S128x128 := Rect.unit (s := S128x128) ![0, 0] S128x128.size inb_S128x128_S128x128_0_0
abbrev rRow : Rect S1x128 := Rect.unit (s := S1x128) ![0, 0] S1x128.size inb_S1x128_S1x128_0_0

/-- The body reads its seven inputs whole and stores once, over the whole output tile, so the tile ends at that one payload. -/
theorem mlp_sound (c : Dev nD) (E : Set ℕ) {i : grid0.Coords}
    {arg1 : Memref sig .tc .vmem S2000x128 .f32} {harg1 : arg1.IsWhole} {arg2 : Memref sig .tc .vmem S128x128 .f32} {harg2 : arg2.IsWhole}
    {arg3 : Memref sig .tc .vmem S1x128 .f32} {harg3 : arg3.IsWhole} {arg4 : Memref sig .tc .vmem S1x128 .f32} {harg4 : arg4.IsWhole}
    {arg5 : Memref sig .tc .vmem S1x128 .f32} {harg5 : arg5.IsWhole} {arg6 : Memref sig .tc .vmem S128x128 .f32} {harg6 : arg6.IsWhole}
    {arg7 : Memref sig .tc .vmem S1x128 .f32} {harg7 : arg7.IsWhole} {arg8 : Memref sig .tc .vmem S2000x128 .f32} {harg8 : arg8.IsWhole}
    {x0 : Vec F S2000x128 .f32} {x1 : Vec F S128x128 .f32} {x2 x3 x4 : Vec F S1x128 .f32} {x5 : Vec F S128x128 .f32} {x6 : Vec F S1x128 .f32}
    {y : Vec F S2000x128 .f32} (hy : y = View.canon [⟨rTile, k0_pay1 (View.ld x0 rTile) (View.ld x1 rMat) (View.ld x2 rRow) (View.ld x3 rRow) (View.ld x4 rRow) (View.ld x5 rMat) (View.ld x6 rRow)⟩]) {K : PUnit → sProp 𝕄} {k} (hk : k = @cc0__mlp_kernel F _) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare y) -∗ K ⟨⟩))
      ⊢ wp frame (wpE (defs₀ (F := F)) Variants.none c none) E (k i arg1 harg1 arg2 harg2 arg3 harg3 arg4 harg4 arg5 harg5 arg6 harg6 arg7 harg7 arg8 harg8) K := by
  subst hy hk
  simp only [cc0__mlp_kernel_eq_skeleton, owns_eq_rep (c : Thread nD τ) arg1, owns_eq_rep (c : Thread nD τ) arg2, owns_eq_rep (c : Thread nD τ) arg3, owns_eq_rep (c : Thread nD τ) arg4, owns_eq_rep (c : Thread nD τ) arg5, owns_eq_rep (c : Thread nD τ) arg6, owns_eq_rep (c : Thread nD τ) arg7]
  unfold cc0__mlp_kernel_skel owns
  iintro ⟨H0, H1, H2, H3, H4, H5, H6, ⟨%d, %f, -, H7⟩, Hk⟩
  sl_exec
  sl_step
  iapply Hk
  iframe
  simp only [View.readAt_rep]
  iexists _; isplitr
  swap; · iexact H7
  ipureintro
  exact View.read_writes_eq_canon _ _ _ (View.cover_of_tiled _ S2000x128.size (by rfl))

end Cert.Kernel.Hand

end
-- ==== Proof.KB.MlpRegion0.lean ====
import proofs.«416174_j54228257079641_1_alg».proof.Proof.KB.MlpBody
import proofs.«416174_j54228257079641_1_alg».proof.Proof.Gen.Kernel.Points

noncomputable section

namespace Cert.Kernel.Hand

open Cert.Kernel Cert.Kernel.Gen
open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_7 (x0 : Vec F S2000x128 .f32) (x1 : Vec F S128x128 .f32) (x2 x3 x4 : Vec F S1x128 .f32) (x5 : Vec F S128x128 .f32) (x6 : Vec F S1x128 .f32) : Vec F S2000x128 .f32 :=
  View.canon [⟨rTile, k0_pay1 (View.ld x0 rTile) (View.ld x1 rMat) (View.ld x2 rRow) (View.ld x3 rRow) (View.ld x4 rRow) (View.ld x5 rMat) (View.ld x6 rRow)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0 (c : Dev nD) (t : Fin cfg0.N) : ∀ w : Fin cfg0.W, w ≠ 7 → ∀ d, (dat0 V c).before w t d = (dat0 V c).fetched w t d
  | ⟨0, _⟩, _, d | ⟨1, _⟩, _, d | ⟨2, _⟩, _, d | ⟨3, _⟩, _, d | ⟨4, _⟩, _, d | ⟨5, _⟩, _, d | ⟨6, _⟩, _, d =>
    (dat0 V c).before_in_eq_fetched _ rfl (fun _ => rfl) (fun _ _ _ => rfl) (fun _ => rfl) t d
  | ⟨7, _⟩, h, _ => absurd rfl h

theorem sound_body0 (c : Dev nD) (t : Fin cfg0.N) :
    iprop((dat0 V c).Φ t.castSucc ∗ (dat0 V c).owesAt () t.castSucc
        ∗ bigSep Finset.univ fun w : Fin cfg0.W => iprop(∃ d, owns c ((cfg0.win w).stage (cfg0.slots t w)) fullShare ((dat0 V c).before w t d)))
      ⊢ wp frame (wpE (defs₀ (F := F)) Variants.none c none) Set.univ (bodyAt0 t) fun _ =>
        iprop((dat0 V c).Φ t.castSucc ∗ (dat0 V c).owesAt () t.castSucc
          ∗ bigSep Finset.univ fun w : Fin cfg0.W => owns c ((cfg0.win w).stage (cfg0.slots t w)) fullShare ((dat0 V c).after w t)) := by
  rw [bigSep_W0, bigSep_W0]
  simp (disch := decide) only [before0 V c t]
  iintro ⟨HΦ, Ho, ⟨%_, H0⟩, ⟨%_, H1⟩, ⟨%_, H2⟩, ⟨%_, H3⟩, ⟨%_, H4⟩, ⟨%_, H5⟩, ⟨%_, H6⟩, ⟨%_, H7⟩⟩
  iapply (mlp_sound c Set.univ (after0_7 V c t) (k := cc0__mlp_kernel) rfl)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro H
  isplitl [HΦ]; · iexact HΦ
  isplitl [Ho]; · iexact Ho
  iexact H

theorem body_obligation0 (c : Dev nD) : BodyObligation (dat0 (F := F) V c) (defs₀ (F := F)) Variants.none () Set.univ :=
  fun t => sound_body0 V c t

end Cert.Kernel.Hand

end
-- ==== Proof.KB.MlpRegion2.lean ====
import proofs.«416174_j54228257079641_1_alg».proof.Proof.KB.MlpBody
import proofs.«416174_j54228257079641_1_alg».proof.Proof.Gen.Kernel.Points

noncomputable section

namespace Cert.Kernel.Hand

open Cert.Kernel Cert.Kernel.Gen
open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_7 (x0 : Vec F S2000x128 .f32) (x1 : Vec F S128x128 .f32) (x2 x3 x4 : Vec F S1x128 .f32) (x5 : Vec F S128x128 .f32) (x6 : Vec F S1x128 .f32) : Vec F S2000x128 .f32 :=
  View.canon [⟨rTile, k2_pay1 (View.ld x0 rTile) (View.ld x1 rMat) (View.ld x2 rRow) (View.ld x3 rRow) (View.ld x4 rRow) (View.ld x5 rMat) (View.ld x6 rRow)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2 (c : Dev nD) (t : Fin cfg2.N) : ∀ w : Fin cfg2.W, w ≠ 7 → ∀ d, (dat2 V c).before w t d = (dat2 V c).fetched w t d
  | ⟨0, _⟩, _, d | ⟨1, _⟩, _, d | ⟨2, _⟩, _, d | ⟨3, _⟩, _, d | ⟨4, _⟩, _, d | ⟨5, _⟩, _, d | ⟨6, _⟩, _, d =>
    (dat2 V c).before_in_eq_fetched _ rfl (fun _ => rfl) (fun _ _ _ => rfl) (fun _ => rfl) t d
  | ⟨7, _⟩, h, _ => absurd rfl h

theorem sound_body2 (c : Dev nD) (t : Fin cfg2.N) :
    iprop((dat2 V c).Φ t.castSucc ∗ (dat2 V c).owesAt () t.castSucc
        ∗ bigSep Finset.univ fun w : Fin cfg2.W => iprop(∃ d, owns c ((cfg2.win w).stage (cfg2.slots t w)) fullShare ((dat2 V c).before w t d)))
      ⊢ wp frame (wpE (defs₀ (F := F)) Variants.none c none) Set.univ (bodyAt2 t) fun _ =>
        iprop((dat2 V c).Φ t.castSucc ∗ (dat2 V c).owesAt () t.castSucc
          ∗ bigSep Finset.univ fun w : Fin cfg2.W => owns c ((cfg2.win w).stage (cfg2.slots t w)) fullShare ((dat2 V c).after w t)) := by
  rw [bigSep_W2, bigSep_W2]
  simp (disch := decide) only [before2 V c t]
  iintro ⟨HΦ, Ho, ⟨%_, H0⟩, ⟨%_, H1⟩, ⟨%_, H2⟩, ⟨%_, H3⟩, ⟨%_, H4⟩, ⟨%_, H5⟩, ⟨%_, H6⟩, ⟨%_, H7⟩⟩
  iapply (mlp_sound c Set.univ (after2_7 V c t) (k := cc2__mlp_kernel) rfl)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro H
  isplitl [HΦ]; · iexact HΦ
  isplitl [Ho]; · iexact Ho
  iexact H

theorem body_obligation2 (c : Dev nD) : BodyObligation (dat2 (F := F) V c) (defs₀ (F := F)) Variants.none () Set.univ :=
  fun t => sound_body2 V c t

end Cert.Kernel.Hand

end
-- ==== Proof.KB.MlpRegion4.lean ====
import proofs.«416174_j54228257079641_1_alg».proof.Proof.KB.MlpBody
import proofs.«416174_j54228257079641_1_alg».proof.Proof.Gen.Kernel.Points

noncomputable section

namespace Cert.Kernel.Hand

open Cert.Kernel Cert.Kernel.Gen
open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_7 (x0 : Vec F S2000x128 .f32) (x1 : Vec F S128x128 .f32) (x2 x3 x4 : Vec F S1x128 .f32) (x5 : Vec F S128x128 .f32) (x6 : Vec F S1x128 .f32) : Vec F S2000x128 .f32 :=
  View.canon [⟨rTile, k4_pay1 (View.ld x0 rTile) (View.ld x1 rMat) (View.ld x2 rRow) (View.ld x3 rRow) (View.ld x4 rRow) (View.ld x5 rMat) (View.ld x6 rRow)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

theorem before4 (c : Dev nD) (t : Fin cfg4.N) : ∀ w : Fin cfg4.W, w ≠ 7 → ∀ d, (dat4 V c).before w t d = (dat4 V c).fetched w t d
  | ⟨0, _⟩, _, d | ⟨1, _⟩, _, d | ⟨2, _⟩, _, d | ⟨3, _⟩, _, d | ⟨4, _⟩, _, d | ⟨5, _⟩, _, d | ⟨6, _⟩, _, d =>
    (dat4 V c).before_in_eq_fetched _ rfl (fun _ => rfl) (fun _ _ _ => rfl) (fun _ => rfl) t d
  | ⟨7, _⟩, h, _ => absurd rfl h

theorem sound_body4 (c : Dev nD) (t : Fin cfg4.N) :
    iprop((dat4 V c).Φ t.castSucc ∗ (dat4 V c).owesAt () t.castSucc
        ∗ bigSep Finset.univ fun w : Fin cfg4.W => iprop(∃ d, owns c ((cfg4.win w).stage (cfg4.slots t w)) fullShare ((dat4 V c).before w t d)))
      ⊢ wp frame (wpE (defs₀ (F := F)) Variants.none c none) Set.univ (bodyAt4 t) fun _ =>
        iprop((dat4 V c).Φ t.castSucc ∗ (dat4 V c).owesAt () t.castSucc
          ∗ bigSep Finset.univ fun w : Fin cfg4.W => owns c ((cfg4.win w).stage (cfg4.slots t w)) fullShare ((dat4 V c).after w t)) := by
  rw [bigSep_W4, bigSep_W4]
  simp (disch := decide) only [before4 V c t]
  iintro ⟨HΦ, Ho, ⟨%_, H0⟩, ⟨%_, H1⟩, ⟨%_, H2⟩, ⟨%_, H3⟩, ⟨%_, H4⟩, ⟨%_, H5⟩, ⟨%_, H6⟩, ⟨%_, H7⟩⟩
  iapply (mlp_sound c Set.univ (after4_7 V c t) (k := cc4__mlp_kernel) rfl)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro H
  isplitl [HΦ]; · iexact HΦ
  isplitl [Ho]; · iexact Ho
  iexact H

theorem body_obligation4 (c : Dev nD) : BodyObligation (dat4 (F := F) V c) (defs₀ (F := F)) Variants.none () Set.univ :=
  fun t => sound_body4 V c t

end Cert.Kernel.Hand

end
-- ==== Proof.KB.PoolData1.lean ====
import proofs.«416174_j54228257079641_1_alg».proof.Proof.Gen.Kernel.Launch
import proofs.«416174_j54228257079641_1_alg».proof.Proof.Gen.Kernel.Skeleton
import proofs.«416174_j54228257079641_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scM1 : Memref sig .tc .vmem S512x128 .f32 := Memref.whole cc1_scratch0

/-- The zero array plus the contributions of the tiles up to point `n`. -/
def accAt1 (c : Dev nD) : (n : ℕ) → n < cfg1.N → Vec F S512x128 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩) (accAt1 c n (Nat.lt_of_succ_lt hn))

/-- Before position `n` the scratch holds what the point before left, if there is one; the rest is untouched. -/
def PhiS1 (c : Dev nD) (n : ℕ) (h : n ≤ cfg1.N) : sProp 𝕄 :=
  iprop((∃ a, ⌜∀ hn : 0 < n, a = accAt1 V c (n - 1) (by omega)⌝ ∗ owns c.tc scM1 fullShare a)
    ∗ Pipeline.scopedRestBut spec1 c [cc1_scratch0] ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem after1_2 (c : Dev nD) (t : Fin cfg1.N) : (dat1 V c).after 2 t = accAt1 V c t.val t.isLt := rfl

end Cert.Kernel.Hand

end
-- ==== Proof.KB.PoolBody.lean ====
import proofs.«416174_j54228257079641_1_alg».proof.Proof.Gen.Kernel.Skeleton
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

theorem zeroOff : (![0, 0] : Fin 2 → Nat) = fun _ => 0 := funext fun a => by fin_cases a <;> rfl

abbrev rW : Rect S512x128 := Rect.unit (s := S512x128) ![0, 0] ![512, 128] inb_S512x128_S512x128_0_0

theorem cover_rW (w : Vec F S512x128 .f32) (L : List (View.Piece (Elt F) S512x128 .f32)) (y : S512x128.Idx) :
    ∃ pc ∈ ((⟨rW, w⟩ : View.Piece (Elt F) S512x128 .f32) :: L), y ∈ pc.1.set :=
  ⟨_, List.mem_cons_self, View.mem_set_unit_zero zeroOff inb_S512x128_S512x128_0_0 y⟩

/-- A whole store, last, leaves its payload in the buffer whatever was there: -/
theorem read_writes_rW {κ : Kind} {sp : Space} (v : View sig κ sp S512x128 .f32) (f : v.ty.Contents (Elt F)) (w : Vec F S512x128 .f32)
    (L : List (View.Piece (Elt F) S512x128 .f32)) : v.read (Elt F) (v.writes (Elt F) f (⟨rW, w⟩ :: L)) = w :=
  (View.read_writes_eq_canon _ _ _ (cover_rW w L)).trans (View.canon_cons_unit_zero zeroOff _ w L)

/-- and a whole load after it reads that payload. -/
theorem readCov_rW {κ : Kind} {sp : Space} (v : View sig κ sp S512x128 .f32) (w : Vec F S512x128 .f32)
    (L : List (View.Piece (Elt F) S512x128 .f32)) : v.readCov (⟨rW, w⟩ :: L) rW.toLoadRect = w := by
  rw [View.readCov_eq_canon_ld _ _ _ (cover_rW w L), View.canon_cons_unit_zero zeroOff, View.ld_unit_zero zeroOff]

/-- The body's test for the first point: the point's coordinate is zero. -/
abbrev poolFirst (i : grid1.Coords) : Prop :=
  Scalar.cmpi .ne (Scalar.extui (Scalar.cmpi .eq (BitVec.ofNat 32 (i 0).val) 0#32)) 0#32 = 1#1

set_option maxHeartbeats 4000000 in
/-- The scratch, reset to zero at the first point, gains the tile's contribution; at the last point the output's buffer takes the result. -/
theorem pool_sound (c : Dev nD) (E : Set ℕ) (i : grid1.Coords)
    (arg1 : Memref sig .tc .vmem S1000x128 .f32) (harg1 : arg1.IsWhole) (arg2 : Memref sig .tc .vmem S1000x1 .i32) (harg2 : arg2.IsWhole)
    (arg3 : Memref sig .tc .vmem S512x128 .f32) (harg3 : arg3.IsWhole) (arg4 : Memref sig .tc .vmem S512x128 .f32) (harg4 : arg4.IsWhole)
    (x0 : Vec F S1000x128 .f32) (x1 : Vec F S1000x1 .i32) (x2 a r : Vec F S512x128 .f32)
    (hr : r = k1_pay2 x0 x1 (if poolFirst i then k1_pay1 else a)) (P : sProp 𝕄)
    (hP : owns c.tc arg3 fullShare (if k1_cond2 i = 1#1 then r else x2) ⊢ P) (K : PUnit → sProp 𝕄) :
    iprop(owns c.tc arg1 fullShare x0 ∗ owns c.tc arg2 fullShare x1 ∗ owns c.tc arg3 fullShare x2
        ∗ owns c.tc arg4 fullShare a
        ∗ (iprop(owns c.tc arg1 fullShare x0 ∗ owns c.tc arg2 fullShare x1
            ∗ P ∗ owns c.tc arg4 fullShare r) -∗ K ⟨⟩))
      ⊢ wp frame (wpE (defs₀ (F := F)) Variants.none c none) E (cc1__pool_kernel i arg1 harg1 arg2 harg2 arg3 harg3 arg4 harg4) K := by
  subst hr
  by_cases hc1 : poolFirst i <;> by_cases hc2 : k1_cond2 i = 1#1 <;> simp only [poolFirst, hc1, hc2, if_pos, if_neg, not_false_eq_true] at hP ⊢
  all_goals
    simp only [cc1__pool_kernel_eq_skeleton]; unfold cc1__pool_kernel_skel owns; unfold owns at hP
    iintro ⟨⟨%f0, %hf0, H0⟩, ⟨%f1, %hf1, H1⟩, ⟨%f2, %hf2, H2⟩, ⟨%f3, %hf3, H3⟩, Hk⟩
    subst hf0 hf1 hf2 hf3
    sl_exec (disch := first | exact hc1 | exact hc2)
    sl_step
    iapply Hk
    isplitl [H0] <;> try isplitl [H1] <;> try (isplitl [H2]; iapply hP)
    all_goals
      iexists _; isplitr; swap; (first | iexact H0 | iexact H1 | iexact H2 | iexact H3)
      ipureintro; sl_unfold_words
      simp only [read_writes_rW, readCov_rW, View.readAt_eq_ld, View.ld_unit_zero (S := S1000x128) zeroOff, View.ld_unit_zero (S := S1000x1) zeroOff, View.ld_unit_zero (S := S512x128) zeroOff]

end Cert.Kernel.Hand

end
-- ==== Proof.KB.PoolRegion1.lean ====
import proofs.«416174_j54228257079641_1_alg».proof.Proof.KB.PoolData1
import proofs.«416174_j54228257079641_1_alg».proof.Proof.KB.PoolBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcondF1 : ∀ t : Fin grid1.N, poolFirst (grid1.coords t) ↔ t.val = 0 := by decide +kernel

theorem out1_2 : ∀ t : Fin cfg1.N, (k1_cond2 (grid1.coords t) = 1#1 → cfg1.idle 2 (grid1.coords t) = false)
    ∧ (¬ k1_cond2 (grid1.coords t) = 1#1 → cfg1.idle 2 (grid1.coords t) = true ∧ (cfg1.win 2).flush t = false) := by decide +kernel

theorem before1_0 (c : Dev nD) (t : Fin cfg1.N) (d) : (dat1 V c).before 0 t d = iblk1 V c 0 t :=
  (dat1 V c).before_fetched 0 t (fetch1_0 t) d
theorem before1_1 (c : Dev nD) (t : Fin cfg1.N) (d) : (dat1 V c).before 1 t d = iblk1 V c 1 t :=
  (dat1 V c).before_fetched 1 t (fetch1_1 t) d

/-- One point's step of the scratch's contents, from what the point found there. -/
theorem accAt1_step (c : Dev nD) (t : Fin cfg1.N) (a : Vec F S512x128 .f32)
    (ha : ∀ hn : 0 < t.val, a = accAt1 V c (t.val - 1) (Nat.lt_of_le_of_lt (Nat.sub_le _ _) t.isLt)) :
    accAt1 V c t.val t.isLt = k1_pay2 (iblk1 V c 0 t) (iblk1 V c 1 t) (if poolFirst (grid1.coords t) then k1_pay1 else a) := by
  obtain ⟨n, hn⟩ := t
  cases n with
  | zero => rw [if_pos ((hcondF1 _).mpr rfl)]; rfl
  | succ n => rw [if_neg fun h => Nat.succ_ne_zero n ((hcondF1 _).mp h), ha (Nat.succ_pos n)]; rfl

theorem out1_2_leaves (c : Dev nD) (t : Fin cfg1.N) (d) :
    owns c.tc (st1_2 t) fullShare (if k1_cond2 (grid1.coords t) = 1#1 then accAt1 V c t.val t.isLt else (dat1 V c).before 2 t d)
      ⊢ (dat1 V c).leavesExact 2 t := by
  by_cases hc2 : k1_cond2 (grid1.coords t) = 1#1
  · rw [if_pos hc2]; unfold Dat.leavesExact; rw [(out1_2 t).1 hc2]; exact .rfl
  · rw [if_neg hc2, Dat.leavesExact_idle _ 2 t ((out1_2 t).2 hc2).1 ((out1_2 t).2 hc2).2]; iintro H; iexists d; iexact H

theorem sound_body1 (c : Dev nD) (t : Fin cfg1.N) :
    iprop(PhiS1 V c t.val (Nat.le_of_lt t.isLt) ∗ (dat1 V c).owesAt () t.castSucc
      ∗ (∃ d, owns c.tc (st1_0 t) fullShare ((dat1 V c).before 0 t d))
      ∗ (∃ d, owns c.tc (st1_1 t) fullShare ((dat1 V c).before 1 t d))
      ∗ (∃ d, owns c.tc (st1_2 t) fullShare ((dat1 V c).before 2 t d)))
    ⊢ wp frame (wpE (defs₀ (F := F)) Variants.none c none) Set.univ (bodyAt1 t) fun _ =>
      iprop(PhiS1 V c (t.val + 1) t.isLt ∗ (dat1 V c).owesAt () t.castSucc
        ∗ owns c.tc (st1_0 t) fullShare (iblk1 V c 0 t)
        ∗ owns c.tc (st1_1 t) fullShare (iblk1 V c 1 t)
        ∗ (dat1 V c).leavesExact 2 t) := by
  simp only [before1_0, before1_1]; unfold PhiS1 bodyAt1
  iintro ⟨⟨⟨%a, %ha, HS⟩, HR⟩, Ho, ⟨%d0, H0⟩, ⟨%d1, H1⟩, ⟨%d2, H2⟩⟩
  iapply (pool_sound c Set.univ _ _ (hstage1_0 _) _ (hstage1_1 _) _ (hstage1_2 _) _ (Memref.isWhole_whole _) (iblk1 V c 0 t) (iblk1 V c 1 t) ((dat1 V c).before 2 t d2) a _ (accAt1_step V c t a ha) _ (out1_2_leaves V c t d2) _)
  iframe H0 H1 H2 HS
  iintro ⟨H0, H1, H2, HS⟩
  iframe H0 H1 H2 Ho HR
  iexists _; isplitr; swap; · iexact HS
  ipureintro; exact fun _ => rfl

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  show _ ⊢ PhiS1 V c 0 (Nat.zero_le _); unfold PhiS1 Pipeline.ΦA; rw [scopedRest1_split]; simp only [scM1, owns_whole]
  iintro ⟨⟨⟨%d, HS⟩, HR⟩, Hg⟩
  iframe HR Hg
  iexists d; isplitr; · ipureintro; exact fun h => nomatch h
  iexact HS

/-- The scratch's named contents are forgotten. -/
theorem hout1 (c : Dev nD) : (dat1 V c).Φ (Fin.last cfg1.N) ⊢ Pipeline.ΦA spec1 c := by
  show PhiS1 V c _ (Nat.le_refl _) ⊢ _; unfold PhiS1 Pipeline.ΦA; rw [scopedRest1_split]; simp only [scM1, owns_whole]
  iintro ⟨⟨%a, -, HS⟩, HR, Hg⟩
  iframe HR Hg
  iexists a; iexact HS

end Cert.Kernel.Hand

end
-- ==== Proof.KB.PoolData3.lean ====
import proofs.«416174_j54228257079641_1_alg».proof.Proof.Gen.Kernel.Launch
import proofs.«416174_j54228257079641_1_alg».proof.Proof.Gen.Kernel.Skeleton
import proofs.«416174_j54228257079641_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3 : Memref sig .tc .vmem S512x128 .f32 := Memref.whole cc3_scratch0

/-- The zero array plus the contributions of the tiles up to point `n`. -/
def accAt3 (c : Dev nD) : (n : ℕ) → n < cfg3.N → Vec F S512x128 .f32
  | 0, hn => k3_pay2 (iblk3 V c 0 ⟨0, hn⟩) (iblk3 V c 1 ⟨0, hn⟩) (k3_pay1 (F := F))
  | n + 1, hn => k3_pay2 (iblk3 V c 0 ⟨n + 1, hn⟩) (iblk3 V c 1 ⟨n + 1, hn⟩) (accAt3 c n (Nat.lt_of_succ_lt hn))

/-- Before position `n` the scratch holds what the point before left, if there is one; the rest is untouched. -/
def PhiS3 (c : Dev nD) (n : ℕ) (h : n ≤ cfg3.N) : sProp 𝕄 :=
  iprop((∃ a, ⌜∀ hn : 0 < n, a = accAt3 V c (n - 1) (by omega)⌝ ∗ owns c.tc scM3 fullShare a)
    ∗ Pipeline.scopedRestBut spec3 c [cc3_scratch0] ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => accAt3 V c t.val t.isLt
  Φ t := PhiS3 V c t.val (Nat.le_of_lt_succ t.isLt)
  q _ := fullShare
  owed _ := 0

theorem after3_2 (c : Dev nD) (t : Fin cfg3.N) : (dat3 V c).after 2 t = accAt3 V c t.val t.isLt := rfl

end Cert.Kernel.Hand

end
-- ==== Proof.KB.PoolRegion3.lean ====
import proofs.«416174_j54228257079641_1_alg».proof.Proof.KB.PoolData3
import proofs.«416174_j54228257079641_1_alg».proof.Proof.KB.PoolBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcondF3 : ∀ t : Fin grid3.N, poolFirst (grid3.coords t) ↔ t.val = 0 := by decide +kernel

theorem out3_2 : ∀ t : Fin cfg3.N, (k3_cond2 (grid3.coords t) = 1#1 → cfg3.idle 2 (grid3.coords t) = false)
    ∧ (¬ k3_cond2 (grid3.coords t) = 1#1 → cfg3.idle 2 (grid3.coords t) = true ∧ (cfg3.win 2).flush t = false) := by decide +kernel

theorem before3_0 (c : Dev nD) (t : Fin cfg3.N) (d) : (dat3 V c).before 0 t d = iblk3 V c 0 t :=
  (dat3 V c).before_fetched 0 t (fetch3_0 t) d
theorem before3_1 (c : Dev nD) (t : Fin cfg3.N) (d) : (dat3 V c).before 1 t d = iblk3 V c 1 t :=
  (dat3 V c).before_fetched 1 t (fetch3_1 t) d

/-- One point's step of the scratch's contents, from what the point found there. -/
theorem accAt3_step (c : Dev nD) (t : Fin cfg3.N) (a : Vec F S512x128 .f32)
    (ha : ∀ hn : 0 < t.val, a = accAt3 V c (t.val - 1) (Nat.lt_of_le_of_lt (Nat.sub_le _ _) t.isLt)) :
    accAt3 V c t.val t.isLt = k3_pay2 (iblk3 V c 0 t) (iblk3 V c 1 t) (if poolFirst (grid3.coords t) then k3_pay1 else a) := by
  obtain ⟨n, hn⟩ := t
  cases n with
  | zero => rw [if_pos ((hcondF3 _).mpr rfl)]; rfl
  | succ n => rw [if_neg fun h => Nat.succ_ne_zero n ((hcondF3 _).mp h), ha (Nat.succ_pos n)]; rfl

theorem out3_2_leaves (c : Dev nD) (t : Fin cfg3.N) (d) :
    owns c.tc (st3_2 t) fullShare (if k3_cond2 (grid3.coords t) = 1#1 then accAt3 V c t.val t.isLt else (dat3 V c).before 2 t d)
      ⊢ (dat3 V c).leavesExact 2 t := by
  by_cases hc2 : k3_cond2 (grid3.coords t) = 1#1
  · rw [if_pos hc2]; unfold Dat.leavesExact; rw [(out3_2 t).1 hc2]; exact .rfl
  · rw [if_neg hc2, Dat.leavesExact_idle _ 2 t ((out3_2 t).2 hc2).1 ((out3_2 t).2 hc2).2]; iintro H; iexists d; iexact H

theorem sound_body3 (c : Dev nD) (t : Fin cfg3.N) :
    iprop(PhiS3 V c t.val (Nat.le_of_lt t.isLt) ∗ (dat3 V c).owesAt () t.castSucc
      ∗ (∃ d, owns c.tc (st3_0 t) fullShare ((dat3 V c).before 0 t d))
      ∗ (∃ d, owns c.tc (st3_1 t) fullShare ((dat3 V c).before 1 t d))
      ∗ (∃ d, owns c.tc (st3_2 t) fullShare ((dat3 V c).before 2 t d)))
    ⊢ wp frame (wpE (defs₀ (F := F)) Variants.none c none) Set.univ (bodyAt3 t) fun _ =>
      iprop(PhiS3 V c (t.val + 1) t.isLt ∗ (dat3 V c).owesAt () t.castSucc
        ∗ owns c.tc (st3_0 t) fullShare (iblk3 V c 0 t)
        ∗ owns c.tc (st3_1 t) fullShare (iblk3 V c 1 t)
        ∗ (dat3 V c).leavesExact 2 t) := by
  simp only [before3_0, before3_1]; unfold PhiS3 bodyAt3
  iintro ⟨⟨⟨%a, %ha, HS⟩, HR⟩, Ho, ⟨%d0, H0⟩, ⟨%d1, H1⟩, ⟨%d2, H2⟩⟩
  iapply (pool_sound c Set.univ _ _ (hstage3_0 _) _ (hstage3_1 _) _ (hstage3_2 _) _ (Memref.isWhole_whole _) (iblk3 V c 0 t) (iblk3 V c 1 t) ((dat3 V c).before 2 t d2) a _ (accAt3_step V c t a ha) _ (out3_2_leaves V c t d2) _)
  iframe H0 H1 H2 HS
  iintro ⟨H0, H1, H2, HS⟩
  iframe H0 H1 H2 Ho HR
  iexists _; isplitr; swap; · iexact HS
  ipureintro; exact fun _ => rfl

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  show _ ⊢ PhiS3 V c 0 (Nat.zero_le _); unfold PhiS3 Pipeline.ΦA; rw [scopedRest3_split]; simp only [scM3, owns_whole]
  iintro ⟨⟨⟨%d, HS⟩, HR⟩, Hg⟩
  iframe HR Hg
  iexists d; isplitr; · ipureintro; exact fun h => nomatch h
  iexact HS

/-- The scratch's named contents are forgotten. -/
theorem hout3 (c : Dev nD) : (dat3 V c).Φ (Fin.last cfg3.N) ⊢ Pipeline.ΦA spec3 c := by
  show PhiS3 V c _ (Nat.le_refl _) ⊢ _; unfold PhiS3 Pipeline.ΦA; rw [scopedRest3_split]; simp only [scM3, owns_whole]
  iintro ⟨⟨%a, -, HS⟩, HR, Hg⟩
  iframe HR Hg
  iexists a; iexact HS

end Cert.Kernel.Hand

end
-- ==== Proof.KB.PoolData5.lean ====
import proofs.«416174_j54228257079641_1_alg».proof.Proof.Gen.Kernel.Launch
import proofs.«416174_j54228257079641_1_alg».proof.Proof.Gen.Kernel.Skeleton
import proofs.«416174_j54228257079641_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev scM5 : Memref sig .tc .vmem S512x128 .f32 := Memref.whole cc5_scratch0

/-- The zero array plus the contributions of the tiles up to point `n`. -/
def accAt5 (c : Dev nD) : (n : ℕ) → n < cfg5.N → Vec F S512x128 .f32
  | 0, hn => k5_pay2 (iblk5 V c 0 ⟨0, hn⟩) (iblk5 V c 1 ⟨0, hn⟩) (k5_pay1 (F := F))
  | n + 1, hn => k5_pay2 (iblk5 V c 0 ⟨n + 1, hn⟩) (iblk5 V c 1 ⟨n + 1, hn⟩) (accAt5 c n (Nat.lt_of_succ_lt hn))

/-- Before position `n` the scratch holds what the point before left, if there is one; the rest is untouched. -/
def PhiS5 (c : Dev nD) (n : ℕ) (h : n ≤ cfg5.N) : sProp 𝕄 :=
  iprop((∃ a, ⌜∀ hn : 0 < n, a = accAt5 V c (n - 1) (by omega)⌝ ∗ owns c.tc scM5 fullShare a)
    ∗ Pipeline.scopedRestBut spec5 c [cc5_scratch0] ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => accAt5 V c t.val t.isLt
  Φ t := PhiS5 V c t.val (Nat.le_of_lt_succ t.isLt)
  q _ := fullShare
  owed _ := 0

theorem after5_2 (c : Dev nD) (t : Fin cfg5.N) : (dat5 V c).after 2 t = accAt5 V c t.val t.isLt := rfl

end Cert.Kernel.Hand

end
-- ==== Proof.KB.PoolRegion5.lean ====
import proofs.«416174_j54228257079641_1_alg».proof.Proof.KB.PoolData5
import proofs.«416174_j54228257079641_1_alg».proof.Proof.KB.PoolBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcondF5 : ∀ t : Fin grid5.N, poolFirst (grid5.coords t) ↔ t.val = 0 := by decide +kernel

theorem out5_2 : ∀ t : Fin cfg5.N, (k5_cond2 (grid5.coords t) = 1#1 → cfg5.idle 2 (grid5.coords t) = false)
    ∧ (¬ k5_cond2 (grid5.coords t) = 1#1 → cfg5.idle 2 (grid5.coords t) = true ∧ (cfg5.win 2).flush t = false) := by decide +kernel

theorem before5_0 (c : Dev nD) (t : Fin cfg5.N) (d) : (dat5 V c).before 0 t d = iblk5 V c 0 t :=
  (dat5 V c).before_fetched 0 t (fetch5_0 t) d
theorem before5_1 (c : Dev nD) (t : Fin cfg5.N) (d) : (dat5 V c).before 1 t d = iblk5 V c 1 t :=
  (dat5 V c).before_fetched 1 t (fetch5_1 t) d

/-- One point's step of the scratch's contents, from what the point found there. -/
theorem accAt5_step (c : Dev nD) (t : Fin cfg5.N) (a : Vec F S512x128 .f32)
    (ha : ∀ hn : 0 < t.val, a = accAt5 V c (t.val - 1) (Nat.lt_of_le_of_lt (Nat.sub_le _ _) t.isLt)) :
    accAt5 V c t.val t.isLt = k5_pay2 (iblk5 V c 0 t) (iblk5 V c 1 t) (if poolFirst (grid5.coords t) then k5_pay1 else a) := by
  obtain ⟨n, hn⟩ := t
  cases n with
  | zero => rw [if_pos ((hcondF5 _).mpr rfl)]; rfl
  | succ n => rw [if_neg fun h => Nat.succ_ne_zero n ((hcondF5 _).mp h), ha (Nat.succ_pos n)]; rfl

theorem out5_2_leaves (c : Dev nD) (t : Fin cfg5.N) (d) :
    owns c.tc (st5_2 t) fullShare (if k5_cond2 (grid5.coords t) = 1#1 then accAt5 V c t.val t.isLt else (dat5 V c).before 2 t d)
      ⊢ (dat5 V c).leavesExact 2 t := by
  by_cases hc2 : k5_cond2 (grid5.coords t) = 1#1
  · rw [if_pos hc2]; unfold Dat.leavesExact; rw [(out5_2 t).1 hc2]; exact .rfl
  · rw [if_neg hc2, Dat.leavesExact_idle _ 2 t ((out5_2 t).2 hc2).1 ((out5_2 t).2 hc2).2]; iintro H; iexists d; iexact H

theorem sound_body5 (c : Dev nD) (t : Fin cfg5.N) :
    iprop(PhiS5 V c t.val (Nat.le_of_lt t.isLt) ∗ (dat5 V c).owesAt () t.castSucc
      ∗ (∃ d, owns c.tc (st5_0 t) fullShare ((dat5 V c).before 0 t d))
      ∗ (∃ d, owns c.tc (st5_1 t) fullShare ((dat5 V c).before 1 t d))
      ∗ (∃ d, owns c.tc (st5_2 t) fullShare ((dat5 V c).before 2 t d)))
    ⊢ wp frame (wpE (defs₀ (F := F)) Variants.none c none) Set.univ (bodyAt5 t) fun _ =>
      iprop(PhiS5 V c (t.val + 1) t.isLt ∗ (dat5 V c).owesAt () t.castSucc
        ∗ owns c.tc (st5_0 t) fullShare (iblk5 V c 0 t)
        ∗ owns c.tc (st5_1 t) fullShare (iblk5 V c 1 t)
        ∗ (dat5 V c).leavesExact 2 t) := by
  simp only [before5_0, before5_1]; unfold PhiS5 bodyAt5
  iintro ⟨⟨⟨%a, %ha, HS⟩, HR⟩, Ho, ⟨%d0, H0⟩, ⟨%d1, H1⟩, ⟨%d2, H2⟩⟩
  iapply (pool_sound c Set.univ _ _ (hstage5_0 _) _ (hstage5_1 _) _ (hstage5_2 _) _ (Memref.isWhole_whole _) (iblk5 V c 0 t) (iblk5 V c 1 t) ((dat5 V c).before 2 t d2) a _ (accAt5_step V c t a ha) _ (out5_2_leaves V c t d2) _)
  iframe H0 H1 H2 HS
  iintro ⟨H0, H1, H2, HS⟩
  iframe H0 H1 H2 Ho HR
  iexists _; isplitr; swap; · iexact HS
  ipureintro; exact fun _ => rfl

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  show _ ⊢ PhiS5 V c 0 (Nat.zero_le _); unfold PhiS5 Pipeline.ΦA; rw [scopedRest5_split]; simp only [scM5, owns_whole]
  iintro ⟨⟨⟨%d, HS⟩, HR⟩, Hg⟩
  iframe HR Hg
  iexists d; isplitr; · ipureintro; exact fun h => nomatch h
  iexact HS

/-- The scratch's named contents are forgotten. -/
theorem hout5 (c : Dev nD) : (dat5 V c).Φ (Fin.last cfg5.N) ⊢ Pipeline.ΦA spec5 c := by
  show PhiS5 V c _ (Nat.le_refl _) ⊢ _; unfold PhiS5 Pipeline.ΦA; rw [scopedRest5_split]; simp only [scM5, owns_whole]
  iintro ⟨⟨%a, -, HS⟩, HR, Hg⟩
  iframe HR Hg
  iexists a; iexact HS

end Cert.Kernel.Hand

end
-- ==== Proof.KB.Run.lean ====
import proofs.«416174_j54228257079641_1_alg».proof.Proof.Gen.Kernel.Regions
import proofs.«416174_j54228257079641_1_alg».proof.Proof.KB.MlpRegion0
import proofs.«416174_j54228257079641_1_alg».proof.Proof.KB.MlpRegion2
import proofs.«416174_j54228257079641_1_alg».proof.Proof.KB.MlpRegion4
import proofs.«416174_j54228257079641_1_alg».proof.Proof.KB.PoolRegion1
import proofs.«416174_j54228257079641_1_alg».proof.Proof.KB.PoolRegion3
import proofs.«416174_j54228257079641_1_alg».proof.Proof.KB.PoolRegion5

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

def U1 (c : Dev nD) : Valuation τ sig (Elt F) := Gen.V1 m c

def U2 (c : Dev nD) : Valuation τ sig (Elt F) :=
  Function.update (U1 m c) main_v47 ((dat0 (fun c b => U1 m c b) c).arrAt 7 cfg0.N)

def U3 (c : Dev nD) : Valuation τ sig (Elt F) :=
  Function.update (U2 m c) main_v48 ((dat1 (fun c b => U2 m c b) c).arrAt 2 cfg1.N)

def U4 (c : Dev nD) : Valuation τ sig (Elt F) := StableHlo.after hostOps2 (U3 m c)

def U5 (c : Dev nD) : Valuation τ sig (Elt F) :=
  Function.update (U4 m c) main_v91 ((dat2 (fun c b => U4 m c b) c).arrAt 7 cfg2.N)

def U6 (c : Dev nD) : Valuation τ sig (Elt F) :=
  Function.update (U5 m c) main_v92 ((dat3 (fun c b => U5 m c b) c).arrAt 2 cfg3.N)

def U7 (c : Dev nD) : Valuation τ sig (Elt F) := StableHlo.after hostOps4 (U6 m c)

def U8 (c : Dev nD) : Valuation τ sig (Elt F) :=
  Function.update (U7 m c) main_v135 ((dat4 (fun c b => U7 m c b) c).arrAt 7 cfg4.N)

def U9 (c : Dev nD) : Valuation τ sig (Elt F) :=
  Function.update (U8 m c) main_v136 ((dat5 (fun c b => U8 m c b) c).arrAt 2 cfg5.N)

def outs : Gen.Outs (F := F) := fun J r c => match J with
  | 2 => U2 m c r | 3 => U3 m c r | 5 => U5 m c r | 6 => U6 m c r | 8 => U8 m c r | 9 => U9 m c r | _ => U1 m c r

theorem V2_eq (c : Dev nD) : Gen.V2 m (outs m) c = U2 m c := by
  show Function.update (Gen.V1 m c) main_v47 (U2 m c main_v47) = U2 m c
  unfold U2; rw [Function.update_self]; rfl
theorem V3_eq (c : Dev nD) : Gen.V3 m (outs m) c = U3 m c := by
  show Function.update (Gen.V2 m (outs m) c) main_v48 (U3 m c main_v48) = U3 m c
  rw [V2_eq]; unfold U3; rw [Function.update_self]
theorem V4_eq (c : Dev nD) : Gen.V4 m (outs m) c = U4 m c := by
  show StableHlo.after hostOps2 (Gen.V3 m (outs m) c) = U4 m c
  rw [V3_eq]; rfl
theorem V5_eq (c : Dev nD) : Gen.V5 m (outs m) c = U5 m c := by
  show Function.update (Gen.V4 m (outs m) c) main_v91 (U5 m c main_v91) = U5 m c
  rw [V4_eq]; unfold U5; rw [Function.update_self]
theorem V6_eq (c : Dev nD) : Gen.V6 m (outs m) c = U6 m c := by
  show Function.update (Gen.V5 m (outs m) c) main_v92 (U6 m c main_v92) = U6 m c
  rw [V5_eq]; unfold U6; rw [Function.update_self]
theorem V7_eq (c : Dev nD) : Gen.V7 m (outs m) c = U7 m c := by
  show StableHlo.after hostOps4 (Gen.V6 m (outs m) c) = U7 m c
  rw [V6_eq]; rfl
theorem V8_eq (c : Dev nD) : Gen.V8 m (outs m) c = U8 m c := by
  show Function.update (Gen.V7 m (outs m) c) main_v135 (U8 m c main_v135) = U8 m c
  rw [V7_eq]; unfold U8; rw [Function.update_self]
theorem V9_eq (c : Dev nD) : Gen.V9 m (outs m) c = U9 m c := by
  show Function.update (Gen.V8 m (outs m) c) main_v136 (U9 m c main_v136) = U9 m c
  rw [V8_eq]; unfold U9; rw [Function.update_self]

def pdats : (p : Fin 6) → (c : Dev nD) → Dat τ (Elt F) Unit ℕ (UR sig nD τ) ℕ (cfgs p) c
  | ⟨0, _⟩ => fun c => dat0 (fun c b => U1 m c b) c
  | ⟨1, _⟩ => fun c => dat1 (fun c b => U2 m c b) c
  | ⟨2, _⟩ => fun c => dat2 (fun c b => U4 m c b) c
  | ⟨3, _⟩ => fun c => dat3 (fun c b => U5 m c b) c
  | ⟨4, _⟩ => fun c => dat4 (fun c b => U7 m c b) c
  | ⟨5, _⟩ => fun c => dat5 (fun c b => U8 m c b) c

abbrev Lz : GSem nD τ sig → Finset Unit := fun _ => ∅
abbrev lvz : GSem nD τ sig → Unit → ℕ := fun _ _ => 0

abbrev R (c : Dev nD) : sProp 𝕄 := iprop((∃ r, prngReg c r) ∗ ∃ W, owes (c : Thread nD τ) (0 : CellTallies nD τ sig Unit) W)

abbrev E : Fin 7 → Dev nD → sProp 𝕄 := fun _ c => R c

/-- A region writes its one output array and nothing else: every other window's array leaves as it entered. -/
theorem arrAt_exit (p : Fin 6) (launch : Pipeline.LaunchFacts (nD := nD) (τ := τ) cfgs p) (o : Fin (cfgs p).W)
    (Uin Uout : Dev nD → Valuation τ sig (Elt F))
    (hA : ∀ c w, (pdats m p c).A w = Uin c (Pipeline.arrRef (cfgs p).spec w))
    (hio : ∀ w, w ≠ o → ((cfgs p).win w).isOut = false)
    (hself : ∀ c, Uout c (Pipeline.arrRef (cfgs p).spec o) = (pdats m p c).arrAt o (cfgs p).N)
    (hoff : ∀ c (b : Ref sig .tc), b ≠ Pipeline.arrRef (cfgs p).spec o → Uout c b = Uin c b) (c : Dev nD) (w : Fin (cfgs p).W) :
    (pdats m p c).arrAt w (cfgs p).N = Uout c (Pipeline.arrRef (cfgs p).spec w) := by
  by_cases hw : w = o
  · subst hw; exact (hself c).symm
  · exact ((pdats m p c).arrAt_in w (hio w hw) _).trans
      ((hA c w).trans (hoff c _ fun e => hw (launch.win.arr_inj e)).symm)

set_option backward.isDefEq.respectTransparency.types false in
/-- A region as an item of the run: its arrays leave the unscoped buffers on entry and rejoin them, the output at its final contents, on exit. -/
def regOf (p : Fin 6) (launch : Pipeline.LaunchFacts (nD := nD) (τ := τ) cfgs p) (o : Fin (cfgs p).W)
    (Uin Uout : Dev nD → Valuation τ sig (Elt F))
    (hq : ∀ c w, (pdats m p c).q w = fullShare) (howed : ∀ c t, (pdats m p c).owed t = 0)
    (hrec : ∀ c x, x ∈ (pdats m p c).recorded 0)
    (hA : ∀ c w, (pdats m p c).A w = Uin c (Pipeline.arrRef (cfgs p).spec w))
    (hio : ∀ w, w ≠ o → ((cfgs p).win w).isOut = false)
    (hself : ∀ c, Uout c (Pipeline.arrRef (cfgs p).spec o) = (pdats m p c).arrAt o (cfgs p).N)
    (hoff : ∀ c (b : Ref sig .tc), b ≠ Pipeline.arrRef (cfgs p).spec o → Uout c b = Uin c b)
    (hbody : ∀ c, BodyObligation (pdats m p c) (defs₀ (F := F)) Variants.none () Set.univ)
    (hΦin : ∀ c, Pipeline.ΦA (cfgs p).spec c ⊢ (pdats m p c).Φ 0)
    (hΦout : ∀ c, (pdats m p c).Φ (Fin.last _) ⊢ Pipeline.ΦA (cfgs p).spec c) :
    RegionSeg (pcfgs (F := F)) adm (pdats m) () defs₀ Variants.none Lz lvz p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ Lz lvz p howed
  pre c := iprop(StableHlo.held (c : Thread nD τ) (Pipeline.ucRefs τ sig) (Uin c) ∗ R c)
  post c := iprop(StableHlo.held (c : Thread nD τ) (Pipeline.ucRefs τ sig) (Uout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Uin c b)
  hentry c := by
    rw [Pipeline.ownSems0_none]; unfold Pipeline.Dat.owesAt Pipeline.owesWithin; rw [howed c]
    have hsplit := Pipeline.arrays_of_unscopedBufs (p := p) (pcfgs (F := F)) adm (pdats m) launch.win launch.arr_whole c
      ((pdats m p c).share_full (hq c)) (fun b => Uin c b) (hA c)
    rw [Pipeline.unscopedBufs_held c (Uin c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (hrec c x)
      iexact HO
    isplitl [Hp]; · iexact Hp
    iexact Hrest
  hin c := by
    refine BIBase.Entails.trans ?_ (hΦin c)
    unfold Pipeline.ΦA
    iintro ⟨Hp, -, Hr⟩
    isplitl [Hr]; · iexact Hr
    iexact Hp
  hout c := by
    rw [Pipeline.ownSems0_none]
    refine BIBase.Entails.trans (hΦout c) ?_
    unfold Pipeline.ΦA
    iintro ⟨Hr, Hp⟩
    isplitl [Hp]; · iexact Hp
    isplitr; · iempintro
    iexact Hr
  hexit c := by
    unfold Pipeline.Dat.owesAt Pipeline.owesWithin; rw [howed c]
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (fun b => Uin c b) (fun b => Uout c b) ((pdats m p c).arrAt · (cfgs p).N)
      (arrAt_exit m p launch o Uin Uout hA hio hself hoff c)
      (fun b hb => hoff c b fun e => hb (Finset.mem_image.mpr ⟨o, Finset.mem_univ _, e.symm⟩))
    rw [Pipeline.unscopedBufs_held c (Uout c)] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

private theorem upd_off (Uin : Valuation τ sig (Elt F)) {v : Ref sig .tc} (x) (b : Ref sig .tc) (hb : b ≠ v) :
    Function.update Uin v x b = Uin b :=
  Function.update_of_ne (StableHlo.devRef_ne_of_ne hb) _ _

def reg0 := regOf m 0 launch0 7 (U1 m) (U2 m) (fun _ _ => rfl) (fun _ _ => rfl) (fun _ _ => trivial) (fun _ _ => rfl) (by decide)
  (fun c => Function.update_self (Proc.devRef (τ := τ) .tc main_v47) _ (U1 m c)) (fun c b hb => upd_off (U1 m c) _ b hb)
  (fun c => body_obligation0 (fun c b => U1 m c b) c) (fun _ => .rfl) (fun _ => .rfl)
def reg1 := regOf m 1 launch1 2 (U2 m) (U3 m) (fun _ _ => rfl) (fun _ _ => rfl) (fun _ _ => trivial) (fun _ _ => rfl) (by decide)
  (fun c => Function.update_self (Proc.devRef (τ := τ) .tc main_v48) _ (U2 m c)) (fun c b hb => upd_off (U2 m c) _ b hb)
  (fun c => body_obligation1 (fun c b => U2 m c b) c) (hin1 (fun c b => U2 m c b)) (hout1 (fun c b => U2 m c b))
def reg2 := regOf m 2 launch2 7 (U4 m) (U5 m) (fun _ _ => rfl) (fun _ _ => rfl) (fun _ _ => trivial) (fun _ _ => rfl) (by decide)
  (fun c => Function.update_self (Proc.devRef (τ := τ) .tc main_v91) _ (U4 m c)) (fun c b hb => upd_off (U4 m c) _ b hb)
  (fun c => body_obligation2 (fun c b => U4 m c b) c) (fun _ => .rfl) (fun _ => .rfl)
def reg3 := regOf m 3 launch3 2 (U5 m) (U6 m) (fun _ _ => rfl) (fun _ _ => rfl) (fun _ _ => trivial) (fun _ _ => rfl) (by decide)
  (fun c => Function.update_self (Proc.devRef (τ := τ) .tc main_v92) _ (U5 m c)) (fun c b hb => upd_off (U5 m c) _ b hb)
  (fun c => body_obligation3 (fun c b => U5 m c b) c) (hin3 (fun c b => U5 m c b)) (hout3 (fun c b => U5 m c b))
def reg4 := regOf m 4 launch4 7 (U7 m) (U8 m) (fun _ _ => rfl) (fun _ _ => rfl) (fun _ _ => trivial) (fun _ _ => rfl) (by decide)
  (fun c => Function.update_self (Proc.devRef (τ := τ) .tc main_v135) _ (U7 m c)) (fun c b hb => upd_off (U7 m c) _ b hb)
  (fun c => body_obligation4 (fun c b => U7 m c b) c) (fun _ => .rfl) (fun _ => .rfl)
def reg5 := regOf m 5 launch5 2 (U8 m) (U9 m) (fun _ _ => rfl) (fun _ _ => rfl) (fun _ _ => trivial) (fun _ _ => rfl) (by decide)
  (fun c => Function.update_self (Proc.devRef (τ := τ) .tc main_v136) _ (U8 m c)) (fun c b hb => upd_off (U8 m c) _ b hb)
  (fun c => body_obligation5 (fun c b => U8 m c b) c) (hin5 (fun c b => U8 m c b)) (hout5 (fun c b => U8 m c b))

theorem hpre0 (c : Dev nD) : iprop(StableHlo.held (c : Thread nD τ) (Pipeline.ucRefs τ sig) (Gen.V1 m c) ∗ E 0 c) ⊢ (reg0 m).pre c := by
  exact .rfl
theorem hpost0 (c : Dev nD) : (reg0 m).post c ⊢ iprop(StableHlo.held (c : Thread nD τ) (Pipeline.ucRefs τ sig) (Gen.V2 m (outs m) c) ∗ E 1 c) := by
  rw [V2_eq]; exact .rfl
theorem hpre1 (c : Dev nD) : iprop(StableHlo.held (c : Thread nD τ) (Pipeline.ucRefs τ sig) (Gen.V2 m (outs m) c) ∗ E 1 c) ⊢ (reg1 m).pre c := by
  rw [V2_eq]; exact .rfl
theorem hpost1 (c : Dev nD) : (reg1 m).post c ⊢ iprop(StableHlo.held (c : Thread nD τ) (Pipeline.ucRefs τ sig) (Gen.V3 m (outs m) c) ∗ E 2 c) := by
  rw [V3_eq]; exact .rfl
theorem hpre2 (c : Dev nD) : iprop(StableHlo.held (c : Thread nD τ) (Pipeline.ucRefs τ sig) (Gen.V4 m (outs m) c) ∗ E 2 c) ⊢ (reg2 m).pre c := by
  rw [V4_eq]; exact .rfl
theorem hpost2 (c : Dev nD) : (reg2 m).post c ⊢ iprop(StableHlo.held (c : Thread nD τ) (Pipeline.ucRefs τ sig) (Gen.V5 m (outs m) c) ∗ E 3 c) := by
  rw [V5_eq]; exact .rfl
theorem hpre3 (c : Dev nD) : iprop(StableHlo.held (c : Thread nD τ) (Pipeline.ucRefs τ sig) (Gen.V5 m (outs m) c) ∗ E 3 c) ⊢ (reg3 m).pre c := by
  rw [V5_eq]; exact .rfl
theorem hpost3 (c : Dev nD) : (reg3 m).post c ⊢ iprop(StableHlo.held (c : Thread nD τ) (Pipeline.ucRefs τ sig) (Gen.V6 m (outs m) c) ∗ E 4 c) := by
  rw [V6_eq]; exact .rfl
theorem hpre4 (c : Dev nD) : iprop(StableHlo.held (c : Thread nD τ) (Pipeline.ucRefs τ sig) (Gen.V7 m (outs m) c) ∗ E 4 c) ⊢ (reg4 m).pre c := by
  rw [V7_eq]; exact .rfl
theorem hpost4 (c : Dev nD) : (reg4 m).post c ⊢ iprop(StableHlo.held (c : Thread nD τ) (Pipeline.ucRefs τ sig) (Gen.V8 m (outs m) c) ∗ E 5 c) := by
  rw [V8_eq]; exact .rfl
theorem hpre5 (c : Dev nD) : iprop(StableHlo.held (c : Thread nD τ) (Pipeline.ucRefs τ sig) (Gen.V8 m (outs m) c) ∗ E 5 c) ⊢ (reg5 m).pre c := by
  rw [V8_eq]; exact .rfl
theorem hpost5 (c : Dev nD) : (reg5 m).post c ⊢ iprop(StableHlo.held (c : Thread nD τ) (Pipeline.ucRefs τ sig) (Gen.V9 m (outs m) c) ∗ E 6 c) := by
  rw [V9_eq]; exact .rfl

theorem hE6 (c : Dev nD) : (E 6 c : sProp 𝕄) ⊢ iprop(∃ W, owes (c : Thread nD τ) (0 : CellTallies nD τ sig Unit) W) := by
  iintro ⟨-, HO⟩; iexact HO

set_option backward.isDefEq.respectTransparency.types false in
/-- Every weakly fair execution terminates and leaves the sixteen argument arrays as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Gen.frame_cond (Ix := Unit) (U := UR sig nD τ) (Lvl := ℕ) m emb₁ () Variants.none Lz lvz (fun _ _ => rfl) ρ (outs m) (pdats m)
    0 (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E
    (Pipeline.initEach Lz lvz fun c => by
      iintro ⟨⟨-, HO, -, Hp, -⟩, -⟩
      imodintro
      isplitl [Hp]; · iexists _; iexact Hp
      iexists ∅; iexact HO)
    hE6
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)

end Cert.Kernel.Hand

end
-- ==== Proof.KI.MlpBody.lean ====
import proofs.«416174_j54228257079641_1_alg».proof.Proof.Gen.KernelIdeal.Launch
import proofs.«416174_j54228257079641_1_alg».proof.Proof.Gen.KernelIdeal.Skeleton
import Idealize.ShloMosaic.Lib.Pipeline.FrameBody
import Idealize.ShloMosaic.Lib.Pipeline.TableIdle

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem

variable {F : FTy → Type} [FloatOps F]

local notation "𝕄" => MT nD τ sig Unit (Elt F) ℕ (UR sig nD τ) ℕ

abbrev rTile : Rect S2000x128 := Rect.unit (s := S2000x128) ![0, 0] S2000x128.size inb_S2000x128_S2000x128_0_0
abbrev rMat : Rect S128x128 := Rect.unit (s := S128x128) ![0, 0] S128x128.size inb_S128x128_S128x128_0_0
abbrev rRow : Rect S1x128 := Rect.unit (s := S1x128) ![0, 0] S1x128.size inb_S1x128_S1x128_0_0

/-- The body reads its seven inputs whole and stores once, over the whole output tile, so the tile ends at that one payload. -/
theorem mlp_sound (c : Dev nD) (E : Set ℕ) {i : grid0.Coords}
    {arg1 : Memref sig .tc .vmem S2000x128 .f32} {harg1 : arg1.IsWhole} {arg2 : Memref sig .tc .vmem S128x128 .f32} {harg2 : arg2.IsWhole}
    {arg3 : Memref sig .tc .vmem S1x128 .f32} {harg3 : arg3.IsWhole} {arg4 : Memref sig .tc .vmem S1x128 .f32} {harg4 : arg4.IsWhole}
    {arg5 : Memref sig .tc .vmem S1x128 .f32} {harg5 : arg5.IsWhole} {arg6 : Memref sig .tc .vmem S128x128 .f32} {harg6 : arg6.IsWhole}
    {arg7 : Memref sig .tc .vmem S1x128 .f32} {harg7 : arg7.IsWhole} {arg8 : Memref sig .tc .vmem S2000x128 .f32} {harg8 : arg8.IsWhole}
    {x0 : Vec F S2000x128 .f32} {x1 : Vec F S128x128 .f32} {x2 x3 x4 : Vec F S1x128 .f32} {x5 : Vec F S128x128 .f32} {x6 : Vec F S1x128 .f32}
    {y : Vec F S2000x128 .f32} (hy : y = View.canon [⟨rTile, k0_pay1 (View.ld x0 rTile) (View.ld x1 rMat) (View.ld x2 rRow) (View.ld x3 rRow) (View.ld x4 rRow) (View.ld x5 rMat) (View.ld x6 rRow)⟩]) {K : PUnit → sProp 𝕄} {k} (hk : k = @cc0__mlp_kernel F _) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare y) -∗ K ⟨⟩))
      ⊢ wp frame (wpE (defs₀ (F := F)) Variants.none c none) E (k i arg1 harg1 arg2 harg2 arg3 harg3 arg4 harg4 arg5 harg5 arg6 harg6 arg7 harg7 arg8 harg8) K := by
  subst hy hk
  simp only [cc0__mlp_kernel_eq_skeleton, owns_eq_rep (c : Thread nD τ) arg1, owns_eq_rep (c : Thread nD τ) arg2, owns_eq_rep (c : Thread nD τ) arg3, owns_eq_rep (c : Thread nD τ) arg4, owns_eq_rep (c : Thread nD τ) arg5, owns_eq_rep (c : Thread nD τ) arg6, owns_eq_rep (c : Thread nD τ) arg7]
  unfold cc0__mlp_kernel_skel owns
  iintro ⟨H0, H1, H2, H3, H4, H5, H6, ⟨%d, %f, -, H7⟩, Hk⟩
  sl_exec
  sl_step
  iapply Hk
  iframe
  simp only [View.readAt_rep]
  iexists _; isplitr
  swap; · iexact H7
  ipureintro
  exact View.read_writes_eq_canon _ _ _ (View.cover_of_tiled _ S2000x128.size (by rfl))

end Cert.KernelIdeal.Hand

end
-- ==== Proof.KI.MlpRegion0.lean ====
import proofs.«416174_j54228257079641_1_alg».proof.Proof.KI.MlpBody
import proofs.«416174_j54228257079641_1_alg».proof.Proof.Gen.KernelIdeal.Points

noncomputable section

namespace Cert.KernelIdeal.Hand

open Cert.KernelIdeal Cert.KernelIdeal.Gen
open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_7 (x0 : Vec F S2000x128 .f32) (x1 : Vec F S128x128 .f32) (x2 x3 x4 : Vec F S1x128 .f32) (x5 : Vec F S128x128 .f32) (x6 : Vec F S1x128 .f32) : Vec F S2000x128 .f32 :=
  View.canon [⟨rTile, k0_pay1 (View.ld x0 rTile) (View.ld x1 rMat) (View.ld x2 rRow) (View.ld x3 rRow) (View.ld x4 rRow) (View.ld x5 rMat) (View.ld x6 rRow)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0 (c : Dev nD) (t : Fin cfg0.N) : ∀ w : Fin cfg0.W, w ≠ 7 → ∀ d, (dat0 V c).before w t d = (dat0 V c).fetched w t d
  | ⟨0, _⟩, _, d | ⟨1, _⟩, _, d | ⟨2, _⟩, _, d | ⟨3, _⟩, _, d | ⟨4, _⟩, _, d | ⟨5, _⟩, _, d | ⟨6, _⟩, _, d =>
    (dat0 V c).before_in_eq_fetched _ rfl (fun _ => rfl) (fun _ _ _ => rfl) (fun _ => rfl) t d
  | ⟨7, _⟩, h, _ => absurd rfl h

theorem sound_body0 (c : Dev nD) (t : Fin cfg0.N) :
    iprop((dat0 V c).Φ t.castSucc ∗ (dat0 V c).owesAt () t.castSucc
        ∗ bigSep Finset.univ fun w : Fin cfg0.W => iprop(∃ d, owns c ((cfg0.win w).stage (cfg0.slots t w)) fullShare ((dat0 V c).before w t d)))
      ⊢ wp frame (wpE (defs₀ (F := F)) Variants.none c none) Set.univ (bodyAt0 t) fun _ =>
        iprop((dat0 V c).Φ t.castSucc ∗ (dat0 V c).owesAt () t.castSucc
          ∗ bigSep Finset.univ fun w : Fin cfg0.W => owns c ((cfg0.win w).stage (cfg0.slots t w)) fullShare ((dat0 V c).after w t)) := by
  rw [bigSep_W0, bigSep_W0]
  simp (disch := decide) only [before0 V c t]
  iintro ⟨HΦ, Ho, ⟨%_, H0⟩, ⟨%_, H1⟩, ⟨%_, H2⟩, ⟨%_, H3⟩, ⟨%_, H4⟩, ⟨%_, H5⟩, ⟨%_, H6⟩, ⟨%_, H7⟩⟩
  iapply (mlp_sound c Set.univ (after0_7 V c t) (k := cc0__mlp_kernel) rfl)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro H
  isplitl [HΦ]; · iexact HΦ
  isplitl [Ho]; · iexact Ho
  iexact H

theorem body_obligation0 (c : Dev nD) : BodyObligation (dat0 (F := F) V c) (defs₀ (F := F)) Variants.none () Set.univ :=
  fun t => sound_body0 V c t

end Cert.KernelIdeal.Hand

end
-- ==== Proof.KI.MlpRegion2.lean ====
import proofs.«416174_j54228257079641_1_alg».proof.Proof.KI.MlpBody
import proofs.«416174_j54228257079641_1_alg».proof.Proof.Gen.KernelIdeal.Points

noncomputable section

namespace Cert.KernelIdeal.Hand

open Cert.KernelIdeal Cert.KernelIdeal.Gen
open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_7 (x0 : Vec F S2000x128 .f32) (x1 : Vec F S128x128 .f32) (x2 x3 x4 : Vec F S1x128 .f32) (x5 : Vec F S128x128 .f32) (x6 : Vec F S1x128 .f32) : Vec F S2000x128 .f32 :=
  View.canon [⟨rTile, k2_pay1 (View.ld x0 rTile) (View.ld x1 rMat) (View.ld x2 rRow) (View.ld x3 rRow) (View.ld x4 rRow) (View.ld x5 rMat) (View.ld x6 rRow)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2 (c : Dev nD) (t : Fin cfg2.N) : ∀ w : Fin cfg2.W, w ≠ 7 → ∀ d, (dat2 V c).before w t d = (dat2 V c).fetched w t d
  | ⟨0, _⟩, _, d | ⟨1, _⟩, _, d | ⟨2, _⟩, _, d | ⟨3, _⟩, _, d | ⟨4, _⟩, _, d | ⟨5, _⟩, _, d | ⟨6, _⟩, _, d =>
    (dat2 V c).before_in_eq_fetched _ rfl (fun _ => rfl) (fun _ _ _ => rfl) (fun _ => rfl) t d
  | ⟨7, _⟩, h, _ => absurd rfl h

theorem sound_body2 (c : Dev nD) (t : Fin cfg2.N) :
    iprop((dat2 V c).Φ t.castSucc ∗ (dat2 V c).owesAt () t.castSucc
        ∗ bigSep Finset.univ fun w : Fin cfg2.W => iprop(∃ d, owns c ((cfg2.win w).stage (cfg2.slots t w)) fullShare ((dat2 V c).before w t d)))
      ⊢ wp frame (wpE (defs₀ (F := F)) Variants.none c none) Set.univ (bodyAt2 t) fun _ =>
        iprop((dat2 V c).Φ t.castSucc ∗ (dat2 V c).owesAt () t.castSucc
          ∗ bigSep Finset.univ fun w : Fin cfg2.W => owns c ((cfg2.win w).stage (cfg2.slots t w)) fullShare ((dat2 V c).after w t)) := by
  rw [bigSep_W2, bigSep_W2]
  simp (disch := decide) only [before2 V c t]
  iintro ⟨HΦ, Ho, ⟨%_, H0⟩, ⟨%_, H1⟩, ⟨%_, H2⟩, ⟨%_, H3⟩, ⟨%_, H4⟩, ⟨%_, H5⟩, ⟨%_, H6⟩, ⟨%_, H7⟩⟩
  iapply (mlp_sound c Set.univ (after2_7 V c t) (k := cc2__mlp_kernel) rfl)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro H
  isplitl [HΦ]; · iexact HΦ
  isplitl [Ho]; · iexact Ho
  iexact H

theorem body_obligation2 (c : Dev nD) : BodyObligation (dat2 (F := F) V c) (defs₀ (F := F)) Variants.none () Set.univ :=
  fun t => sound_body2 V c t

end Cert.KernelIdeal.Hand

end
-- ==== Proof.KI.MlpRegion4.lean ====
import proofs.«416174_j54228257079641_1_alg».proof.Proof.KI.MlpBody
import proofs.«416174_j54228257079641_1_alg».proof.Proof.Gen.KernelIdeal.Points

noncomputable section

namespace Cert.KernelIdeal.Hand

open Cert.KernelIdeal Cert.KernelIdeal.Gen
open Idealize.ShloMosaic Idealize.ShloMosaic.TcCoe
open Idealize.SL Idealize.SL.RA Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_7 (x0 : Vec F S2000x128 .f32) (x1 : Vec F S128x128 .f32) (x2 x3 x4 : Vec F S1x128 .f32) (x5 : Vec F S128x128 .f32) (x6 : Vec F S1x128 .f32) : Vec F S2000x128 .f32 :=
  View.canon [⟨rTile, k4_pay1 (View.ld x0 rTile) (View.ld x1 rMat) (View.ld x2 rRow) (View.ld x3 rRow) (View.ld x4 rRow) (View.ld x5 rMat) (View.ld x6 rRow)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]

theorem before4 (c : Dev nD) (t : Fin cfg4.N) : ∀ w : Fin cfg4.W, w ≠ 7 → ∀ d, (dat4 V c).before w t d = (dat4 V c).fetched w t d
  | ⟨0, _⟩, _, d | ⟨1, _⟩, _, d | ⟨2, _⟩, _, d | ⟨3, _⟩, _, d | ⟨4, _⟩, _, d | ⟨5, _⟩, _, d | ⟨6, _⟩, _, d =>
    (dat4 V c).before_in_eq_fetched _ rfl (fun _ => rfl) (fun _ _ _ => rfl) (fun _ => rfl) t d
  | ⟨7, _⟩, h, _ => absurd rfl h

theorem sound_body4 (c : Dev nD) (t : Fin cfg4.N) :
    iprop((dat4 V c).Φ t.castSucc ∗ (dat4 V c).owesAt () t.castSucc
        ∗ bigSep Finset.univ fun w : Fin cfg4.W => iprop(∃ d, owns c ((cfg4.win w).stage (cfg4.slots t w)) fullShare ((dat4 V c).before w t d)))
      ⊢ wp frame (wpE (defs₀ (F := F)) Variants.none c none) Set.univ (bodyAt4 t) fun _ =>
        iprop((dat4 V c).Φ t.castSucc ∗ (dat4 V c).owesAt () t.castSucc
          ∗ bigSep Finset.univ fun w : Fin cfg4.W => owns c ((cfg4.win w).stage (cfg4.slots t w)) fullShare ((dat4 V c).after w t)) := by
  rw [bigSep_W4, bigSep_W4]
  simp (disch := decide) only [before4 V c t]
  iintro ⟨HΦ, Ho, ⟨%_, H0⟩, ⟨%_, H1⟩, ⟨%_, H2⟩, ⟨%_, H3⟩, ⟨%_, H4⟩, ⟨%_, H5⟩, ⟨%_, H6⟩, ⟨%_, H7⟩⟩
  iapply (mlp_sound c Set.univ (after4_7 V c t) (k := cc4__mlp_kernel) rfl)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro H
  isplitl [HΦ]; · iexact HΦ
  isplitl [Ho]; · iexact Ho
  iexact H

theorem body_obligation4 (c : Dev nD) : BodyObligation (dat4 (F := F) V c) (defs₀ (F := F)) Variants.none () Set.univ :=
  fun t => sound_body4 V c t

end Cert.KernelIdeal.Hand

end
-- ==== Proof.KI.PoolData1.lean ====
import proofs.«416174_j54228257079641_1_alg».proof.Proof.Gen.KernelIdeal.Launch
import proofs.«416174_j54228257079641_1_alg».proof.Proof.Gen.KernelIdeal.Skeleton
import proofs.«416174_j54228257079641_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scM1 : Memref sig .tc .vmem S512x128 .f32 := Memref.whole cc1_scratch0

/-- The zero array plus the contributions of the tiles up to point `n`. -/
def accAt1 (c : Dev nD) : (n : ℕ) → n < cfg1.N → Vec F S512x128 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩) (accAt1 c n (Nat.lt_of_succ_lt hn))

/-- Before position `n` the scratch holds what the point before left, if there is one; the rest is untouched. -/
def PhiS1 (c : Dev nD) (n : ℕ) (h : n ≤ cfg1.N) : sProp 𝕄 :=
  iprop((∃ a, ⌜∀ hn : 0 < n, a = accAt1 V c (n - 1) (by omega)⌝ ∗ owns c.tc scM1 fullShare a)
    ∗ Pipeline.scopedRestBut spec1 c [cc1_scratch0] ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem after1_2 (c : Dev nD) (t : Fin cfg1.N) : (dat1 V c).after 2 t = accAt1 V c t.val t.isLt := rfl

end Cert.KernelIdeal.Hand

end
-- ==== Proof.KI.PoolBody.lean ====
import proofs.«416174_j54228257079641_1_alg».proof.Proof.Gen.KernelIdeal.Skeleton
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

theorem zeroOff : (![0, 0] : Fin 2 → Nat) = fun _ => 0 := funext fun a => by fin_cases a <;> rfl

abbrev rW : Rect S512x128 := Rect.unit (s := S512x128) ![0, 0] ![512, 128] inb_S512x128_S512x128_0_0

theorem cover_rW (w : Vec F S512x128 .f32) (L : List (View.Piece (Elt F) S512x128 .f32)) (y : S512x128.Idx) :
    ∃ pc ∈ ((⟨rW, w⟩ : View.Piece (Elt F) S512x128 .f32) :: L), y ∈ pc.1.set :=
  ⟨_, List.mem_cons_self, View.mem_set_unit_zero zeroOff inb_S512x128_S512x128_0_0 y⟩

/-- A whole store, last, leaves its payload in the buffer whatever was there: -/
theorem read_writes_rW {κ : Kind} {sp : Space} (v : View sig κ sp S512x128 .f32) (f : v.ty.Contents (Elt F)) (w : Vec F S512x128 .f32)
    (L : List (View.Piece (Elt F) S512x128 .f32)) : v.read (Elt F) (v.writes (Elt F) f (⟨rW, w⟩ :: L)) = w :=
  (View.read_writes_eq_canon _ _ _ (cover_rW w L)).trans (View.canon_cons_unit_zero zeroOff _ w L)

/-- and a whole load after it reads that payload. -/
theorem readCov_rW {κ : Kind} {sp : Space} (v : View sig κ sp S512x128 .f32) (w : Vec F S512x128 .f32)
    (L : List (View.Piece (Elt F) S512x128 .f32)) : v.readCov (⟨rW, w⟩ :: L) rW.toLoadRect = w := by
  rw [View.readCov_eq_canon_ld _ _ _ (cover_rW w L), View.canon_cons_unit_zero zeroOff, View.ld_unit_zero zeroOff]

/-- The body's test for the first point: the point's coordinate is zero. -/
abbrev poolFirst (i : grid1.Coords) : Prop :=
  Scalar.cmpi .ne (Scalar.extui (Scalar.cmpi .eq (BitVec.ofNat 32 (i 0).val) 0#32)) 0#32 = 1#1

set_option maxHeartbeats 4000000 in
/-- The scratch, reset to zero at the first point, gains the tile's contribution; at the last point the output's buffer takes the result. -/
theorem pool_sound (c : Dev nD) (E : Set ℕ) (i : grid1.Coords)
    (arg1 : Memref sig .tc .vmem S1000x128 .f32) (harg1 : arg1.IsWhole) (arg2 : Memref sig .tc .vmem S1000x1 .i32) (harg2 : arg2.IsWhole)
    (arg3 : Memref sig .tc .vmem S512x128 .f32) (harg3 : arg3.IsWhole) (arg4 : Memref sig .tc .vmem S512x128 .f32) (harg4 : arg4.IsWhole)
    (x0 : Vec F S1000x128 .f32) (x1 : Vec F S1000x1 .i32) (x2 a r : Vec F S512x128 .f32)
    (hr : r = k1_pay2 x0 x1 (if poolFirst i then k1_pay1 else a)) (P : sProp 𝕄)
    (hP : owns c.tc arg3 fullShare (if k1_cond2 i = 1#1 then r else x2) ⊢ P) (K : PUnit → sProp 𝕄) :
    iprop(owns c.tc arg1 fullShare x0 ∗ owns c.tc arg2 fullShare x1 ∗ owns c.tc arg3 fullShare x2
        ∗ owns c.tc arg4 fullShare a
        ∗ (iprop(owns c.tc arg1 fullShare x0 ∗ owns c.tc arg2 fullShare x1
            ∗ P ∗ owns c.tc arg4 fullShare r) -∗ K ⟨⟩))
      ⊢ wp frame (wpE (defs₀ (F := F)) Variants.none c none) E (cc1__pool_kernel i arg1 harg1 arg2 harg2 arg3 harg3 arg4 harg4) K := by
  subst hr
  by_cases hc1 : poolFirst i <;> by_cases hc2 : k1_cond2 i = 1#1 <;> simp only [poolFirst, hc1, hc2, if_pos, if_neg, not_false_eq_true] at hP ⊢
  all_goals
    simp only [cc1__pool_kernel_eq_skeleton]; unfold cc1__pool_kernel_skel owns; unfold owns at hP
    iintro ⟨⟨%f0, %hf0, H0⟩, ⟨%f1, %hf1, H1⟩, ⟨%f2, %hf2, H2⟩, ⟨%f3, %hf3, H3⟩, Hk⟩
    subst hf0 hf1 hf2 hf3
    sl_exec (disch := first | exact hc1 | exact hc2)
    sl_step
    iapply Hk
    isplitl [H0] <;> try isplitl [H1] <;> try (isplitl [H2]; iapply hP)
    all_goals
      iexists _; isplitr; swap; (first | iexact H0 | iexact H1 | iexact H2 | iexact H3)
      ipureintro; sl_unfold_words
      simp only [read_writes_rW, readCov_rW, View.readAt_eq_ld, View.ld_unit_zero (S := S1000x128) zeroOff, View.ld_unit_zero (S := S1000x1) zeroOff, View.ld_unit_zero (S := S512x128) zeroOff]

end Cert.KernelIdeal.Hand

end
-- ==== Proof.KI.PoolRegion1.lean ====
import proofs.«416174_j54228257079641_1_alg».proof.Proof.KI.PoolData1
import proofs.«416174_j54228257079641_1_alg».proof.Proof.KI.PoolBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcondF1 : ∀ t : Fin grid1.N, poolFirst (grid1.coords t) ↔ t.val = 0 := by decide +kernel

theorem out1_2 : ∀ t : Fin cfg1.N, (k1_cond2 (grid1.coords t) = 1#1 → cfg1.idle 2 (grid1.coords t) = false)
    ∧ (¬ k1_cond2 (grid1.coords t) = 1#1 → cfg1.idle 2 (grid1.coords t) = true ∧ (cfg1.win 2).flush t = false) := by decide +kernel

theorem before1_0 (c : Dev nD) (t : Fin cfg1.N) (d) : (dat1 V c).before 0 t d = iblk1 V c 0 t :=
  (dat1 V c).before_fetched 0 t (fetch1_0 t) d
theorem before1_1 (c : Dev nD) (t : Fin cfg1.N) (d) : (dat1 V c).before 1 t d = iblk1 V c 1 t :=
  (dat1 V c).before_fetched 1 t (fetch1_1 t) d

/-- One point's step of the scratch's contents, from what the point found there. -/
theorem accAt1_step (c : Dev nD) (t : Fin cfg1.N) (a : Vec F S512x128 .f32)
    (ha : ∀ hn : 0 < t.val, a = accAt1 V c (t.val - 1) (Nat.lt_of_le_of_lt (Nat.sub_le _ _) t.isLt)) :
    accAt1 V c t.val t.isLt = k1_pay2 (iblk1 V c 0 t) (iblk1 V c 1 t) (if poolFirst (grid1.coords t) then k1_pay1 else a) := by
  obtain ⟨n, hn⟩ := t
  cases n with
  | zero => rw [if_pos ((hcondF1 _).mpr rfl)]; rfl
  | succ n => rw [if_neg fun h => Nat.succ_ne_zero n ((hcondF1 _).mp h), ha (Nat.succ_pos n)]; rfl

theorem out1_2_leaves (c : Dev nD) (t : Fin cfg1.N) (d) :
    owns c.tc (st1_2 t) fullShare (if k1_cond2 (grid1.coords t) = 1#1 then accAt1 V c t.val t.isLt else (dat1 V c).before 2 t d)
      ⊢ (dat1 V c).leavesExact 2 t := by
  by_cases hc2 : k1_cond2 (grid1.coords t) = 1#1
  · rw [if_pos hc2]; unfold Dat.leavesExact; rw [(out1_2 t).1 hc2]; exact .rfl
  · rw [if_neg hc2, Dat.leavesExact_idle _ 2 t ((out1_2 t).2 hc2).1 ((out1_2 t).2 hc2).2]; iintro H; iexists d; iexact H

theorem sound_body1 (c : Dev nD) (t : Fin cfg1.N) :
    iprop(PhiS1 V c t.val (Nat.le_of_lt t.isLt) ∗ (dat1 V c).owesAt () t.castSucc
      ∗ (∃ d, owns c.tc (st1_0 t) fullShare ((dat1 V c).before 0 t d))
      ∗ (∃ d, owns c.tc (st1_1 t) fullShare ((dat1 V c).before 1 t d))
      ∗ (∃ d, owns c.tc (st1_2 t) fullShare ((dat1 V c).before 2 t d)))
    ⊢ wp frame (wpE (defs₀ (F := F)) Variants.none c none) Set.univ (bodyAt1 t) fun _ =>
      iprop(PhiS1 V c (t.val + 1) t.isLt ∗ (dat1 V c).owesAt () t.castSucc
        ∗ owns c.tc (st1_0 t) fullShare (iblk1 V c 0 t)
        ∗ owns c.tc (st1_1 t) fullShare (iblk1 V c 1 t)
        ∗ (dat1 V c).leavesExact 2 t) := by
  simp only [before1_0, before1_1]; unfold PhiS1 bodyAt1
  iintro ⟨⟨⟨%a, %ha, HS⟩, HR⟩, Ho, ⟨%d0, H0⟩, ⟨%d1, H1⟩, ⟨%d2, H2⟩⟩
  iapply (pool_sound c Set.univ _ _ (hstage1_0 _) _ (hstage1_1 _) _ (hstage1_2 _) _ (Memref.isWhole_whole _) (iblk1 V c 0 t) (iblk1 V c 1 t) ((dat1 V c).before 2 t d2) a _ (accAt1_step V c t a ha) _ (out1_2_leaves V c t d2) _)
  iframe H0 H1 H2 HS
  iintro ⟨H0, H1, H2, HS⟩
  iframe H0 H1 H2 Ho HR
  iexists _; isplitr; swap; · iexact HS
  ipureintro; exact fun _ => rfl

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  show _ ⊢ PhiS1 V c 0 (Nat.zero_le _); unfold PhiS1 Pipeline.ΦA; rw [scopedRest1_split]; simp only [scM1, owns_whole]
  iintro ⟨⟨⟨%d, HS⟩, HR⟩, Hg⟩
  iframe HR Hg
  iexists d; isplitr; · ipureintro; exact fun h => nomatch h
  iexact HS

/-- The scratch's named contents are forgotten. -/
theorem hout1 (c : Dev nD) : (dat1 V c).Φ (Fin.last cfg1.N) ⊢ Pipeline.ΦA spec1 c := by
  show PhiS1 V c _ (Nat.le_refl _) ⊢ _; unfold PhiS1 Pipeline.ΦA; rw [scopedRest1_split]; simp only [scM1, owns_whole]
  iintro ⟨⟨%a, -, HS⟩, HR, Hg⟩
  iframe HR Hg
  iexists a; iexact HS

end Cert.KernelIdeal.Hand

end
-- ==== Proof.KI.PoolData3.lean ====
import proofs.«416174_j54228257079641_1_alg».proof.Proof.Gen.KernelIdeal.Launch
import proofs.«416174_j54228257079641_1_alg».proof.Proof.Gen.KernelIdeal.Skeleton
import proofs.«416174_j54228257079641_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3 : Memref sig .tc .vmem S512x128 .f32 := Memref.whole cc3_scratch0

/-- The zero array plus the contributions of the tiles up to point `n`. -/
def accAt3 (c : Dev nD) : (n : ℕ) → n < cfg3.N → Vec F S512x128 .f32
  | 0, hn => k3_pay2 (iblk3 V c 0 ⟨0, hn⟩) (iblk3 V c 1 ⟨0, hn⟩) (k3_pay1 (F := F))
  | n + 1, hn => k3_pay2 (iblk3 V c 0 ⟨n + 1, hn⟩) (iblk3 V c 1 ⟨n + 1, hn⟩) (accAt3 c n (Nat.lt_of_succ_lt hn))

/-- Before position `n` the scratch holds what the point before left, if there is one; the rest is untouched. -/
def PhiS3 (c : Dev nD) (n : ℕ) (h : n ≤ cfg3.N) : sProp 𝕄 :=
  iprop((∃ a, ⌜∀ hn : 0 < n, a = accAt3 V c (n - 1) (by omega)⌝ ∗ owns c.tc scM3 fullShare a)
    ∗ Pipeline.scopedRestBut spec3 c [cc3_scratch0] ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => accAt3 V c t.val t.isLt
  Φ t := PhiS3 V c t.val (Nat.le_of_lt_succ t.isLt)
  q _ := fullShare
  owed _ := 0

theorem after3_2 (c : Dev nD) (t : Fin cfg3.N) : (dat3 V c).after 2 t = accAt3 V c t.val t.isLt := rfl

end Cert.KernelIdeal.Hand

end
-- ==== Proof.KI.PoolRegion3.lean ====
import proofs.«416174_j54228257079641_1_alg».proof.Proof.KI.PoolData3
import proofs.«416174_j54228257079641_1_alg».proof.Proof.KI.PoolBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcondF3 : ∀ t : Fin grid3.N, poolFirst (grid3.coords t) ↔ t.val = 0 := by decide +kernel

theorem out3_2 : ∀ t : Fin cfg3.N, (k3_cond2 (grid3.coords t) = 1#1 → cfg3.idle 2 (grid3.coords t) = false)
    ∧ (¬ k3_cond2 (grid3.coords t) = 1#1 → cfg3.idle 2 (grid3.coords t) = true ∧ (cfg3.win 2).flush t = false) := by decide +kernel

theorem before3_0 (c : Dev nD) (t : Fin cfg3.N) (d) : (dat3 V c).before 0 t d = iblk3 V c 0 t :=
  (dat3 V c).before_fetched 0 t (fetch3_0 t) d
theorem before3_1 (c : Dev nD) (t : Fin cfg3.N) (d) : (dat3 V c).before 1 t d = iblk3 V c 1 t :=
  (dat3 V c).before_fetched 1 t (fetch3_1 t) d

/-- One point's step of the scratch's contents, from what the point found there. -/
theorem accAt3_step (c : Dev nD) (t : Fin cfg3.N) (a : Vec F S512x128 .f32)
    (ha : ∀ hn : 0 < t.val, a = accAt3 V c (t.val - 1) (Nat.lt_of_le_of_lt (Nat.sub_le _ _) t.isLt)) :
    accAt3 V c t.val t.isLt = k3_pay2 (iblk3 V c 0 t) (iblk3 V c 1 t) (if poolFirst (grid3.coords t) then k3_pay1 else a) := by
  obtain ⟨n, hn⟩ := t
  cases n with
  | zero => rw [if_pos ((hcondF3 _).mpr rfl)]; rfl
  | succ n => rw [if_neg fun h => Nat.succ_ne_zero n ((hcondF3 _).mp h), ha (Nat.succ_pos n)]; rfl

theorem out3_2_leaves (c : Dev nD) (t : Fin cfg3.N) (d) :
    owns c.tc (st3_2 t) fullShare (if k3_cond2 (grid3.coords t) = 1#1 then accAt3 V c t.val t.isLt else (dat3 V c).before 2 t d)
      ⊢ (dat3 V c).leavesExact 2 t := by
  by_cases hc2 : k3_cond2 (grid3.coords t) = 1#1
  · rw [if_pos hc2]; unfold Dat.leavesExact; rw [(out3_2 t).1 hc2]; exact .rfl
  · rw [if_neg hc2, Dat.leavesExact_idle _ 2 t ((out3_2 t).2 hc2).1 ((out3_2 t).2 hc2).2]; iintro H; iexists d; iexact H

theorem sound_body3 (c : Dev nD) (t : Fin cfg3.N) :
    iprop(PhiS3 V c t.val (Nat.le_of_lt t.isLt) ∗ (dat3 V c).owesAt () t.castSucc
      ∗ (∃ d, owns c.tc (st3_0 t) fullShare ((dat3 V c).before 0 t d))
      ∗ (∃ d, owns c.tc (st3_1 t) fullShare ((dat3 V c).before 1 t d))
      ∗ (∃ d, owns c.tc (st3_2 t) fullShare ((dat3 V c).before 2 t d)))
    ⊢ wp frame (wpE (defs₀ (F := F)) Variants.none c none) Set.univ (bodyAt3 t) fun _ =>
      iprop(PhiS3 V c (t.val + 1) t.isLt ∗ (dat3 V c).owesAt () t.castSucc
        ∗ owns c.tc (st3_0 t) fullShare (iblk3 V c 0 t)
        ∗ owns c.tc (st3_1 t) fullShare (iblk3 V c 1 t)
        ∗ (dat3 V c).leavesExact 2 t) := by
  simp only [before3_0, before3_1]; unfold PhiS3 bodyAt3
  iintro ⟨⟨⟨%a, %ha, HS⟩, HR⟩, Ho, ⟨%d0, H0⟩, ⟨%d1, H1⟩, ⟨%d2, H2⟩⟩
  iapply (pool_sound c Set.univ _ _ (hstage3_0 _) _ (hstage3_1 _) _ (hstage3_2 _) _ (Memref.isWhole_whole _) (iblk3 V c 0 t) (iblk3 V c 1 t) ((dat3 V c).before 2 t d2) a _ (accAt3_step V c t a ha) _ (out3_2_leaves V c t d2) _)
  iframe H0 H1 H2 HS
  iintro ⟨H0, H1, H2, HS⟩
  iframe H0 H1 H2 Ho HR
  iexists _; isplitr; swap; · iexact HS
  ipureintro; exact fun _ => rfl

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  show _ ⊢ PhiS3 V c 0 (Nat.zero_le _); unfold PhiS3 Pipeline.ΦA; rw [scopedRest3_split]; simp only [scM3, owns_whole]
  iintro ⟨⟨⟨%d, HS⟩, HR⟩, Hg⟩
  iframe HR Hg
  iexists d; isplitr; · ipureintro; exact fun h => nomatch h
  iexact HS

/-- The scratch's named contents are forgotten. -/
theorem hout3 (c : Dev nD) : (dat3 V c).Φ (Fin.last cfg3.N) ⊢ Pipeline.ΦA spec3 c := by
  show PhiS3 V c _ (Nat.le_refl _) ⊢ _; unfold PhiS3 Pipeline.ΦA; rw [scopedRest3_split]; simp only [scM3, owns_whole]
  iintro ⟨⟨%a, -, HS⟩, HR, Hg⟩
  iframe HR Hg
  iexists a; iexact HS

end Cert.KernelIdeal.Hand

end
-- ==== Proof.KI.PoolData5.lean ====
import proofs.«416174_j54228257079641_1_alg».proof.Proof.Gen.KernelIdeal.Launch
import proofs.«416174_j54228257079641_1_alg».proof.Proof.Gen.KernelIdeal.Skeleton
import proofs.«416174_j54228257079641_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev scM5 : Memref sig .tc .vmem S512x128 .f32 := Memref.whole cc5_scratch0

/-- The zero array plus the contributions of the tiles up to point `n`. -/
def accAt5 (c : Dev nD) : (n : ℕ) → n < cfg5.N → Vec F S512x128 .f32
  | 0, hn => k5_pay2 (iblk5 V c 0 ⟨0, hn⟩) (iblk5 V c 1 ⟨0, hn⟩) (k5_pay1 (F := F))
  | n + 1, hn => k5_pay2 (iblk5 V c 0 ⟨n + 1, hn⟩) (iblk5 V c 1 ⟨n + 1, hn⟩) (accAt5 c n (Nat.lt_of_succ_lt hn))

/-- Before position `n` the scratch holds what the point before left, if there is one; the rest is untouched. -/
def PhiS5 (c : Dev nD) (n : ℕ) (h : n ≤ cfg5.N) : sProp 𝕄 :=
  iprop((∃ a, ⌜∀ hn : 0 < n, a = accAt5 V c (n - 1) (by omega)⌝ ∗ owns c.tc scM5 fullShare a)
    ∗ Pipeline.scopedRestBut spec5 c [cc5_scratch0] ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => accAt5 V c t.val t.isLt
  Φ t := PhiS5 V c t.val (Nat.le_of_lt_succ t.isLt)
  q _ := fullShare
  owed _ := 0

theorem after5_2 (c : Dev nD) (t : Fin cfg5.N) : (dat5 V c).after 2 t = accAt5 V c t.val t.isLt := rfl

end Cert.KernelIdeal.Hand

end
-- ==== Proof.KI.PoolRegion5.lean ====
import proofs.«416174_j54228257079641_1_alg».proof.Proof.KI.PoolData5
import proofs.«416174_j54228257079641_1_alg».proof.Proof.KI.PoolBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hcondF5 : ∀ t : Fin grid5.N, poolFirst (grid5.coords t) ↔ t.val = 0 := by decide +kernel

theorem out5_2 : ∀ t : Fin cfg5.N, (k5_cond2 (grid5.coords t) = 1#1 → cfg5.idle 2 (grid5.coords t) = false)
    ∧ (¬ k5_cond2 (grid5.coords t) = 1#1 → cfg5.idle 2 (grid5.coords t) = true ∧ (cfg5.win 2).flush t = false) := by decide +kernel

theorem before5_0 (c : Dev nD) (t : Fin cfg5.N) (d) : (dat5 V c).before 0 t d = iblk5 V c 0 t :=
  (dat5 V c).before_fetched 0 t (fetch5_0 t) d
theorem before5_1 (c : Dev nD) (t : Fin cfg5.N) (d) : (dat5 V c).before 1 t d = iblk5 V c 1 t :=
  (dat5 V c).before_fetched 1 t (fetch5_1 t) d

/-- One point's step of the scratch's contents, from what the point found there. -/
theorem accAt5_step (c : Dev nD) (t : Fin cfg5.N) (a : Vec F S512x128 .f32)
    (ha : ∀ hn : 0 < t.val, a = accAt5 V c (t.val - 1) (Nat.lt_of_le_of_lt (Nat.sub_le _ _) t.isLt)) :
    accAt5 V c t.val t.isLt = k5_pay2 (iblk5 V c 0 t) (iblk5 V c 1 t) (if poolFirst (grid5.coords t) then k5_pay1 else a) := by
  obtain ⟨n, hn⟩ := t
  cases n with
  | zero => rw [if_pos ((hcondF5 _).mpr rfl)]; rfl
  | succ n => rw [if_neg fun h => Nat.succ_ne_zero n ((hcondF5 _).mp h), ha (Nat.succ_pos n)]; rfl

theorem out5_2_leaves (c : Dev nD) (t : Fin cfg5.N) (d) :
    owns c.tc (st5_2 t) fullShare (if k5_cond2 (grid5.coords t) = 1#1 then accAt5 V c t.val t.isLt else (dat5 V c).before 2 t d)
      ⊢ (dat5 V c).leavesExact 2 t := by
  by_cases hc2 : k5_cond2 (grid5.coords t) = 1#1
  · rw [if_pos hc2]; unfold Dat.leavesExact; rw [(out5_2 t).1 hc2]; exact .rfl
  · rw [if_neg hc2, Dat.leavesExact_idle _ 2 t ((out5_2 t).2 hc2).1 ((out5_2 t).2 hc2).2]; iintro H; iexists d; iexact H

theorem sound_body5 (c : Dev nD) (t : Fin cfg5.N) :
    iprop(PhiS5 V c t.val (Nat.le_of_lt t.isLt) ∗ (dat5 V c).owesAt () t.castSucc
      ∗ (∃ d, owns c.tc (st5_0 t) fullShare ((dat5 V c).before 0 t d))
      ∗ (∃ d, owns c.tc (st5_1 t) fullShare ((dat5 V c).before 1 t d))
      ∗ (∃ d, owns c.tc (st5_2 t) fullShare ((dat5 V c).before 2 t d)))
    ⊢ wp frame (wpE (defs₀ (F := F)) Variants.none c none) Set.univ (bodyAt5 t) fun _ =>
      iprop(PhiS5 V c (t.val + 1) t.isLt ∗ (dat5 V c).owesAt () t.castSucc
        ∗ owns c.tc (st5_0 t) fullShare (iblk5 V c 0 t)
        ∗ owns c.tc (st5_1 t) fullShare (iblk5 V c 1 t)
        ∗ (dat5 V c).leavesExact 2 t) := by
  simp only [before5_0, before5_1]; unfold PhiS5 bodyAt5
  iintro ⟨⟨⟨%a, %ha, HS⟩, HR⟩, Ho, ⟨%d0, H0⟩, ⟨%d1, H1⟩, ⟨%d2, H2⟩⟩
  iapply (pool_sound c Set.univ _ _ (hstage5_0 _) _ (hstage5_1 _) _ (hstage5_2 _) _ (Memref.isWhole_whole _) (iblk5 V c 0 t) (iblk5 V c 1 t) ((dat5 V c).before 2 t d2) a _ (accAt5_step V c t a ha) _ (out5_2_leaves V c t d2) _)
  iframe H0 H1 H2 HS
  iintro ⟨H0, H1, H2, HS⟩
  iframe H0 H1 H2 Ho HR
  iexists _; isplitr; swap; · iexact HS
  ipureintro; exact fun _ => rfl

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  show _ ⊢ PhiS5 V c 0 (Nat.zero_le _); unfold PhiS5 Pipeline.ΦA; rw [scopedRest5_split]; simp only [scM5, owns_whole]
  iintro ⟨⟨⟨%d, HS⟩, HR⟩, Hg⟩
  iframe HR Hg
  iexists d; isplitr; · ipureintro; exact fun h => nomatch h
  iexact HS

/-- The scratch's named contents are forgotten. -/
theorem hout5 (c : Dev nD) : (dat5 V c).Φ (Fin.last cfg5.N) ⊢ Pipeline.ΦA spec5 c := by
  show PhiS5 V c _ (Nat.le_refl _) ⊢ _; unfold PhiS5 Pipeline.ΦA; rw [scopedRest5_split]; simp only [scM5, owns_whole]
  iintro ⟨⟨%a, -, HS⟩, HR, Hg⟩
  iframe HR Hg
  iexists a; iexact HS

end Cert.KernelIdeal.Hand

end
-- ==== Proof.KI.Run.lean ====
import proofs.«416174_j54228257079641_1_alg».proof.Proof.Gen.KernelIdeal.Regions
import proofs.«416174_j54228257079641_1_alg».proof.Proof.KI.MlpRegion0
import proofs.«416174_j54228257079641_1_alg».proof.Proof.KI.MlpRegion2
import proofs.«416174_j54228257079641_1_alg».proof.Proof.KI.MlpRegion4
import proofs.«416174_j54228257079641_1_alg».proof.Proof.KI.PoolRegion1
import proofs.«416174_j54228257079641_1_alg».proof.Proof.KI.PoolRegion3
import proofs.«416174_j54228257079641_1_alg».proof.Proof.KI.PoolRegion5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

def U1 (c : Dev nD) : Valuation τ sig (Elt F) := Gen.V1 m c

def U2 (c : Dev nD) : Valuation τ sig (Elt F) :=
  Function.update (U1 m c) main_v47 ((dat0 (fun c b => U1 m c b) c).arrAt 7 cfg0.N)

def U3 (c : Dev nD) : Valuation τ sig (Elt F) :=
  Function.update (U2 m c) main_v48 ((dat1 (fun c b => U2 m c b) c).arrAt 2 cfg1.N)

def U4 (c : Dev nD) : Valuation τ sig (Elt F) := StableHlo.after hostOps2 (U3 m c)

def U5 (c : Dev nD) : Valuation τ sig (Elt F) :=
  Function.update (U4 m c) main_v91 ((dat2 (fun c b => U4 m c b) c).arrAt 7 cfg2.N)

def U6 (c : Dev nD) : Valuation τ sig (Elt F) :=
  Function.update (U5 m c) main_v92 ((dat3 (fun c b => U5 m c b) c).arrAt 2 cfg3.N)

def U7 (c : Dev nD) : Valuation τ sig (Elt F) := StableHlo.after hostOps4 (U6 m c)

def U8 (c : Dev nD) : Valuation τ sig (Elt F) :=
  Function.update (U7 m c) main_v135 ((dat4 (fun c b => U7 m c b) c).arrAt 7 cfg4.N)

def U9 (c : Dev nD) : Valuation τ sig (Elt F) :=
  Function.update (U8 m c) main_v136 ((dat5 (fun c b => U8 m c b) c).arrAt 2 cfg5.N)

def outs : Gen.Outs (F := F) := fun J r c => match J with
  | 2 => U2 m c r | 3 => U3 m c r | 5 => U5 m c r | 6 => U6 m c r | 8 => U8 m c r | 9 => U9 m c r | _ => U1 m c r

theorem V2_eq (c : Dev nD) : Gen.V2 m (outs m) c = U2 m c := by
  show Function.update (Gen.V1 m c) main_v47 (U2 m c main_v47) = U2 m c
  unfold U2; rw [Function.update_self]; rfl
theorem V3_eq (c : Dev nD) : Gen.V3 m (outs m) c = U3 m c := by
  show Function.update (Gen.V2 m (outs m) c) main_v48 (U3 m c main_v48) = U3 m c
  rw [V2_eq]; unfold U3; rw [Function.update_self]
theorem V4_eq (c : Dev nD) : Gen.V4 m (outs m) c = U4 m c := by
  show StableHlo.after hostOps2 (Gen.V3 m (outs m) c) = U4 m c
  rw [V3_eq]; rfl
theorem V5_eq (c : Dev nD) : Gen.V5 m (outs m) c = U5 m c := by
  show Function.update (Gen.V4 m (outs m) c) main_v91 (U5 m c main_v91) = U5 m c
  rw [V4_eq]; unfold U5; rw [Function.update_self]
theorem V6_eq (c : Dev nD) : Gen.V6 m (outs m) c = U6 m c := by
  show Function.update (Gen.V5 m (outs m) c) main_v92 (U6 m c main_v92) = U6 m c
  rw [V5_eq]; unfold U6; rw [Function.update_self]
theorem V7_eq (c : Dev nD) : Gen.V7 m (outs m) c = U7 m c := by
  show StableHlo.after hostOps4 (Gen.V6 m (outs m) c) = U7 m c
  rw [V6_eq]; rfl
theorem V8_eq (c : Dev nD) : Gen.V8 m (outs m) c = U8 m c := by
  show Function.update (Gen.V7 m (outs m) c) main_v135 (U8 m c main_v135) = U8 m c
  rw [V7_eq]; unfold U8; rw [Function.update_self]
theorem V9_eq (c : Dev nD) : Gen.V9 m (outs m) c = U9 m c := by
  show Function.update (Gen.V8 m (outs m) c) main_v136 (U9 m c main_v136) = U9 m c
  rw [V8_eq]; unfold U9; rw [Function.update_self]

def pdats : (p : Fin 6) → (c : Dev nD) → Dat τ (Elt F) Unit ℕ (UR sig nD τ) ℕ (cfgs p) c
  | ⟨0, _⟩ => fun c => dat0 (fun c b => U1 m c b) c
  | ⟨1, _⟩ => fun c => dat1 (fun c b => U2 m c b) c
  | ⟨2, _⟩ => fun c => dat2 (fun c b => U4 m c b) c
  | ⟨3, _⟩ => fun c => dat3 (fun c b => U5 m c b) c
  | ⟨4, _⟩ => fun c => dat4 (fun c b => U7 m c b) c
  | ⟨5, _⟩ => fun c => dat5 (fun c b => U8 m c b) c

abbrev Lz : GSem nD τ sig → Finset Unit := fun _ => ∅
abbrev lvz : GSem nD τ sig → Unit → ℕ := fun _ _ => 0

abbrev R (c : Dev nD) : sProp 𝕄 := iprop((∃ r, prngReg c r) ∗ ∃ W, owes (c : Thread nD τ) (0 : CellTallies nD τ sig Unit) W)

abbrev E : Fin 7 → Dev nD → sProp 𝕄 := fun _ c => R c

/-- A region writes its one output array and nothing else: every other window's array leaves as it entered. -/
theorem arrAt_exit (p : Fin 6) (launch : Pipeline.LaunchFacts (nD := nD) (τ := τ) cfgs p) (o : Fin (cfgs p).W)
    (Uin Uout : Dev nD → Valuation τ sig (Elt F))
    (hA : ∀ c w, (pdats m p c).A w = Uin c (Pipeline.arrRef (cfgs p).spec w))
    (hio : ∀ w, w ≠ o → ((cfgs p).win w).isOut = false)
    (hself : ∀ c, Uout c (Pipeline.arrRef (cfgs p).spec o) = (pdats m p c).arrAt o (cfgs p).N)
    (hoff : ∀ c (b : Ref sig .tc), b ≠ Pipeline.arrRef (cfgs p).spec o → Uout c b = Uin c b) (c : Dev nD) (w : Fin (cfgs p).W) :
    (pdats m p c).arrAt w (cfgs p).N = Uout c (Pipeline.arrRef (cfgs p).spec w) := by
  by_cases hw : w = o
  · subst hw; exact (hself c).symm
  · exact ((pdats m p c).arrAt_in w (hio w hw) _).trans
      ((hA c w).trans (hoff c _ fun e => hw (launch.win.arr_inj e)).symm)

set_option backward.isDefEq.respectTransparency.types false in
/-- A region as an item of the run: its arrays leave the unscoped buffers on entry and rejoin them, the output at its final contents, on exit. -/
def regOf (p : Fin 6) (launch : Pipeline.LaunchFacts (nD := nD) (τ := τ) cfgs p) (o : Fin (cfgs p).W)
    (Uin Uout : Dev nD → Valuation τ sig (Elt F))
    (hq : ∀ c w, (pdats m p c).q w = fullShare) (howed : ∀ c t, (pdats m p c).owed t = 0)
    (hrec : ∀ c x, x ∈ (pdats m p c).recorded 0)
    (hA : ∀ c w, (pdats m p c).A w = Uin c (Pipeline.arrRef (cfgs p).spec w))
    (hio : ∀ w, w ≠ o → ((cfgs p).win w).isOut = false)
    (hself : ∀ c, Uout c (Pipeline.arrRef (cfgs p).spec o) = (pdats m p c).arrAt o (cfgs p).N)
    (hoff : ∀ c (b : Ref sig .tc), b ≠ Pipeline.arrRef (cfgs p).spec o → Uout c b = Uin c b)
    (hbody : ∀ c, BodyObligation (pdats m p c) (defs₀ (F := F)) Variants.none () Set.univ)
    (hΦin : ∀ c, Pipeline.ΦA (cfgs p).spec c ⊢ (pdats m p c).Φ 0)
    (hΦout : ∀ c, (pdats m p c).Φ (Fin.last _) ⊢ Pipeline.ΦA (cfgs p).spec c) :
    RegionSeg (pcfgs (F := F)) adm (pdats m) () defs₀ Variants.none Lz lvz p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ Lz lvz p howed
  pre c := iprop(StableHlo.held (c : Thread nD τ) (Pipeline.ucRefs τ sig) (Uin c) ∗ R c)
  post c := iprop(StableHlo.held (c : Thread nD τ) (Pipeline.ucRefs τ sig) (Uout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Uin c b)
  hentry c := by
    rw [Pipeline.ownSems0_none]; unfold Pipeline.Dat.owesAt Pipeline.owesWithin; rw [howed c]
    have hsplit := Pipeline.arrays_of_unscopedBufs (p := p) (pcfgs (F := F)) adm (pdats m) launch.win launch.arr_whole c
      ((pdats m p c).share_full (hq c)) (fun b => Uin c b) (hA c)
    rw [Pipeline.unscopedBufs_held c (Uin c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (hrec c x)
      iexact HO
    isplitl [Hp]; · iexact Hp
    iexact Hrest
  hin c := by
    refine BIBase.Entails.trans ?_ (hΦin c)
    unfold Pipeline.ΦA
    iintro ⟨Hp, -, Hr⟩
    isplitl [Hr]; · iexact Hr
    iexact Hp
  hout c := by
    rw [Pipeline.ownSems0_none]
    refine BIBase.Entails.trans (hΦout c) ?_
    unfold Pipeline.ΦA
    iintro ⟨Hr, Hp⟩
    isplitl [Hp]; · iexact Hp
    isplitr; · iempintro
    iexact Hr
  hexit c := by
    unfold Pipeline.Dat.owesAt Pipeline.owesWithin; rw [howed c]
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (fun b => Uin c b) (fun b => Uout c b) ((pdats m p c).arrAt · (cfgs p).N)
      (arrAt_exit m p launch o Uin Uout hA hio hself hoff c)
      (fun b hb => hoff c b fun e => hb (Finset.mem_image.mpr ⟨o, Finset.mem_univ _, e.symm⟩))
    rw [Pipeline.unscopedBufs_held c (Uout c)] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

private theorem upd_off (Uin : Valuation τ sig (Elt F)) {v : Ref sig .tc} (x) (b : Ref sig .tc) (hb : b ≠ v) :
    Function.update Uin v x b = Uin b :=
  Function.update_of_ne (StableHlo.devRef_ne_of_ne hb) _ _

def reg0 := regOf m 0 launch0 7 (U1 m) (U2 m) (fun _ _ => rfl) (fun _ _ => rfl) (fun _ _ => trivial) (fun _ _ => rfl) (by decide)
  (fun c => Function.update_self (Proc.devRef (τ := τ) .tc main_v47) _ (U1 m c)) (fun c b hb => upd_off (U1 m c) _ b hb)
  (fun c => body_obligation0 (fun c b => U1 m c b) c) (fun _ => .rfl) (fun _ => .rfl)
def reg1 := regOf m 1 launch1 2 (U2 m) (U3 m) (fun _ _ => rfl) (fun _ _ => rfl) (fun _ _ => trivial) (fun _ _ => rfl) (by decide)
  (fun c => Function.update_self (Proc.devRef (τ := τ) .tc main_v48) _ (U2 m c)) (fun c b hb => upd_off (U2 m c) _ b hb)
  (fun c => body_obligation1 (fun c b => U2 m c b) c) (hin1 (fun c b => U2 m c b)) (hout1 (fun c b => U2 m c b))
def reg2 := regOf m 2 launch2 7 (U4 m) (U5 m) (fun _ _ => rfl) (fun _ _ => rfl) (fun _ _ => trivial) (fun _ _ => rfl) (by decide)
  (fun c => Function.update_self (Proc.devRef (τ := τ) .tc main_v91) _ (U4 m c)) (fun c b hb => upd_off (U4 m c) _ b hb)
  (fun c => body_obligation2 (fun c b => U4 m c b) c) (fun _ => .rfl) (fun _ => .rfl)
def reg3 := regOf m 3 launch3 2 (U5 m) (U6 m) (fun _ _ => rfl) (fun _ _ => rfl) (fun _ _ => trivial) (fun _ _ => rfl) (by decide)
  (fun c => Function.update_self (Proc.devRef (τ := τ) .tc main_v92) _ (U5 m c)) (fun c b hb => upd_off (U5 m c) _ b hb)
  (fun c => body_obligation3 (fun c b => U5 m c b) c) (hin3 (fun c b => U5 m c b)) (hout3 (fun c b => U5 m c b))
def reg4 := regOf m 4 launch4 7 (U7 m) (U8 m) (fun _ _ => rfl) (fun _ _ => rfl) (fun _ _ => trivial) (fun _ _ => rfl) (by decide)
  (fun c => Function.update_self (Proc.devRef (τ := τ) .tc main_v135) _ (U7 m c)) (fun c b hb => upd_off (U7 m c) _ b hb)
  (fun c => body_obligation4 (fun c b => U7 m c b) c) (fun _ => .rfl) (fun _ => .rfl)
def reg5 := regOf m 5 launch5 2 (U8 m) (U9 m) (fun _ _ => rfl) (fun _ _ => rfl) (fun _ _ => trivial) (fun _ _ => rfl) (by decide)
  (fun c => Function.update_self (Proc.devRef (τ := τ) .tc main_v136) _ (U8 m c)) (fun c b hb => upd_off (U8 m c) _ b hb)
  (fun c => body_obligation5 (fun c b => U8 m c b) c) (hin5 (fun c b => U8 m c b)) (hout5 (fun c b => U8 m c b))

theorem hpre0 (c : Dev nD) : iprop(StableHlo.held (c : Thread nD τ) (Pipeline.ucRefs τ sig) (Gen.V1 m c) ∗ E 0 c) ⊢ (reg0 m).pre c := by
  exact .rfl
theorem hpost0 (c : Dev nD) : (reg0 m).post c ⊢ iprop(StableHlo.held (c : Thread nD τ) (Pipeline.ucRefs τ sig) (Gen.V2 m (outs m) c) ∗ E 1 c) := by
  rw [V2_eq]; exact .rfl
theorem hpre1 (c : Dev nD) : iprop(StableHlo.held (c : Thread nD τ) (Pipeline.ucRefs τ sig) (Gen.V2 m (outs m) c) ∗ E 1 c) ⊢ (reg1 m).pre c := by
  rw [V2_eq]; exact .rfl
theorem hpost1 (c : Dev nD) : (reg1 m).post c ⊢ iprop(StableHlo.held (c : Thread nD τ) (Pipeline.ucRefs τ sig) (Gen.V3 m (outs m) c) ∗ E 2 c) := by
  rw [V3_eq]; exact .rfl
theorem hpre2 (c : Dev nD) : iprop(StableHlo.held (c : Thread nD τ) (Pipeline.ucRefs τ sig) (Gen.V4 m (outs m) c) ∗ E 2 c) ⊢ (reg2 m).pre c := by
  rw [V4_eq]; exact .rfl
theorem hpost2 (c : Dev nD) : (reg2 m).post c ⊢ iprop(StableHlo.held (c : Thread nD τ) (Pipeline.ucRefs τ sig) (Gen.V5 m (outs m) c) ∗ E 3 c) := by
  rw [V5_eq]; exact .rfl
theorem hpre3 (c : Dev nD) : iprop(StableHlo.held (c : Thread nD τ) (Pipeline.ucRefs τ sig) (Gen.V5 m (outs m) c) ∗ E 3 c) ⊢ (reg3 m).pre c := by
  rw [V5_eq]; exact .rfl
theorem hpost3 (c : Dev nD) : (reg3 m).post c ⊢ iprop(StableHlo.held (c : Thread nD τ) (Pipeline.ucRefs τ sig) (Gen.V6 m (outs m) c) ∗ E 4 c) := by
  rw [V6_eq]; exact .rfl
theorem hpre4 (c : Dev nD) : iprop(StableHlo.held (c : Thread nD τ) (Pipeline.ucRefs τ sig) (Gen.V7 m (outs m) c) ∗ E 4 c) ⊢ (reg4 m).pre c := by
  rw [V7_eq]; exact .rfl
theorem hpost4 (c : Dev nD) : (reg4 m).post c ⊢ iprop(StableHlo.held (c : Thread nD τ) (Pipeline.ucRefs τ sig) (Gen.V8 m (outs m) c) ∗ E 5 c) := by
  rw [V8_eq]; exact .rfl
theorem hpre5 (c : Dev nD) : iprop(StableHlo.held (c : Thread nD τ) (Pipeline.ucRefs τ sig) (Gen.V8 m (outs m) c) ∗ E 5 c) ⊢ (reg5 m).pre c := by
  rw [V8_eq]; exact .rfl
theorem hpost5 (c : Dev nD) : (reg5 m).post c ⊢ iprop(StableHlo.held (c : Thread nD τ) (Pipeline.ucRefs τ sig) (Gen.V9 m (outs m) c) ∗ E 6 c) := by
  rw [V9_eq]; exact .rfl

theorem hE6 (c : Dev nD) : (E 6 c : sProp 𝕄) ⊢ iprop(∃ W, owes (c : Thread nD τ) (0 : CellTallies nD τ sig Unit) W) := by
  iintro ⟨-, HO⟩; iexact HO

set_option backward.isDefEq.respectTransparency.types false in
/-- Every weakly fair execution terminates and leaves the sixteen argument arrays as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Gen.frame_cond (Ix := Unit) (U := UR sig nD τ) (Lvl := ℕ) m emb₁ () Variants.none Lz lvz (fun _ _ => rfl) ρ (outs m) (pdats m)
    0 (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E
    (Pipeline.initEach Lz lvz fun c => by
      iintro ⟨⟨-, HO, -, Hp, -⟩, -⟩
      imodintro
      isplitl [Hp]; · iexists _; iexact Hp
      iexists ∅; iexact HO)
    hE6
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)

end Cert.KernelIdeal.Hand

end
-- ==== Proof.RefCuts.lean ====
import proofs.«416174_j54228257079641_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

local macro "writes_mem" : tactic =>
  `(tactic| (simp only [nullary_writes, unary_writes, binary_writes, ternary_writes, reshape_writes, Finset.singleton_subset_iff, List.mem_toFinset]
             exact List.mem_map_of_mem (by decide)))

abbrev oP : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000 ]

abbrev oP_W : List (Ref sig .tc) := [main_v0, main_v1, main_v2, main_v3]

theorem oP_writes : (oP : List (HloOp τ sig (Elt F))).Forall fun op => op.writes ⊆ (oP_W.map (Proc.devRef (τ := τ) .tc)).toFinset := by
  simp only [List.Forall]
  repeat' apply And.intro
  all_goals writes_mem

theorem after_oP_of (V : Valuation τ sig (Elt F)) (r : Ref sig .tc) (h : r ∉ oP_W) :
    after oP V (Proc.devRef .tc r) = V (Proc.devRef .tc r) :=
  after_of_writes_sub oP V oP_writes h

abbrev oL0 : List (HloOp τ sig (Elt F)) :=
  [ nullary main_c (constantI S_ 32 0#32),
    unary main_c main_v4 (broadcastInDim S640000 ![] bcast_S_S640000 : (⟨S_, .i32⟩ : BufTy).Contents (Elt F) → (⟨S640000, .i32⟩ : BufTy).Contents (Elt F)),
    binary main_v1 main_v4 main_v5 (cmpi .slt : (⟨S640000, .i32⟩ : BufTy).Contents (Elt F) → (⟨S640000, .i32⟩ : BufTy).Contents (Elt F) → (⟨S640000, .i1⟩ : BufTy).Contents (Elt F)),
    nullary main_c_0 (constantI S_ 32 100000#32),
    unary main_c_0 main_v6 (broadcastInDim S640000 ![] bcast_S_S640000 : (⟨S_, .i32⟩ : BufTy).Contents (Elt F) → (⟨S640000, .i32⟩ : BufTy).Contents (Elt F)),
    binary main_v1 main_v6 main_v7 (addi : (⟨S640000, .i32⟩ : BufTy).Contents (Elt F) → (⟨S640000, .i32⟩ : BufTy).Contents (Elt F) → (⟨S640000, .i32⟩ : BufTy).Contents (Elt F)),
    ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v8 main_v9 (broadcastInDim S640000x1 ![0] bcast_S640000_S640000x1_0 : (⟨S640000, .i32⟩ : BufTy).Contents (Elt F) → (⟨S640000x1, .i32⟩ : BufTy).Contents (Elt F)),
    binary main_arg0 main_v9 main_v10 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S640000x1 ![0] bcast_S640000_S640000x1_0 : (⟨S640000, .i32⟩ : BufTy).Contents (Elt F) → (⟨S640000x1, .i32⟩ : BufTy).Contents (Elt F)),
    ternary main_v11 main_v12 main_v10 main_v13 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    unary main_arg3 main_v14 ((extractStridedSlice S1 ![0] · slices_S3_S1_0) : (⟨S3, .f32⟩ : BufTy).Contents (Elt F) → (⟨S1, .f32⟩ : BufTy).Contents (Elt F)),
    reshape main_v14 main_v15 rfl shapeCasts_S1_S_,
    nullary main_cst_1 (constant S_ .f32 0x3F800000#32),
    binary main_cst_1 main_v15 main_v16 (addf : (⟨S_, .f32⟩ : BufTy).Contents (Elt F) → (⟨S_, .f32⟩ : BufTy).Contents (Elt F) → (⟨S_, .f32⟩ : BufTy).Contents (Elt F)),
    unary main_v16 main_v17 (broadcastInDim S100000x128 ![] bcast_S_S100000x128 : (⟨S_, .f32⟩ : BufTy).Contents (Elt F) → (⟨S100000x128, .f32⟩ : BufTy).Contents (Elt F)),
    binary main_v17 main_arg0 main_v18 (mulf : (⟨S100000x128, .f32⟩ : BufTy).Contents (Elt F) → (⟨S100000x128, .f32⟩ : BufTy).Contents (Elt F) → (⟨S100000x128, .f32⟩ : BufTy).Contents (Elt F)),
    binary main_v18 main_v13 main_v19 (addf : (⟨S100000x128, .f32⟩ : BufTy).Contents (Elt F) → (⟨S100000x128, .f32⟩ : BufTy).Contents (Elt F) → (⟨S100000x128, .f32⟩ : BufTy).Contents (Elt F)),
    unary main_arg4 main_v20 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v20 main_v21 rfl shapeCasts_S1x128x128_S128x128,
    binary main_v19 main_v21 main_v22 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v23 ((extractStridedSlice S1x128 ![0, 0] · slices_S3x128_S1x128_0_0) : (⟨S3x128, .f32⟩ : BufTy).Contents (Elt F) → (⟨S1x128, .f32⟩ : BufTy).Contents (Elt F)),
    reshape main_v23 main_v24 rfl shapeCasts_S1x128_S128,
    unary main_v24 main_v25 (broadcastInDim S1x128 ![1] bcast_S128_S1x128_1 : (⟨S128, .f32⟩ : BufTy).Contents (Elt F) → (⟨S1x128, .f32⟩ : BufTy).Contents (Elt F)),
    unary main_v25 main_v26 (broadcastInDim S100000x128 ![0, 1] bcast_S1x128_S100000x128_0_1 : (⟨S1x128, .f32⟩ : BufTy).Contents (Elt F) → (⟨S100000x128, .f32⟩ : BufTy).Contents (Elt F)),
    binary main_v22 main_v26 main_v27 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v27) (TRef.of (T := ⟨S100000x128, .f32⟩) main_call0_v0) (TRef.of (T := ⟨S100000x128, .f32⟩) main_v28) maximumf,
    unary main_arg8 main_v29 ((extractStridedSlice S1x128 ![0, 0] · slices_S3x128_S1x128_0_0) : (⟨S3x128, .f32⟩ : BufTy).Contents (Elt F) → (⟨S1x128, .f32⟩ : BufTy).Contents (Elt F)),
    reshape main_v29 main_v30 rfl shapeCasts_S1x128_S128,
    unary main_v30 main_v31 (broadcastInDim S1x128 ![1] bcast_S128_S1x128_1 : (⟨S128, .f32⟩ : BufTy).Contents (Elt F) → (⟨S1x128, .f32⟩ : BufTy).Contents (Elt F)),
    unary main_v31 main_v32 (broadcastInDim S100000x128 ![0, 1] bcast_S1x128_S100000x128_0_1 : (⟨S1x128, .f32⟩ : BufTy).Contents (Elt F) → (⟨S100000x128, .f32⟩ : BufTy).Contents (Elt F)),
    binary main_v28 main_v32 main_v33 (subf : (⟨S100000x128, .f32⟩ : BufTy).Contents (Elt F) → (⟨S100000x128, .f32⟩ : BufTy).Contents (Elt F) → (⟨S100000x128, .f32⟩ : BufTy).Contents (Elt F)),
    unary main_arg9 main_v34 ((extractStridedSlice S1x128 ![0, 0] · slices_S3x128_S1x128_0_0) : (⟨S3x128, .f32⟩ : BufTy).Contents (Elt F) → (⟨S1x128, .f32⟩ : BufTy).Contents (Elt F)),
    reshape main_v34 main_v35 rfl shapeCasts_S1x128_S128,
    nullary main_cst_2 (constant S_ .f32 0x3727C5AC#32),
    unary main_cst_2 main_v36 (broadcastInDim S128 ![] bcast_S_S128 : (⟨S_, .f32⟩ : BufTy).Contents (Elt F) → (⟨S128, .f32⟩ : BufTy).Contents (Elt F)),
    binary main_v35 main_v36 main_v37 (addf : (⟨S128, .f32⟩ : BufTy).Contents (Elt F) → (⟨S128, .f32⟩ : BufTy).Contents (Elt F) → (⟨S128, .f32⟩ : BufTy).Contents (Elt F)),
    unary main_v37 main_v38 (Host.rsqrt : (⟨S128, .f32⟩ : BufTy).Contents (Elt F) → (⟨S128, .f32⟩ : BufTy).Contents (Elt F)),
    unary main_v38 main_v39 (broadcastInDim S1x128 ![1] bcast_S128_S1x128_1 : (⟨S128, .f32⟩ : BufTy).Contents (Elt F) → (⟨S1x128, .f32⟩ : BufTy).Contents (Elt F)),
    unary main_v39 main_v40 (broadcastInDim S100000x128 ![0, 1] bcast_S1x128_S100000x128_0_1 : (⟨S1x128, .f32⟩ : BufTy).Contents (Elt F) → (⟨S100000x128, .f32⟩ : BufTy).Contents (Elt F)),
    binary main_v33 main_v40 main_v41 (mulf : (⟨S100000x128, .f32⟩ : BufTy).Contents (Elt F) → (⟨S100000x128, .f32⟩ : BufTy).Contents (Elt F) → (⟨S100000x128, .f32⟩ : BufTy).Contents (Elt F)),
    unary main_arg6 main_v42 ((extractStridedSlice S1x128 ![0, 0] · slices_S3x128_S1x128_0_0) : (⟨S3x128, .f32⟩ : BufTy).Contents (Elt F) → (⟨S1x128, .f32⟩ : BufTy).Contents (Elt F)),
    reshape main_v42 main_v43 rfl shapeCasts_S1x128_S128,
    unary main_v43 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v41 main_v45 main_v46 (mulf : (⟨S100000x128, .f32⟩ : BufTy).Contents (Elt F) → (⟨S100000x128, .f32⟩ : BufTy).Contents (Elt F) → (⟨S100000x128, .f32⟩ : BufTy).Contents (Elt F)),
    unary main_arg7 main_v47 ((extractStridedSlice S1x128 ![0, 0] · slices_S3x128_S1x128_0_0) : (⟨S3x128, .f32⟩ : BufTy).Contents (Elt F) → (⟨S1x128, .f32⟩ : BufTy).Contents (Elt F)),
    reshape main_v47 main_v48 rfl shapeCasts_S1x128_S128,
    unary main_v48 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v46 main_v50 main_v51 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v51) (TRef.of (T := ⟨S100000x128, .f32⟩) main_call1_v0) (TRef.of (T := ⟨S100000x128, .f32⟩) main_v52) maximumf,
    unary main_arg10 main_v53 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v53 main_v54 rfl shapeCasts_S1x128x128_S128x128,
    binary main_v52 main_v54 main_v55 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v56 ((extractStridedSlice S1x128 ![0, 0] · slices_S3x128_S1x128_0_0) : (⟨S3x128, .f32⟩ : BufTy).Contents (Elt F) → (⟨S1x128, .f32⟩ : BufTy).Contents (Elt F)),
    reshape main_v56 main_v57 rfl shapeCasts_S1x128_S128,
    unary main_v57 main_v58 (broadcastInDim S1x128 ![1] bcast_S128_S1x128_1 : (⟨S128, .f32⟩ : BufTy).Contents (Elt F) → (⟨S1x128, .f32⟩ : BufTy).Contents (Elt F)),
    unary main_v58 main_v59 (broadcastInDim S100000x128 ![0, 1] bcast_S1x128_S100000x128_0_1 : (⟨S1x128, .f32⟩ : BufTy).Contents (Elt F) → (⟨S100000x128, .f32⟩ : BufTy).Contents (Elt F)),
    binary main_v55 main_v59 main_v60 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v60) (TRef.of (T := ⟨S100000x128, .f32⟩) main_call2_v0) (TRef.of (T := ⟨S100000x128, .f32⟩) main_v61) maximumf,
    nullary main_cst_3 (constant S_ .f32 0x00000000#32),
    unary main_cst_3 main_v62 (broadcastInDim S512x128 ![] bcast_S_S512x128 : (⟨S_, .f32⟩ : BufTy).Contents (Elt F) → (⟨S512x128, .f32⟩ : BufTy).Contents (Elt F)),
    unary main_arg2 main_v63 (broadcastInDim S100000x1 ![0] bcast_S100000_S100000x1_0 : (⟨S100000, .i32⟩ : BufTy).Contents (Elt F) → (⟨S100000x1, .i32⟩ : BufTy).Contents (Elt F)),
    ternary main_v62 main_v63 main_v61 main_v64 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)) ]

abbrev oL0_W : List (Ref sig .tc) := [main_c, main_v4, main_v5, main_c_0, main_v6, main_v7, main_v8, main_v9, main_v10, main_cst, main_v11, main_v12, main_v13, main_v14, main_v15, main_cst_1, main_v16, main_v17, main_v18, main_v19, main_v20, main_v21, main_v22, main_v23, main_v24, main_v25, main_v26, main_v27, main_call0_cst, main_call0_v0, main_v28, main_v29, main_v30, main_v31, main_v32, main_v33, main_v34, main_v35, main_cst_2, main_v36, main_v37, main_v38, main_v39, main_v40, main_v41, main_v42, main_v43, main_v44, main_v45, main_v46, main_v47, main_v48, main_v49, main_v50, main_v51, main_call1_cst, main_call1_v0, main_v52, main_v53, main_v54, main_v55, main_v56, main_v57, main_v58, main_v59, main_v60, main_call2_cst, main_call2_v0, main_v61, main_cst_3, main_v62, main_v63, main_v64]

theorem oL0_writes : (oL0 : List (HloOp τ sig (Elt F))).Forall fun op => op.writes ⊆ (oL0_W.map (Proc.devRef (τ := τ) .tc)).toFinset := by
  simp only [List.Forall]
  repeat' apply And.intro
  all_goals writes_mem

theorem after_oL0_of (V : Valuation τ sig (Elt F)) (r : Ref sig .tc) (h : r ∉ oL0_W) :
    after oL0 V (Proc.devRef .tc r) = V (Proc.devRef .tc r) :=
  after_of_writes_sub oL0 V oL0_writes h

abbrev oL1 : List (HloOp τ sig (Elt F)) :=
  [ nullary main_c_4 (constantI S_ 32 0#32),
    unary main_c_4 main_v65 (broadcastInDim S640000 ![] bcast_S_S640000 : (⟨S_, .i32⟩ : BufTy).Contents (Elt F) → (⟨S640000, .i32⟩ : BufTy).Contents (Elt F)),
    binary main_v1 main_v65 main_v66 (cmpi .slt : (⟨S640000, .i32⟩ : BufTy).Contents (Elt F) → (⟨S640000, .i32⟩ : BufTy).Contents (Elt F) → (⟨S640000, .i1⟩ : BufTy).Contents (Elt F)),
    nullary main_c_5 (constantI S_ 32 100000#32),
    unary main_c_5 main_v67 (broadcastInDim S640000 ![] bcast_S_S640000 : (⟨S_, .i32⟩ : BufTy).Contents (Elt F) → (⟨S640000, .i32⟩ : BufTy).Contents (Elt F)),
    binary main_v1 main_v67 main_v68 (addi : (⟨S640000, .i32⟩ : BufTy).Contents (Elt F) → (⟨S640000, .i32⟩ : BufTy).Contents (Elt F) → (⟨S640000, .i32⟩ : BufTy).Contents (Elt F)),
    ternary main_v66 main_v68 main_v1 main_v69 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v69 main_v70 (broadcastInDim S640000x1 ![0] bcast_S640000_S640000x1_0 : (⟨S640000, .i32⟩ : BufTy).Contents (Elt F) → (⟨S640000x1, .i32⟩ : BufTy).Contents (Elt F)),
    binary main_v61 main_v70 main_v71 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    nullary main_cst_6 (constant S_ .f32 0x00000000#32),
    unary main_cst_6 main_v72 (broadcastInDim S100000x128 ![] bcast_S_S100000x128 : (⟨S_, .f32⟩ : BufTy).Contents (Elt F) → (⟨S100000x128, .f32⟩ : BufTy).Contents (Elt F)),
    unary main_v3 main_v73 (broadcastInDim S640000x1 ![0] bcast_S640000_S640000x1_0 : (⟨S640000, .i32⟩ : BufTy).Contents (Elt F) → (⟨S640000x1, .i32⟩ : BufTy).Contents (Elt F)),
    ternary main_v72 main_v73 main_v71 main_v74 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    unary main_arg3 main_v75 ((extractStridedSlice S1 ![1] · slices_S3_S1_1) : (⟨S3, .f32⟩ : BufTy).Contents (Elt F) → (⟨S1, .f32⟩ : BufTy).Contents (Elt F)),
    reshape main_v75 main_v76 rfl shapeCasts_S1_S_,
    nullary main_cst_7 (constant S_ .f32 0x3F800000#32),
    binary main_cst_7 main_v76 main_v77 (addf : (⟨S_, .f32⟩ : BufTy).Contents (Elt F) → (⟨S_, .f32⟩ : BufTy).Contents (Elt F) → (⟨S_, .f32⟩ : BufTy).Contents (Elt F)),
    unary main_v77 main_v78 (broadcastInDim S100000x128 ![] bcast_S_S100000x128 : (⟨S_, .f32⟩ : BufTy).Contents (Elt F) → (⟨S100000x128, .f32⟩ : BufTy).Contents (Elt F)),
    binary main_v78 main_v61 main_v79 (mulf : (⟨S100000x128, .f32⟩ : BufTy).Contents (Elt F) → (⟨S100000x128, .f32⟩ : BufTy).Contents (Elt F) → (⟨S100000x128, .f32⟩ : BufTy).Contents (Elt F)),
    binary main_v79 main_v74 main_v80 (addf : (⟨S100000x128, .f32⟩ : BufTy).Contents (Elt F) → (⟨S100000x128, .f32⟩ : BufTy).Contents (Elt F) → (⟨S100000x128, .f32⟩ : BufTy).Contents (Elt F)),
    unary main_arg4 main_v81 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v81 main_v82 rfl shapeCasts_S1x128x128_S128x128,
    binary main_v80 main_v82 main_v83 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v84 ((extractStridedSlice S1x128 ![1, 0] · slices_S3x128_S1x128_1_0) : (⟨S3x128, .f32⟩ : BufTy).Contents (Elt F) → (⟨S1x128, .f32⟩ : BufTy).Contents (Elt F)),
    reshape main_v84 main_v85 rfl shapeCasts_S1x128_S128,
    unary main_v85 main_v86 (broadcastInDim S1x128 ![1] bcast_S128_S1x128_1 : (⟨S128, .f32⟩ : BufTy).Contents (Elt F) → (⟨S1x128, .f32⟩ : BufTy).Contents (Elt F)),
    unary main_v86 main_v87 (broadcastInDim S100000x128 ![0, 1] bcast_S1x128_S100000x128_0_1 : (⟨S1x128, .f32⟩ : BufTy).Contents (Elt F) → (⟨S100000x128, .f32⟩ : BufTy).Contents (Elt F)),
    binary main_v83 main_v87 main_v88 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v88) (TRef.of (T := ⟨S100000x128, .f32⟩) main_call3_v0) (TRef.of (T := ⟨S100000x128, .f32⟩) main_v89) maximumf,
    unary main_arg8 main_v90 ((extractStridedSlice S1x128 ![1, 0] · slices_S3x128_S1x128_1_0) : (⟨S3x128, .f32⟩ : BufTy).Contents (Elt F) → (⟨S1x128, .f32⟩ : BufTy).Contents (Elt F)),
    reshape main_v90 main_v91 rfl shapeCasts_S1x128_S128,
    unary main_v91 main_v92 (broadcastInDim S1x128 ![1] bcast_S128_S1x128_1 : (⟨S128, .f32⟩ : BufTy).Contents (Elt F) → (⟨S1x128, .f32⟩ : BufTy).Contents (Elt F)),
    unary main_v92 main_v93 (broadcastInDim S100000x128 ![0, 1] bcast_S1x128_S100000x128_0_1 : (⟨S1x128, .f32⟩ : BufTy).Contents (Elt F) → (⟨S100000x128, .f32⟩ : BufTy).Contents (Elt F)),
    binary main_v89 main_v93 main_v94 (subf : (⟨S100000x128, .f32⟩ : BufTy).Contents (Elt F) → (⟨S100000x128, .f32⟩ : BufTy).Contents (Elt F) → (⟨S100000x128, .f32⟩ : BufTy).Contents (Elt F)),
    unary main_arg9 main_v95 ((extractStridedSlice S1x128 ![1, 0] · slices_S3x128_S1x128_1_0) : (⟨S3x128, .f32⟩ : BufTy).Contents (Elt F) → (⟨S1x128, .f32⟩ : BufTy).Contents (Elt F)),
    reshape main_v95 main_v96 rfl shapeCasts_S1x128_S128,
    nullary main_cst_8 (constant S_ .f32 0x3727C5AC#32),
    unary main_cst_8 main_v97 (broadcastInDim S128 ![] bcast_S_S128 : (⟨S_, .f32⟩ : BufTy).Contents (Elt F) → (⟨S128, .f32⟩ : BufTy).Contents (Elt F)),
    binary main_v96 main_v97 main_v98 (addf : (⟨S128, .f32⟩ : BufTy).Contents (Elt F) → (⟨S128, .f32⟩ : BufTy).Contents (Elt F) → (⟨S128, .f32⟩ : BufTy).Contents (Elt F)),
    unary main_v98 main_v99 (Host.rsqrt : (⟨S128, .f32⟩ : BufTy).Contents (Elt F) → (⟨S128, .f32⟩ : BufTy).Contents (Elt F)),
    unary main_v99 main_v100 (broadcastInDim S1x128 ![1] bcast_S128_S1x128_1 : (⟨S128, .f32⟩ : BufTy).Contents (Elt F) → (⟨S1x128, .f32⟩ : BufTy).Contents (Elt F)),
    unary main_v100 main_v101 (broadcastInDim S100000x128 ![0, 1] bcast_S1x128_S100000x128_0_1 : (⟨S1x128, .f32⟩ : BufTy).Contents (Elt F) → (⟨S100000x128, .f32⟩ : BufTy).Contents (Elt F)),
    binary main_v94 main_v101 main_v102 (mulf : (⟨S100000x128, .f32⟩ : BufTy).Contents (Elt F) → (⟨S100000x128, .f32⟩ : BufTy).Contents (Elt F) → (⟨S100000x128, .f32⟩ : BufTy).Contents (Elt F)),
    unary main_arg6 main_v103 ((extractStridedSlice S1x128 ![1, 0] · slices_S3x128_S1x128_1_0) : (⟨S3x128, .f32⟩ : BufTy).Contents (Elt F) → (⟨S1x128, .f32⟩ : BufTy).Contents (Elt F)),
    reshape main_v103 main_v104 rfl shapeCasts_S1x128_S128,
    unary main_v104 main_v105 (broadcastInDim S1x128 ![1] bcast_S128_S1x128_1 : (⟨S128, .f32⟩ : BufTy).Contents (Elt F) → (⟨S1x128, .f32⟩ : BufTy).Contents (Elt F)),
    unary main_v105 main_v106 (broadcastInDim S100000x128 ![0, 1] bcast_S1x128_S100000x128_0_1 : (⟨S1x128, .f32⟩ : BufTy).Contents (Elt F) → (⟨S100000x128, .f32⟩ : BufTy).Contents (Elt F)),
    binary main_v102 main_v106 main_v107 (mulf : (⟨S100000x128, .f32⟩ : BufTy).Contents (Elt F) → (⟨S100000x128, .f32⟩ : BufTy).Contents (Elt F) → (⟨S100000x128, .f32⟩ : BufTy).Contents (Elt F)),
    unary main_arg7 main_v108 ((extractStridedSlice S1x128 ![1, 0] · slices_S3x128_S1x128_1_0) : (⟨S3x128, .f32⟩ : BufTy).Contents (Elt F) → (⟨S1x128, .f32⟩ : BufTy).Contents (Elt F)),
    reshape main_v108 main_v109 rfl shapeCasts_S1x128_S128,
    unary main_v109 main_v110 (broadcastInDim S1x128 ![1] bcast_S128_S1x128_1 : (⟨S128, .f32⟩ : BufTy).Contents (Elt F) → (⟨S1x128, .f32⟩ : BufTy).Contents (Elt F)),
    unary main_v110 main_v111 (broadcastInDim S100000x128 ![0, 1] bcast_S1x128_S100000x128_0_1 : (⟨S1x128, .f32⟩ : BufTy).Contents (Elt F) → (⟨S100000x128, .f32⟩ : BufTy).Contents (Elt F)),
    binary main_v107 main_v111 main_v112 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v112) (TRef.of (T := ⟨S100000x128, .f32⟩) main_call4_v0) (TRef.of (T := ⟨S100000x128, .f32⟩) main_v113) maximumf,
    unary main_arg10 main_v114 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v114 main_v115 rfl shapeCasts_S1x128x128_S128x128,
    binary main_v113 main_v115 main_v116 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v117 ((extractStridedSlice S1x128 ![1, 0] · slices_S3x128_S1x128_1_0) : (⟨S3x128, .f32⟩ : BufTy).Contents (Elt F) → (⟨S1x128, .f32⟩ : BufTy).Contents (Elt F)),
    reshape main_v117 main_v118 rfl shapeCasts_S1x128_S128,
    unary main_v118 main_v119 (broadcastInDim S1x128 ![1] bcast_S128_S1x128_1 : (⟨S128, .f32⟩ : BufTy).Contents (Elt F) → (⟨S1x128, .f32⟩ : BufTy).Contents (Elt F)),
    unary main_v119 main_v120 (broadcastInDim S100000x128 ![0, 1] bcast_S1x128_S100000x128_0_1 : (⟨S1x128, .f32⟩ : BufTy).Contents (Elt F) → (⟨S100000x128, .f32⟩ : BufTy).Contents (Elt F)),
    binary main_v116 main_v120 main_v121 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v121) (TRef.of (T := ⟨S100000x128, .f32⟩) main_call5_v0) (TRef.of (T := ⟨S100000x128, .f32⟩) main_v122) maximumf,
    nullary main_cst_9 (constant S_ .f32 0x00000000#32),
    unary main_cst_9 main_v123 (broadcastInDim S512x128 ![] bcast_S_S512x128 : (⟨S_, .f32⟩ : BufTy).Contents (Elt F) → (⟨S512x128, .f32⟩ : BufTy).Contents (Elt F)),
    unary main_arg2 main_v124 (broadcastInDim S100000x1 ![0] bcast_S100000_S100000x1_0 : (⟨S100000, .i32⟩ : BufTy).Contents (Elt F) → (⟨S100000x1, .i32⟩ : BufTy).Contents (Elt F)),
    ternary main_v123 main_v124 main_v122 main_v125 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)) ]

abbrev oL1_W : List (Ref sig .tc) := [main_c_4, main_v65, main_v66, main_c_5, main_v67, main_v68, main_v69, main_v70, main_v71, main_cst_6, main_v72, main_v73, main_v74, main_v75, main_v76, main_cst_7, main_v77, main_v78, main_v79, main_v80, main_v81, main_v82, main_v83, main_v84, main_v85, main_v86, main_v87, main_v88, main_call3_cst, main_call3_v0, main_v89, main_v90, main_v91, main_v92, main_v93, main_v94, main_v95, main_v96, main_cst_8, main_v97, main_v98, main_v99, main_v100, main_v101, main_v102, main_v103, main_v104, main_v105, main_v106, main_v107, main_v108, main_v109, main_v110, main_v111, main_v112, main_call4_cst, main_call4_v0, main_v113, main_v114, main_v115, main_v116, main_v117, main_v118, main_v119, main_v120, main_v121, main_call5_cst, main_call5_v0, main_v122, main_cst_9, main_v123, main_v124, main_v125]

theorem oL1_writes : (oL1 : List (HloOp τ sig (Elt F))).Forall fun op => op.writes ⊆ (oL1_W.map (Proc.devRef (τ := τ) .tc)).toFinset := by
  simp only [List.Forall]
  repeat' apply And.intro
  all_goals writes_mem

theorem after_oL1_of (V : Valuation τ sig (Elt F)) (r : Ref sig .tc) (h : r ∉ oL1_W) :
    after oL1 V (Proc.devRef .tc r) = V (Proc.devRef .tc r) :=
  after_of_writes_sub oL1 V oL1_writes h

abbrev oL2 : List (HloOp τ sig (Elt F)) :=
  [ nullary main_c_10 (constantI S_ 32 0#32),
    unary main_c_10 main_v126 (broadcastInDim S640000 ![] bcast_S_S640000 : (⟨S_, .i32⟩ : BufTy).Contents (Elt F) → (⟨S640000, .i32⟩ : BufTy).Contents (Elt F)),
    binary main_v1 main_v126 main_v127 (cmpi .slt : (⟨S640000, .i32⟩ : BufTy).Contents (Elt F) → (⟨S640000, .i32⟩ : BufTy).Contents (Elt F) → (⟨S640000, .i1⟩ : BufTy).Contents (Elt F)),
    nullary main_c_11 (constantI S_ 32 100000#32),
    unary main_c_11 main_v128 (broadcastInDim S640000 ![] bcast_S_S640000 : (⟨S_, .i32⟩ : BufTy).Contents (Elt F) → (⟨S640000, .i32⟩ : BufTy).Contents (Elt F)),
    binary main_v1 main_v128 main_v129 (addi : (⟨S640000, .i32⟩ : BufTy).Contents (Elt F) → (⟨S640000, .i32⟩ : BufTy).Contents (Elt F) → (⟨S640000, .i32⟩ : BufTy).Contents (Elt F)),
    ternary main_v127 main_v129 main_v1 main_v130 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v130 main_v131 (broadcastInDim S640000x1 ![0] bcast_S640000_S640000x1_0 : (⟨S640000, .i32⟩ : BufTy).Contents (Elt F) → (⟨S640000x1, .i32⟩ : BufTy).Contents (Elt F)),
    binary main_v122 main_v131 main_v132 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    nullary main_cst_12 (constant S_ .f32 0x00000000#32),
    unary main_cst_12 main_v133 (broadcastInDim S100000x128 ![] bcast_S_S100000x128 : (⟨S_, .f32⟩ : BufTy).Contents (Elt F) → (⟨S100000x128, .f32⟩ : BufTy).Contents (Elt F)),
    unary main_v3 main_v134 (broadcastInDim S640000x1 ![0] bcast_S640000_S640000x1_0 : (⟨S640000, .i32⟩ : BufTy).Contents (Elt F) → (⟨S640000x1, .i32⟩ : BufTy).Contents (Elt F)),
    ternary main_v133 main_v134 main_v132 main_v135 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    unary main_arg3 main_v136 ((extractStridedSlice S1 ![2] · slices_S3_S1_2) : (⟨S3, .f32⟩ : BufTy).Contents (Elt F) → (⟨S1, .f32⟩ : BufTy).Contents (Elt F)),
    reshape main_v136 main_v137 rfl shapeCasts_S1_S_,
    nullary main_cst_13 (constant S_ .f32 0x3F800000#32),
    binary main_cst_13 main_v137 main_v138 (addf : (⟨S_, .f32⟩ : BufTy).Contents (Elt F) → (⟨S_, .f32⟩ : BufTy).Contents (Elt F) → (⟨S_, .f32⟩ : BufTy).Contents (Elt F)),
    unary main_v138 main_v139 (broadcastInDim S100000x128 ![] bcast_S_S100000x128 : (⟨S_, .f32⟩ : BufTy).Contents (Elt F) → (⟨S100000x128, .f32⟩ : BufTy).Contents (Elt F)),
    binary main_v139 main_v122 main_v140 (mulf : (⟨S100000x128, .f32⟩ : BufTy).Contents (Elt F) → (⟨S100000x128, .f32⟩ : BufTy).Contents (Elt F) → (⟨S100000x128, .f32⟩ : BufTy).Contents (Elt F)),
    binary main_v140 main_v135 main_v141 (addf : (⟨S100000x128, .f32⟩ : BufTy).Contents (Elt F) → (⟨S100000x128, .f32⟩ : BufTy).Contents (Elt F) → (⟨S100000x128, .f32⟩ : BufTy).Contents (Elt F)),
    unary main_arg4 main_v142 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v142 main_v143 rfl shapeCasts_S1x128x128_S128x128,
    binary main_v141 main_v143 main_v144 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v145 ((extractStridedSlice S1x128 ![2, 0] · slices_S3x128_S1x128_2_0) : (⟨S3x128, .f32⟩ : BufTy).Contents (Elt F) → (⟨S1x128, .f32⟩ : BufTy).Contents (Elt F)),
    reshape main_v145 main_v146 rfl shapeCasts_S1x128_S128,
    unary main_v146 main_v147 (broadcastInDim S1x128 ![1] bcast_S128_S1x128_1 : (⟨S128, .f32⟩ : BufTy).Contents (Elt F) → (⟨S1x128, .f32⟩ : BufTy).Contents (Elt F)),
    unary main_v147 main_v148 (broadcastInDim S100000x128 ![0, 1] bcast_S1x128_S100000x128_0_1 : (⟨S1x128, .f32⟩ : BufTy).Contents (Elt F) → (⟨S100000x128, .f32⟩ : BufTy).Contents (Elt F)),
    binary main_v144 main_v148 main_v149 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x128, .f32⟩) main_call6_v0) (broadcastInDim S100000x128 ![] bcast_S_S100000x128),
    TRef.binary (TRef.of (T := ⟨S100000x128, .f32⟩) main_v149) (TRef.of (T := ⟨S100000x128, .f32⟩) main_call6_v0) (TRef.of (T := ⟨S100000x128, .f32⟩) main_v150) maximumf,
    unary main_arg8 main_v151 ((extractStridedSlice S1x128 ![2, 0] · slices_S3x128_S1x128_2_0) : (⟨S3x128, .f32⟩ : BufTy).Contents (Elt F) → (⟨S1x128, .f32⟩ : BufTy).Contents (Elt F)),
    reshape main_v151 main_v152 rfl shapeCasts_S1x128_S128,
    unary main_v152 main_v153 (broadcastInDim S1x128 ![1] bcast_S128_S1x128_1 : (⟨S128, .f32⟩ : BufTy).Contents (Elt F) → (⟨S1x128, .f32⟩ : BufTy).Contents (Elt F)),
    unary main_v153 main_v154 (broadcastInDim S100000x128 ![0, 1] bcast_S1x128_S100000x128_0_1 : (⟨S1x128, .f32⟩ : BufTy).Contents (Elt F) → (⟨S100000x128, .f32⟩ : BufTy).Contents (Elt F)),
    binary main_v150 main_v154 main_v155 (subf : (⟨S100000x128, .f32⟩ : BufTy).Contents (Elt F) → (⟨S100000x128, .f32⟩ : BufTy).Contents (Elt F) → (⟨S100000x128, .f32⟩ : BufTy).Contents (Elt F)),
    unary main_arg9 main_v156 ((extractStridedSlice S1x128 ![2, 0] · slices_S3x128_S1x128_2_0) : (⟨S3x128, .f32⟩ : BufTy).Contents (Elt F) → (⟨S1x128, .f32⟩ : BufTy).Contents (Elt F)),
    reshape main_v156 main_v157 rfl shapeCasts_S1x128_S128,
    nullary main_cst_14 (constant S_ .f32 0x3727C5AC#32),
    unary main_cst_14 main_v158 (broadcastInDim S128 ![] bcast_S_S128 : (⟨S_, .f32⟩ : BufTy).Contents (Elt F) → (⟨S128, .f32⟩ : BufTy).Contents (Elt F)),
    binary main_v157 main_v158 main_v159 (addf : (⟨S128, .f32⟩ : BufTy).Contents (Elt F) → (⟨S128, .f32⟩ : BufTy).Contents (Elt F) → (⟨S128, .f32⟩ : BufTy).Contents (Elt F)),
    unary main_v159 main_v160 (Host.rsqrt : (⟨S128, .f32⟩ : BufTy).Contents (Elt F) → (⟨S128, .f32⟩ : BufTy).Contents (Elt F)),
    unary main_v160 main_v161 (broadcastInDim S1x128 ![1] bcast_S128_S1x128_1 : (⟨S128, .f32⟩ : BufTy).Contents (Elt F) → (⟨S1x128, .f32⟩ : BufTy).Contents (Elt F)),
    unary main_v161 main_v162 (broadcastInDim S100000x128 ![0, 1] bcast_S1x128_S100000x128_0_1 : (⟨S1x128, .f32⟩ : BufTy).Contents (Elt F) → (⟨S100000x128, .f32⟩ : BufTy).Contents (Elt F)),
    binary main_v155 main_v162 main_v163 (mulf : (⟨S100000x128, .f32⟩ : BufTy).Contents (Elt F) → (⟨S100000x128, .f32⟩ : BufTy).Contents (Elt F) → (⟨S100000x128, .f32⟩ : BufTy).Contents (Elt F)),
    unary main_arg6 main_v164 ((extractStridedSlice S1x128 ![2, 0] · slices_S3x128_S1x128_2_0) : (⟨S3x128, .f32⟩ : BufTy).Contents (Elt F) → (⟨S1x128, .f32⟩ : BufTy).Contents (Elt F)),
    reshape main_v164 main_v165 rfl shapeCasts_S1x128_S128,
    unary main_v165 main_v166 (broadcastInDim S1x128 ![1] bcast_S128_S1x128_1 : (⟨S128, .f32⟩ : BufTy).Contents (Elt F) → (⟨S1x128, .f32⟩ : BufTy).Contents (Elt F)),
    unary main_v166 main_v167 (broadcastInDim S100000x128 ![0, 1] bcast_S1x128_S100000x128_0_1 : (⟨S1x128, .f32⟩ : BufTy).Contents (Elt F) → (⟨S100000x128, .f32⟩ : BufTy).Contents (Elt F)),
    binary main_v163 main_v167 main_v168 (mulf : (⟨S100000x128, .f32⟩ : BufTy).Contents (Elt F) → (⟨S100000x128, .f32⟩ : BufTy).Contents (Elt F) → (⟨S100000x128, .f32⟩ : BufTy).Contents (Elt F)),
    unary main_arg7 main_v169 ((extractStridedSlice S1x128 ![2, 0] · slices_S3x128_S1x128_2_0) : (⟨S3x128, .f32⟩ : BufTy).Contents (Elt F) → (⟨S1x128, .f32⟩ : BufTy).Contents (Elt F)),
    reshape main_v169 main_v170 rfl shapeCasts_S1x128_S128,
    unary main_v170 main_v171 (broadcastInDim S1x128 ![1] bcast_S128_S1x128_1 : (⟨S128, .f32⟩ : BufTy).Contents (Elt F) → (⟨S1x128, .f32⟩ : BufTy).Contents (Elt F)),
    unary main_v171 main_v172 (broadcastInDim S100000x128 ![0, 1] bcast_S1x128_S100000x128_0_1 : (⟨S1x128, .f32⟩ : BufTy).Contents (Elt F) → (⟨S100000x128, .f32⟩ : BufTy).Contents (Elt F)),
    binary main_v168 main_v172 main_v173 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x128, .f32⟩) main_call7_v0) (broadcastInDim S100000x128 ![] bcast_S_S100000x128),
    TRef.binary (TRef.of (T := ⟨S100000x128, .f32⟩) main_v173) (TRef.of (T := ⟨S100000x128, .f32⟩) main_call7_v0) (TRef.of (T := ⟨S100000x128, .f32⟩) main_v174) maximumf,
    unary main_arg10 main_v175 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v175 main_v176 rfl shapeCasts_S1x128x128_S128x128,
    binary main_v174 main_v176 main_v177 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v178 ((extractStridedSlice S1x128 ![2, 0] · slices_S3x128_S1x128_2_0) : (⟨S3x128, .f32⟩ : BufTy).Contents (Elt F) → (⟨S1x128, .f32⟩ : BufTy).Contents (Elt F)),
    reshape main_v178 main_v179 rfl shapeCasts_S1x128_S128,
    unary main_v179 main_v180 (broadcastInDim S1x128 ![1] bcast_S128_S1x128_1 : (⟨S128, .f32⟩ : BufTy).Contents (Elt F) → (⟨S1x128, .f32⟩ : BufTy).Contents (Elt F)),
    unary main_v180 main_v181 (broadcastInDim S100000x128 ![0, 1] bcast_S1x128_S100000x128_0_1 : (⟨S1x128, .f32⟩ : BufTy).Contents (Elt F) → (⟨S100000x128, .f32⟩ : BufTy).Contents (Elt F)),
    binary main_v177 main_v181 main_v182 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x128, .f32⟩) main_call8_v0) (broadcastInDim S100000x128 ![] bcast_S_S100000x128),
    TRef.binary (TRef.of (T := ⟨S100000x128, .f32⟩) main_v182) (TRef.of (T := ⟨S100000x128, .f32⟩) main_call8_v0) (TRef.of (T := ⟨S100000x128, .f32⟩) main_v183) maximumf,
    nullary main_cst_15 (constant S_ .f32 0x00000000#32),
    unary main_cst_15 main_v184 (broadcastInDim S512x128 ![] bcast_S_S512x128 : (⟨S_, .f32⟩ : BufTy).Contents (Elt F) → (⟨S512x128, .f32⟩ : BufTy).Contents (Elt F)),
    unary main_arg2 main_v185 (broadcastInDim S100000x1 ![0] bcast_S100000_S100000x1_0 : (⟨S100000, .i32⟩ : BufTy).Contents (Elt F) → (⟨S100000x1, .i32⟩ : BufTy).Contents (Elt F)),
    ternary main_v184 main_v185 main_v183 main_v186 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)) ]

abbrev oL2_W : List (Ref sig .tc) := [main_c_10, main_v126, main_v127, main_c_11, main_v128, main_v129, main_v130, main_v131, main_v132, main_cst_12, main_v133, main_v134, main_v135, main_v136, main_v137, main_cst_13, main_v138, main_v139, main_v140, main_v141, main_v142, main_v143, main_v144, main_v145, main_v146, main_v147, main_v148, main_v149, main_call6_cst, main_call6_v0, main_v150, main_v151, main_v152, main_v153, main_v154, main_v155, main_v156, main_v157, main_cst_14, main_v158, main_v159, main_v160, main_v161, main_v162, main_v163, main_v164, main_v165, main_v166, main_v167, main_v168, main_v169, main_v170, main_v171, main_v172, main_v173, main_call7_cst, main_call7_v0, main_v174, main_v175, main_v176, main_v177, main_v178, main_v179, main_v180, main_v181, main_v182, main_call8_cst, main_call8_v0, main_v183, main_cst_15, main_v184, main_v185, main_v186]

theorem oL2_writes : (oL2 : List (HloOp τ sig (Elt F))).Forall fun op => op.writes ⊆ (oL2_W.map (Proc.devRef (τ := τ) .tc)).toFinset := by
  simp only [List.Forall]
  repeat' apply And.intro
  all_goals writes_mem

theorem after_oL2_of (V : Valuation τ sig (Elt F)) (r : Ref sig .tc) (h : r ∉ oL2_W) :
    after oL2 V (Proc.devRef .tc r) = V (Proc.devRef .tc r) :=
  after_of_writes_sub oL2 V oL2_writes h

abbrev oT : List (HloOp τ sig (Elt F)) :=
  [ binary main_v186 main_arg12 main_v187 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_arg13 main_v188 (broadcastInDim S1x128 ![1] bcast_S128_S1x128_1 : (⟨S128, .f32⟩ : BufTy).Contents (Elt F) → (⟨S1x128, .f32⟩ : BufTy).Contents (Elt F)),
    unary main_v188 main_v189 (broadcastInDim S512x128 ![0, 1] bcast_S1x128_S512x128_0_1 : (⟨S1x128, .f32⟩ : BufTy).Contents (Elt F) → (⟨S512x128, .f32⟩ : BufTy).Contents (Elt F)),
    binary main_v187 main_v189 main_v190 (addf : (⟨S512x128, .f32⟩ : BufTy).Contents (Elt F) → (⟨S512x128, .f32⟩ : BufTy).Contents (Elt F) → (⟨S512x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S512x128, .f32⟩) main_call9_v0) (broadcastInDim S512x128 ![] bcast_S_S512x128),
    TRef.binary (TRef.of (T := ⟨S512x128, .f32⟩) main_v190) (TRef.of (T := ⟨S512x128, .f32⟩) main_call9_v0) (TRef.of (T := ⟨S512x128, .f32⟩) main_v191) maximumf,
    binary main_v191 main_arg14 main_v192 ((fun l r => Host.dotGeneral dot_S512x128_S128x16_S512x16_1_0_0_1_n_n none l r) : (⟨S512x128, .f32⟩ : BufTy).Contents (Elt F) → (⟨S128x16, .f32⟩ : BufTy).Contents (Elt F) → (⟨S512x16, .f32⟩ : BufTy).Contents (Elt F)),
    unary main_arg15 main_v193 (broadcastInDim S1x16 ![1] bcast_S16_S1x16_1 : (⟨S16, .f32⟩ : BufTy).Contents (Elt F) → (⟨S1x16, .f32⟩ : BufTy).Contents (Elt F)),
    unary main_v193 main_v194 (broadcastInDim S512x16 ![0, 1] bcast_S1x16_S512x16_0_1 : (⟨S1x16, .f32⟩ : BufTy).Contents (Elt F) → (⟨S512x16, .f32⟩ : BufTy).Contents (Elt F)),
    binary main_v192 main_v194 main_v195 (addf : (⟨S512x16, .f32⟩ : BufTy).Contents (Elt F) → (⟨S512x16, .f32⟩ : BufTy).Contents (Elt F) → (⟨S512x16, .f32⟩ : BufTy).Contents (Elt F)) ]

abbrev oT_W : List (Ref sig .tc) := [main_v187, main_v188, main_v189, main_v190, main_call9_cst, main_call9_v0, main_v191, main_v192, main_v193, main_v194, main_v195]

theorem oT_writes : (oT : List (HloOp τ sig (Elt F))).Forall fun op => op.writes ⊆ (oT_W.map (Proc.devRef (τ := τ) .tc)).toFinset := by
  simp only [List.Forall]
  repeat' apply And.intro
  all_goals writes_mem

theorem after_oT_of (V : Valuation τ sig (Elt F)) (r : Ref sig .tc) (h : r ∉ oT_W) :
    after oT V (Proc.devRef .tc r) = V (Proc.devRef .tc r) :=
  after_of_writes_sub oT V oT_writes h

end Cert.ReferenceIdeal.Hand

end
-- ==== Proof.RefOps.lean ====
import proofs.«416174_j54228257079641_1_alg».proof.Proof.RefCuts

noncomputable section

namespace Cert.ReferenceIdeal.ValueP

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

abbrev ops : List (HloOp τ sig (Elt F)) :=
  oP ++ (oL0 ++ (oL1 ++ (oL2 ++ oT)))

-- each part of the program is a run of consecutive operations of the one list
set_option maxRecDepth 8192 in
set_option maxHeartbeats 4000000 in
theorem main_part0_eq (c : Dev nD) : main_part0 (F := F) c = seq (ops.take 64) := rfl
set_option maxRecDepth 8192 in
set_option maxHeartbeats 4000000 in
theorem main_part1_eq (c : Dev nD) : main_part1 (F := F) c = seq ((ops.drop 64).take 64) := rfl
set_option maxRecDepth 8192 in
set_option maxHeartbeats 4000000 in
theorem main_part2_eq (c : Dev nD) : main_part2 (F := F) c = seq (((ops.drop 64).drop 64).take 66) := rfl
set_option maxRecDepth 8192 in
set_option maxHeartbeats 4000000 in
theorem main_part3_eq (c : Dev nD) : main_part3 (F := F) c = seq (((ops.drop 64).drop 64).drop 66) := rfl

theorem main_eq (c : Dev nD) : main (F := F) c = seq ops := by
  have e : (ops : List (HloOp τ sig (Elt F)))
      = ops.take 64 ++ ((ops.drop 64).take 64 ++ (((ops.drop 64).drop 64).take 66 ++ ((ops.drop 64).drop 64).drop 66)) := by
    simp only [List.take_append_drop]
  rw [e, seq_append, seq_append, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

-- a property of every operation of the five pieces is one of every operation of the line
private theorem pieces {p : HloOp τ sig (Elt F) → Prop} (hP : oP.Forall p) (h0 : oL0.Forall p) (h1 : oL1.Forall p)
    (h2 : oL2.Forall p) (hT : oT.Forall p) : (ops : List (HloOp τ sig (Elt F))).Forall p :=
  List.forall_append.2 ⟨hP, List.forall_append.2 ⟨h0, List.forall_append.2 ⟨h1, List.forall_append.2 ⟨h2, hT⟩⟩⟩⟩

theorem ops_sub : (ops : List (HloOp τ sig (Elt F))).Forall fun op => op.bufs ⊆ tcRefs τ sig := by
  refine pieces ?_ ?_ ?_ ?_ ?_ <;>
    simp only [List.Forall, nullary_bufs_sub, unary_bufs_sub, binary_bufs_sub, ternary_bufs_sub, reshape_bufs_sub, and_self]

theorem ops_fresh : ∀ op ∈ (ops : List (HloOp τ sig (Elt F))), op.fresh = ∅ := by
  refine List.forall_iff_forall_mem.1 (pieces ?_ ?_ ?_ ?_ ?_) <;> (simp only [List.Forall]; repeat' constructor)

theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  run_seq scopedRefs_eq scopedSems_eq defs main (fun _ => ops) main_eq (fun _ => ops_sub) m ρ (fun _ => ops_fresh)

end Cert.ReferenceIdeal.ValueP

end
-- ==== Proof.Spec.lean ====
import Idealize.ShloMosaic.PureOps.Ideal
import Idealize.ShloMosaic.Lib.ValueIdx
import Mathlib.Data.EReal.Operations
import Mathlib.Algebra.BigOperators.Fin
import Mathlib.Logic.Equiv.Fin.Basic

noncomputable section

open scoped BigOperators

namespace Cert.Spec
open Idealize.ShloMosaic

def relu (x : EReal) : EReal := max x 0

def bnK (g r b m y : EReal) : EReal := y * (g * r) + (b - m * (g * r))

def bnR (g r b m y : EReal) : EReal := ((y - m) * r) * g + b

theorem bn_law (g r b m : ℝ) (hr : 0 < r) (y : EReal) :
    bnK (g : EReal) (r : EReal) (b : EReal) (m : EReal) y
      = bnR (g : EReal) (r : EReal) (b : EReal) (m : EReal) y := by
  unfold bnK bnR

  have hshift : (b : EReal) - (m : EReal) * ((g : EReal) * (r : EReal)) = ((b - m * (g * r) : ℝ) : EReal) := by
    rw [← EReal.coe_mul, ← EReal.coe_mul, ← EReal.coe_sub]
  have hscale : (g : EReal) * (r : EReal) = ((g * r : ℝ) : EReal) := (EReal.coe_mul g r).symm
  rw [hshift, hscale]
  induction y using EReal.rec with
  | bot =>
    rw [EReal.bot_sub, EReal.bot_mul_coe_of_pos hr]
    rcases lt_trichotomy g 0 with hg | hg | hg
    · have hgr : g * r < 0 := mul_neg_of_neg_of_pos hg hr
      rw [EReal.bot_mul_coe_of_neg hgr, EReal.bot_mul_coe_of_neg hg, EReal.top_add_coe, EReal.top_add_coe]
    · subst hg
      simp
    · have hgr : 0 < g * r := mul_pos hg hr
      rw [EReal.bot_mul_coe_of_pos hgr, EReal.bot_mul_coe_of_pos hg, EReal.bot_add, EReal.bot_add]
  | coe y =>
    rw [← EReal.coe_mul, ← EReal.coe_add, ← EReal.coe_sub, ← EReal.coe_mul, ← EReal.coe_mul, ← EReal.coe_add]
    congr 1
    ring
  | top =>
    rw [EReal.top_sub_coe, EReal.top_mul_coe_of_pos hr]
    rcases lt_trichotomy g 0 with hg | hg | hg
    · have hgr : g * r < 0 := mul_neg_of_neg_of_pos hg hr
      rw [EReal.top_mul_coe_of_neg hgr, EReal.top_mul_coe_of_neg hg, EReal.bot_add, EReal.bot_add]
    · subst hg
      simp
    · have hgr : 0 < g * r := mul_pos hg hr
      rw [EReal.top_mul_coe_of_pos hgr, EReal.top_mul_coe_of_pos hg, EReal.top_add_coe, EReal.top_add_coe]

theorem rsqrt_pos (s e : ℝ) (hs : 0 ≤ s) (he : 0 < e) :
    ∃ r : ℝ, 0 < r ∧ Ideal.rsqrt ((s : EReal) + (e : EReal)) = (r : EReal) := by
  have hpos : 0 < s + e := add_pos_of_nonneg_of_pos hs he
  refine ⟨(Real.sqrt (s + e))⁻¹, inv_pos.mpr (Real.sqrt_pos.mpr hpos), ?_⟩
  rw [← EReal.coe_add, Ideal.rsqrt_coe, if_neg (not_lt.mpr hpos.le), if_neg hpos.ne']

def mlp {N : Nat} (bn : Fin 128 → EReal → EReal) (Z : Fin N → Fin 128 → EReal) (W1 : Fin 128 → Fin 128 → EReal) (b1 : Fin 128 → EReal)
    (W2 : Fin 128 → Fin 128 → EReal) (b2 : Fin 128 → EReal) (n : Fin N) (j : Fin 128) : EReal :=
  relu ((∑ k : Fin 128, relu (bn k (relu ((∑ i : Fin 128, Z n i * W1 i k) + b1 k))) * W2 k j) + b2 j)

theorem mlp_congr_bn {N : Nat} {bn bn' : Fin 128 → EReal → EReal} (h : ∀ k y, bn k y = bn' k y) (Z W1 b1 W2 b2) (n : Fin N) (j : Fin 128) :
    mlp bn Z W1 b1 W2 b2 n j = mlp bn' Z W1 b1 W2 b2 n j := by
  have hb : bn = bn' := funext fun k => funext fun y => h k y
  rw [hb]

def pool (h : Fin 100000 → Fin 128 → EReal) (lab : Fin 100000 → BitVec 32) (g : Fin 512) (j : Fin 128) : EReal :=
  ∑ e ∈ Finset.univ.filter (fun e : Fin 100000 => (lab e).toInt = (g.val : Int)), h e j

private theorem toInt_eq_small (b : BitVec 32) (g : Nat) (hg : g < 512) :
    b.toInt = (g : Int) ↔ b = BitVec.ofNat 32 g := by
  constructor
  · intro hb
    apply BitVec.eq_of_toNat_eq
    rw [BitVec.toNat_ofNat]
    have hlt := b.isLt
    rw [BitVec.toInt_eq_toNat_cond] at hb
    split at hb <;> omega
  · intro hb
    subst hb
    rw [BitVec.toInt_eq_toNat_cond, BitVec.toNat_ofNat]
    have : g % 2 ^ 32 = g := Nat.mod_eq_of_lt (by omega)
    rw [this]
    split <;> omega

theorem pool_eq_weighted (h lab) (g : Fin 512) (j : Fin 128) :
    pool h lab g j = ∑ e : Fin 100000, (if lab e = BitVec.ofNat 32 g.val then (1 : EReal) else 0) * h e j := by
  unfold pool
  rw [Finset.sum_filter]
  refine Finset.sum_congr rfl fun e _ => ?_
  by_cases hc : lab e = BitVec.ofNat 32 g.val
  · rw [if_pos ((toInt_eq_small (lab e) g.val g.isLt).mpr hc), if_pos hc, one_mul]
  · rw [if_neg (fun hh => hc ((toInt_eq_small (lab e) g.val g.isLt).mp hh)), if_neg hc, zero_mul]

theorem sum_tiles {M : Type*} [AddCommMonoid M] (f : Fin 100000 → M) :
    ∑ t : Fin 100, ∑ r : Fin 1000, f ⟨t.val * 1000 + r.val, by omega⟩ = ∑ n : Fin 100000, f n := by

  let φ : Fin 100 × Fin 1000 ≃ Fin 100000 :=
    { toFun := fun p => ⟨p.1.val * 1000 + p.2.val, by omega⟩
      invFun := fun n => (⟨n.val / 1000, by omega⟩, ⟨n.val % 1000, by omega⟩)
      left_inv := by
        rintro ⟨t, r⟩
        apply Prod.ext <;> apply Fin.ext <;> simp <;> omega
      right_inv := by
        intro n
        apply Fin.ext
        simp
        omega }
  rw [← Finset.sum_product', Finset.univ_product_univ]
  exact Equiv.sum_comp φ f

end Cert.Spec
-- ==== Proof.LibRowOps.lean ====
import Idealize.ShloMosaic.PureOps.Ideal
import Idealize.ShloMosaic.Lib.ValueIdx

noncomputable section

namespace Cert.Lib.RowOps

open Idealize.ShloMosaic Idealize.ShloMosaic.ValueIdx

abbrev scat2 (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

-- an update lands on i exactly when, on every axis, start plus window coordinate is i's coordinate
private theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · rintro rfl a
      have := (h a).1
      simp only [Int.toNat_of_nonneg this]
    · intro hh
      funext a
      refine Fin.ext ?_
      simp only [hh a, Int.toNat_natCast]
  · constructor
    · intro hh; cases hh
    · intro hh
      exfalso
      apply h
      intro a
      rw [hh a]
      exact ⟨Int.natCast_nonneg _, by exact_mod_cast (i a).isLt⟩

section Scat2
variable {N D E w : Nat} (wf : ScatterDims.WF ⟨2, ![N, D]⟩ ⟨2, ![E, 1]⟩ ⟨2, ![E, D]⟩ [1] [0] [0] 1)

private theorem scat2_start0 (j : (⟨2, ![E, D]⟩ : Shape).Idx) (idx : IVec ⟨2, ![E, 1]⟩ w) :
    (scat2 N D E wf).start j idx 0 = (idx (ix2 (j 0) (0 : Fin 1))).toInt := by
  unfold ScatterDims.start
  rw [dif_pos (show (0 : Fin 2) ∈ (scat2 N D E wf).scatterDimsToOperandDims from List.mem_singleton.mpr rfl)]
  have hsi : (scat2 N D E wf).siIdx j ⟨List.idxOf (0 : Fin 2) (scat2 N D E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

private theorem scat2_start1 (j : (⟨2, ![E, D]⟩ : Shape).Idx) (idx : IVec ⟨2, ![E, 1]⟩ w) :
    (scat2 N D E wf).start j idx 1 = 0 := by
  unfold ScatterDims.start
  rw [dif_neg (show ¬ (1 : Fin 2) ∈ (scat2 N D E wf).scatterDimsToOperandDims by simp)]

private theorem scat2_window0 (j : (⟨2, ![E, D]⟩ : Shape).Idx) :
    (scat2 N D E wf).window j 0 = 0 := by
  unfold ScatterDims.window
  rw [dif_neg (show ¬ (0 : Fin 2) ∈ (scat2 N D E wf).sKept by simp [ScatterDims.sKept, Shape.kept])]

private theorem scat2_window1 (j : (⟨2, ![E, D]⟩ : Shape).Idx) :
    (scat2 N D E wf).window j 1 = (j 1).val := by
  unfold ScatterDims.window
  rw [dif_pos (show (1 : Fin 2) ∈ (scat2 N D E wf).sKept by simp [ScatterDims.sKept, Shape.kept])]
  rfl

-- rows are scattered whole: update (e, c') lands on (n, c) iff its signed index is n and c' = c
private theorem scat2_lands (e : Fin E) (c' : Fin D) (n : Fin N) (c : Fin D) (idx : IVec ⟨2, ![E, 1]⟩ w) :
    (scat2 N D E wf).resultIdx? (ix2 e c') idx = some (ix2 n c)
      ↔ (idx (ix2 e (0 : Fin 1))).toInt = (n.val : Int) ∧ c' = c := by
  rw [resultIdx?_eq_some_iff]
  constructor
  · intro hh
    have h0 := hh 0
    have h1 := hh 1
    rw [scat2_start0, scat2_window0] at h0
    rw [scat2_start1, scat2_window1] at h1
    have h0' : (idx (ix2 e (0 : Fin 1))).toInt + ((0 : Nat) : Int) = (n.val : Int) := h0
    have h1' : (0 : Int) + ((c'.val : Nat) : Int) = (c.val : Int) := h1
    refine ⟨by simpa using h0', Fin.ext ?_⟩
    omega
  · rintro ⟨e0, rfl⟩ a
    match a with
    | ⟨0, _⟩ =>
      show (scat2 N D E wf).start (ix2 e c') idx 0 + ((scat2 N D E wf).window (ix2 e c') 0 : Int) = (n.val : Int)
      rw [scat2_start0, scat2_window0]
      show (idx (ix2 e (0 : Fin 1))).toInt + ((0 : Nat) : Int) = (n.val : Int)
      simpa using e0
    | ⟨1, _⟩ =>
      show (scat2 N D E wf).start (ix2 e c') idx 1 + ((scat2 N D E wf).window (ix2 e c') 1 : Int) = (c'.val : Int)
      rw [scat2_start1, scat2_window1]
      show (0 : Int) + ((c'.val : Nat) : Int) = (c'.val : Int)
      simp

end Scat2

-- entry (n, c) gains column c of exactly the update rows whose signed index is n
theorem scat2_apply {N D E w : Nat} (wf) (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd (scat2 N D E wf) x idx upd (ix2 n c)
      = x (ix2 n c) + ∑ e ∈ Finset.univ.filter (fun e : Fin E => (idx (ix2 e (0 : Fin 1))).toInt = (n.val : Int)), upd (ix2 e c) := by
  unfold Ideal.hostScatterAdd
  congr 1
  rw [Finset.sum_filter, Finset.sum_filter, sum_idx2]
  refine Finset.sum_congr rfl fun e _ => ?_
  simp only [scat2_lands]
  by_cases hq : (idx (ix2 e (0 : Fin 1))).toInt = (n.val : Int)
  · simp only [hq, true_and, if_true]
    rw [Finset.sum_ite_eq']
    simp
  · simp only [hq, false_and, if_false]
    simp

end Cert.Lib.RowOps

end
-- ==== Proof.LayoutIdx.lean ====
import Idealize.ShloMosaic.PureOps.Ideal
import Idealize.ShloMosaic.Lib.ValueIdx
import Idealize.ShloMosaic.Lib.ValueLayout
import Idealize.ShloMosaic.Lib.Pipeline.Value

namespace Cert.LayoutIdx

open Idealize.ShloMosaic Idealize.ShloMosaic.ValueIdx

variable {α : Type}

theorem matSliceOf_apply {m a b : ℕ} (o : ℕ) (l : Fin m) (hl : l.val = o)
    (A : (⟨3, ![m, a, b]⟩ : Shape).Idx → α)
    (hs : (⟨3, ![m, a, b]⟩ : Shape).Slices ![o, 0, 0] ⟨3, ![1, a, b]⟩)
    (hc : (⟨3, ![1, a, b]⟩ : Shape).ShapeCasts ⟨2, ![a, b]⟩) (i : Fin a) (k : Fin b) :
    shapeCast ⟨2, ![a, b]⟩ (extractStridedSlice ⟨3, ![1, a, b]⟩ ![o, 0, 0] A hs) hc (ix2 i k) = A (ix3 l i k) := by
  refine (shapeCast_1ab_ab_apply _ hc i k).trans ?_
  refine extractStridedSlice_apply _ _ _ _ _ (fun ax => ?_)
  match ax with
  | ⟨0, _⟩ => exact hl.trans (Nat.add_zero o).symm
  | ⟨1, _⟩ => exact (Nat.zero_add _).symm
  | ⟨2, _⟩ => exact (Nat.zero_add _).symm

theorem rowSliceOf_apply {m b : ℕ} (o : ℕ) (l : Fin m) (hl : l.val = o)
    (B : (⟨2, ![m, b]⟩ : Shape).Idx → α)
    (hs : (⟨2, ![m, b]⟩ : Shape).Slices ![o, 0] ⟨2, ![1, b]⟩)
    (hc : (⟨2, ![1, b]⟩ : Shape).ShapeCasts ⟨1, ![b]⟩) (k : Fin b) :
    shapeCast ⟨1, ![b]⟩ (extractStridedSlice ⟨2, ![1, b]⟩ ![o, 0] B hs) hc (ix1 k) = B (ix2 l k) := by
  refine (shapeCast_1a_a_apply _ hc k).trans ?_
  exact slice2_axis0_apply o B hs (0 : Fin 1) k l (hl.trans (Nat.add_zero o).symm)

theorem matSlice_apply {a b : ℕ} (o : ℕ) (l : Fin 3) (hl : l.val = o)
    (A : (⟨3, ![3, a, b]⟩ : Shape).Idx → α)
    (hs : (⟨3, ![3, a, b]⟩ : Shape).Slices ![o, 0, 0] ⟨3, ![1, a, b]⟩)
    (hc : (⟨3, ![1, a, b]⟩ : Shape).ShapeCasts ⟨2, ![a, b]⟩) (i : Fin a) (k : Fin b) :
    shapeCast ⟨2, ![a, b]⟩ (extractStridedSlice ⟨3, ![1, a, b]⟩ ![o, 0, 0] A hs) hc (ix2 i k) = A (ix3 l i k) :=
  matSliceOf_apply o l hl A hs hc i k

theorem rowSlice_apply {b : ℕ} (o : ℕ) (l : Fin 3) (hl : l.val = o)
    (B : (⟨2, ![3, b]⟩ : Shape).Idx → α)
    (hs : (⟨2, ![3, b]⟩ : Shape).Slices ![o, 0] ⟨2, ![1, b]⟩)
    (hc : (⟨2, ![1, b]⟩ : Shape).ShapeCasts ⟨1, ![b]⟩) (k : Fin b) :
    shapeCast ⟨1, ![b]⟩ (extractStridedSlice ⟨2, ![1, b]⟩ ![o, 0] B hs) hc (ix1 k) = B (ix2 l k) :=
  rowSliceOf_apply o l hl B hs hc k

end Cert.LayoutIdx
-- ==== Proof.RefLayer.lean ====
import proofs.«416174_j54228257079641_1_alg».proof.Proof.Gen.ReferenceIdeal
import proofs.«416174_j54228257079641_1_alg».proof.Proof.Spec
import proofs.«416174_j54228257079641_1_alg».proof.Proof.LibRowOps
import proofs.«416174_j54228257079641_1_alg».proof.Proof.LayoutIdx
import Idealize.ShloMosaic.Lib.ValueIdx
import Idealize.ShloMosaic.Lib.IdealHost
import Idealize.ShloMosaic.Lib.ValueLayout
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.ValueIdx

section Defs
variable {F : FTy → Type} [FloatOps F]

def rAgg (h : FVec F S100000x128 .f32) (ei : IVec S2x640000 32) : FVec F S100000x128 .f32 :=
  Host.scatterAdd scatter_S100000x128_S640000x1_S640000x128_1_0_0_1
    (broadcastInDim S100000x128 ![] bcast_S_S100000x128 (constant S_ .f32 0x00000000#32))
    (broadcastInDim S640000x1 ![0] bcast_S640000_S640000x1_0
      (shapeCast _ (extractStridedSlice S1x640000 ![1, 0] ei slices_S2x640000_S1x640000_1_0) shapeCasts_S1x640000_S640000))
    (Host.gather gather_S100000x128_S640000x1_S640000x128_1_0_n_n_0_1_1128 h
      (broadcastInDim S640000x1 ![0] bcast_S640000_S640000x1_0
        (select
          (cmpi .slt (shapeCast _ (extractStridedSlice S1x640000 ![0, 0] ei slices_S2x640000_S1x640000_0_0) shapeCasts_S1x640000_S640000)
            (broadcastInDim S640000 ![] bcast_S_S640000 (constantI S_ 32 0#32)))
          (addi (shapeCast _ (extractStridedSlice S1x640000 ![0, 0] ei slices_S2x640000_S1x640000_0_0) shapeCasts_S1x640000_S640000)
            (broadcastInDim S640000 ![] bcast_S_S640000 (constantI S_ 32 100000#32)))
          (shapeCast _ (extractStridedSlice S1x640000 ![0, 0] ei slices_S2x640000_S1x640000_0_0) shapeCasts_S1x640000_S640000))))

def rZ (e : FVec F S_ .f32) (h : FVec F S100000x128 .f32) (ei : IVec S2x640000 32) : FVec F S100000x128 .f32 :=
  addf (mulf (broadcastInDim S100000x128 ![] bcast_S_S100000x128 (addf (constant S_ .f32 0x3F800000#32) e)) h) (rAgg h ei)

def rLayer (e : FVec F S_ .f32) (W1 : FVec F S128x128 .f32) (b1 mean var gamma beta : FVec F S128 .f32) (W2 : FVec F S128x128 .f32)
    (b2 : FVec F S128 .f32) (h : FVec F S100000x128 .f32) (ei : IVec S2x640000 32) : FVec F S100000x128 .f32 :=
  maximumf
    (addf
      (Host.dotGeneral dot_S100000x128_S128x128_S100000x128_1_0_0_1_n_n none
        (maximumf
          (addf
            (mulf
              (mulf
                (subf
                  (maximumf
                    (addf
                      (Host.dotGeneral dot_S100000x128_S128x128_S100000x128_1_0_0_1_n_n none (rZ e h ei) W1)
                      (broadcastInDim S100000x128 ![0, 1] bcast_S1x128_S100000x128_0_1 (broadcastInDim S1x128 ![1] bcast_S128_S1x128_1 b1)))
                    (broadcastInDim S100000x128 ![] bcast_S_S100000x128 (constant S_ .f32 0x00000000#32)))
                  (broadcastInDim S100000x128 ![0, 1] bcast_S1x128_S100000x128_0_1 (broadcastInDim S1x128 ![1] bcast_S128_S1x128_1 mean)))
                (broadcastInDim S100000x128 ![0, 1] bcast_S1x128_S100000x128_0_1 (broadcastInDim S1x128 ![1] bcast_S128_S1x128_1
                  (Host.rsqrt (addf var (broadcastInDim S128 ![] bcast_S_S128 (constant S_ .f32 0x3727C5AC#32)))))))
              (broadcastInDim S100000x128 ![0, 1] bcast_S1x128_S100000x128_0_1 (broadcastInDim S1x128 ![1] bcast_S128_S1x128_1 gamma)))
            (broadcastInDim S100000x128 ![0, 1] bcast_S1x128_S100000x128_0_1 (broadcastInDim S1x128 ![1] bcast_S128_S1x128_1 beta)))
          (broadcastInDim S100000x128 ![] bcast_S_S100000x128 (constant S_ .f32 0x00000000#32)))
        W2)
      (broadcastInDim S100000x128 ![0, 1] bcast_S1x128_S100000x128_0_1 (broadcastInDim S1x128 ![1] bcast_S128_S1x128_1 b2)))
    (broadcastInDim S100000x128 ![] bcast_S_S100000x128 (constant S_ .f32 0x00000000#32))

-- layer o of the network: rLayer on unit o of each stacked parameter array
def rLayerAt (o : Nat) (s1 : S3.Slices ![o] S1) (s2 : S3x128.Slices ![o, 0] S1x128) (s3 : S3x128x128.Slices ![o, 0, 0] S1x128x128)
    (a3 : FVec F S3 .f32) (a4 a10 : FVec F S3x128x128 .f32) (a5 a6 a7 a8 a9 a11 : FVec F S3x128 .f32)
    (h : FVec F S100000x128 .f32) (ei : IVec S2x640000 32) : FVec F S100000x128 .f32 :=
  rLayer (shapeCast S_ (extractStridedSlice S1 ![o] a3 s1) shapeCasts_S1_S_)
    (shapeCast S128x128 (extractStridedSlice S1x128x128 ![o, 0, 0] a4 s3) shapeCasts_S1x128x128_S128x128)
    (shapeCast S128 (extractStridedSlice S1x128 ![o, 0] a5 s2) shapeCasts_S1x128_S128)
    (shapeCast S128 (extractStridedSlice S1x128 ![o, 0] a8 s2) shapeCasts_S1x128_S128)
    (shapeCast S128 (extractStridedSlice S1x128 ![o, 0] a9 s2) shapeCasts_S1x128_S128)
    (shapeCast S128 (extractStridedSlice S1x128 ![o, 0] a6 s2) shapeCasts_S1x128_S128)
    (shapeCast S128 (extractStridedSlice S1x128 ![o, 0] a7 s2) shapeCasts_S1x128_S128)
    (shapeCast S128x128 (extractStridedSlice S1x128x128 ![o, 0, 0] a10 s3) shapeCasts_S1x128x128_S128x128)
    (shapeCast S128 (extractStridedSlice S1x128 ![o, 0] a11 s2) shapeCasts_S1x128_S128) h ei

def rPool (h : FVec F S100000x128 .f32) (lab : IVec S100000 32) : FVec F S512x128 .f32 :=
  Host.scatterAdd scatter_S512x128_S100000x1_S100000x128_1_0_0_1
    (broadcastInDim S512x128 ![] bcast_S_S512x128 (constant S_ .f32 0x00000000#32))
    (broadcastInDim S100000x1 ![0] bcast_S100000_S100000x1_0 lab)
    h

def rTail (p : FVec F S512x128 .f32) (l1W : FVec F S128x128 .f32) (l1b : FVec F S128 .f32) (l2W : FVec F S128x16 .f32)
    (l2b : FVec F S16 .f32) : FVec F S512x16 .f32 :=
  addf
    (Host.dotGeneral dot_S512x128_S128x16_S512x16_1_0_0_1_n_n none
      (maximumf
        (addf (Host.dotGeneral dot_S512x128_S128x128_S512x128_1_0_0_1_n_n none p l1W)
          (broadcastInDim S512x128 ![0, 1] bcast_S1x128_S512x128_0_1 (broadcastInDim S1x128 ![1] bcast_S128_S1x128_1 l1b)))
        (broadcastInDim S512x128 ![] bcast_S_S512x128 (constant S_ .f32 0x00000000#32)))
      l2W)
    (broadcastInDim S512x16 ![0, 1] bcast_S1x16_S512x16_0_1 (broadcastInDim S1x16 ![1] bcast_S16_S1x16_1 l2b))

end Defs

theorem zeros_apply {t : Shape} (hb : S_.BroadcastsInDim t (![] : Fin 0 → Fin t.rank)) (i : t.Idx) :
    broadcastInDim t ![] hb (constant (F := Ideal) S_ .f32 0x00000000#32) i = 0 := by
  rw [broadcastInDim_scalar_apply, constant_apply, Ideal.ofBits_zero_f32]

theorem rowBias_apply (b : FVec Ideal S128 .f32) (n : Fin 100000) (j : Fin 128) :
    broadcastInDim S100000x128 ![0, 1] bcast_S1x128_S100000x128_0_1 (broadcastInDim S1x128 ![1] bcast_S128_S1x128_1 b) (ix2 n j)
      = b (ix1 j) := by
  refine (broadcastInDim_apply _ bcast_S1x128_S100000x128_0_1 _ (ix2 n j) (ix2 (0 : Fin 1) j) (fun a => match a with
    | ⟨0, _⟩ => by show 0 = if (1 : Nat) = 1 then 0 else n.val; rw [if_pos rfl]
    | ⟨1, _⟩ => by show j.val = if (128 : Nat) = 1 then 0 else j.val; rw [if_neg (by decide)])).trans ?_
  exact broadcastInDim_apply _ bcast_S128_S1x128_1 b (ix2 (0 : Fin 1) j) (ix1 j) (fun a => match a with
    | ⟨0, _⟩ => by show j.val = if (128 : Nat) = 1 then 0 else j.val; rw [if_neg (by decide)])

private theorem dotL_lhs0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
private theorem dotL_lhs1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
private theorem dotL_rhs0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
private theorem dotL_rhs1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

theorem dotL_apply (x : FVec Ideal S100000x128 .f32) (w : FVec Ideal S128x128 .f32) (n : Fin 100000) (j : Fin 128) :
    Host.dotGeneral (F := Ideal) dot_S100000x128_S128x128_S100000x128_1_0_0_1_n_n none x w (ix2 n j) = ∑ k : Fin 128, x (ix2 n k) * w (ix2 k j) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 n j) ((contrEquiv1 dot_S100000x128_S128x128_S100000x128_1_0_0_1_n_n 128 rfl rfl).symm k) = ix2 n k := funext fun a => Fin.ext (by
    match a with
    | ⟨0, _⟩ => exact dotL_lhs0 _ _
    | ⟨1, _⟩ => exact (dotL_lhs1 _ _).trans hk)
  have er : dot_S100000x128_S128x128_S100000x128_1_0_0_1_n_n.rhsIdx (ix2 n j) ((contrEquiv1 dot_S100000x128_S128x128_S100000x128_1_0_0_1_n_n 128 rfl rfl).symm k) = ix2 k j := funext fun a => Fin.ext (by
    match a with
    | ⟨0, _⟩ => exact (dotL_rhs0 _ _).trans hk
    | ⟨1, _⟩ => exact dotL_rhs1 _ _)
  rw [el, er]

theorem dense_apply (x : FVec Ideal S100000x128 .f32) (w : FVec Ideal S128x128 .f32) (b : FVec Ideal S128 .f32) (n : Fin 100000) (j : Fin 128) :
    maximumf
        (addf (Host.dotGeneral (F := Ideal) dot_S100000x128_S128x128_S100000x128_1_0_0_1_n_n none x w)
          (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32)) (ix2 n j)
      = Cert.Spec.relu ((∑ k : Fin 128, x (ix2 n k) * w (ix2 k j)) + b (ix1 j)) := by
  rw [maximumf_apply, addf_apply, dotL_apply, rowBias_apply, zeros_apply]
  rfl

theorem rstd_apply (var : FVec Ideal S128 .f32) (k : Fin 128) :
    Host.rsqrt (F := Ideal) (addf var (broadcastInDim S128 ![] bcast_S_S128 (constant (F := Ideal) S_ .f32 0x3727C5AC#32))) (ix1 k)
      = Ideal.rsqrt (var (ix1 k) + Ideal.ofBits .f32 0x3727C5AC#32) := by
  show Ideal.rsqrt (addf var (broadcastInDim S128 ![] bcast_S_S128 (constant (F := Ideal) S_ .f32 0x3727C5AC#32)) (ix1 k)) = _
  rw [addf_apply, broadcastInDim_scalar_apply, constant_apply]

theorem norm_apply (y : FVec Ideal S100000x128 .f32) (mean r gamma beta : FVec Ideal S128 .f32) (n : Fin 100000) (k : Fin 128) :
    maximumf
        (addf
          (mulf
            (mulf
              (subf y (broadcastInDim S100000x128 ![0, 1] bcast_S1x128_S100000x128_0_1 (broadcastInDim S1x128 ![1] bcast_S128_S1x128_1 mean)))
              (broadcastInDim S100000x128 ![0, 1] bcast_S1x128_S100000x128_0_1 (broadcastInDim S1x128 ![1] bcast_S128_S1x128_1 r)))
            (broadcastInDim S100000x128 ![0, 1] bcast_S1x128_S100000x128_0_1 (broadcastInDim S1x128 ![1] bcast_S128_S1x128_1 gamma)))
          (broadcastInDim S100000x128 ![0, 1] bcast_S1x128_S100000x128_0_1 (broadcastInDim S1x128 ![1] bcast_S128_S1x128_1 beta)))
        (broadcastInDim S100000x128 ![] bcast_S_S100000x128 (constant (F := Ideal) S_ .f32 0x00000000#32)) (ix2 n k)
      = Cert.Spec.relu (Cert.Spec.bnR (gamma (ix1 k)) (r (ix1 k)) (beta (ix1 k)) (mean (ix1 k)) (y (ix2 n k))) := by
  rw [maximumf_apply, addf_apply, mulf_apply, mulf_apply, subf_apply, rowBias_apply, rowBias_apply, rowBias_apply, rowBias_apply, zeros_apply]
  rfl

theorem rLayer_apply (e : FVec Ideal S_ .f32) (W1 : FVec Ideal S128x128 .f32) (b1 mean var gamma beta : FVec Ideal S128 .f32)
    (W2 : FVec Ideal S128x128 .f32) (b2 : FVec Ideal S128 .f32) (h : FVec Ideal S100000x128 .f32) (ei : IVec S2x640000 32)
    (n : Fin 100000) (j : Fin 128) :
    rLayer (F := Ideal) e W1 b1 mean var gamma beta W2 b2 h ei (ix2 n j)
      = Cert.Spec.mlp (fun k y => Cert.Spec.bnR (gamma (ix1 k)) (Ideal.rsqrt (var (ix1 k) + Ideal.ofBits .f32 0x3727C5AC#32)) (beta (ix1 k)) (mean (ix1 k)) y)
          (fun n i => rZ (F := Ideal) e h ei (ix2 n i)) (fun i k => W1 (ix2 i k)) (fun k => b1 (ix1 k)) (fun k j => W2 (ix2 k j)) (fun j => b2 (ix1 j)) n j := by
  unfold rLayer Cert.Spec.mlp
  refine (dense_apply _ W2 b2 n j).trans ?_
  refine congrArg Cert.Spec.relu (congrArg (· + b2 (ix1 j)) (Finset.sum_congr rfl fun k _ => congrArg (· * W2 (ix2 k j)) ?_))
  refine (norm_apply _ mean _ gamma beta n k).trans ?_
  rw [rstd_apply, dense_apply]

-- unit o of a stack read at an entry is the stack read at (l, entry), l = o
theorem rLayerAt_apply (o : Nat) (l : Fin 3) (hl : l.val = o) (s1 : S3.Slices ![o] S1) (s2 : S3x128.Slices ![o, 0] S1x128)
    (s3 : S3x128x128.Slices ![o, 0, 0] S1x128x128) (a3 : FVec Ideal S3 .f32) (a4 a10 : FVec Ideal S3x128x128 .f32)
    (a5 a6 a7 a8 a9 a11 : FVec Ideal S3x128 .f32) (h : FVec Ideal S100000x128 .f32) (ei : IVec S2x640000 32)
    (n : Fin 100000) (j : Fin 128) :
    rLayerAt o s1 s2 s3 a3 a4 a10 a5 a6 a7 a8 a9 a11 h ei (ix2 n j)
      = Cert.Spec.mlp (fun k y => Cert.Spec.bnR (a6 (ix2 l k)) (Ideal.rsqrt (HAdd.hAdd (α := EReal) (β := EReal) (γ := EReal) (a9 (ix2 l k)) (Ideal.ofBits .f32 0x3727C5AC#32))) (a7 (ix2 l k)) (a8 (ix2 l k)) y)
          (fun n i => rZ (F := Ideal) (shapeCast S_ (extractStridedSlice S1 ![o] a3 s1) shapeCasts_S1_S_) h ei (ix2 n i)) (fun i k => a4 (ix3 l i k)) (fun k => a5 (ix2 l k))
          (fun k j => a10 (ix3 l k j)) (fun j => a11 (ix2 l j)) n j := by
  have hm : ∀ (A : FVec Ideal S3x128x128 .f32) (i k : Fin 128),
      shapeCast S128x128 (extractStridedSlice S1x128x128 ![o, 0, 0] A s3) shapeCasts_S1x128x128_S128x128 (ix2 i k) = A (ix3 l i k) :=
    fun A i k => Cert.LayoutIdx.matSlice_apply o l hl A s3 _ i k
  have hr : ∀ (B : FVec Ideal S3x128 .f32) (k : Fin 128),
      shapeCast S128 (extractStridedSlice S1x128 ![o, 0] B s2) shapeCasts_S1x128_S128 (ix1 k) = B (ix2 l k) :=
    fun B k => Cert.LayoutIdx.rowSlice_apply o l hl B s2 _ k
  unfold rLayerAt
  rw [rLayer_apply]
  simp only [hm, hr]

theorem labCol_apply (lab : IVec S100000 32) (e : Fin 100000) :
    broadcastInDim S100000x1 ![0] bcast_S100000_S100000x1_0 lab (ix2 e (0 : Fin 1)) = lab (ix1 e) :=
  broadcastInDim_apply _ bcast_S100000_S100000x1_0 lab (ix2 e (0 : Fin 1)) (ix1 e) (fun a => match a with
    | ⟨0, _⟩ => by show e.val = if (100000 : Nat) = 1 then 0 else e.val; rw [if_neg (by decide)])

theorem scatPool_apply (x : FVec Ideal S512x128 .f32) (idx : IVec S100000x1 32) (u : FVec Ideal S100000x128 .f32) (g : Fin 512) (j : Fin 128) :
    Host.scatterAdd (F := Ideal) scatter_S512x128_S100000x1_S100000x128_1_0_0_1 x idx u (ix2 g j)
      = x (ix2 g j) + ∑ e ∈ Finset.univ.filter (fun e : Fin 100000 => (idx (ix2 e (0 : Fin 1))).toInt = (g.val : Int)), u (ix2 e j) :=
  Cert.Lib.RowOps.scat2_apply scatter_S512x128_S100000x1_S100000x128_1_0_0_1_wf x idx u g j

theorem rPool_apply (h : FVec Ideal S100000x128 .f32) (lab : IVec S100000 32) (g : Fin 512) (j : Fin 128) :
    rPool (F := Ideal) h lab (ix2 g j) = Cert.Spec.pool (fun e k => h (ix2 e k)) (fun e => lab (ix1 e)) g j := by
  unfold rPool Cert.Spec.pool
  rw [scatPool_apply, zeros_apply, zero_add]
  refine Finset.sum_congr (Finset.filter_congr fun e _ => ?_) fun _ _ => rfl
  rw [labCol_apply]

end Cert.ReferenceIdeal.Hand

end
-- ==== Proof.RefVals.lean ====
import proofs.«416174_j54228257079641_1_alg».proof.Proof.RefLayer
import proofs.«416174_j54228257079641_1_alg».proof.Proof.Spec
import proofs.«416174_j54228257079641_1_alg».proof.Proof.LayoutIdx

noncomputable section

namespace Cert.ReferenceIdeal.Hand

open Cert.ReferenceIdeal Cert.ReferenceIdeal.Gen Idealize.ShloMosaic Idealize.ShloMosaic.TcCoe Idealize.SL.Sem Idealize.ShloMosaic.ValueIdx

section Names
variable {F : FTy → Type} [FloatOps F] (m : (ℓ : Loc nD τ sig) → Buf (Elt F) ℓ) (c : Dev nD)

set_option quotPrecheck false

local notation "A_0" => (m ((c.tc : Thread nD τ).loc main_arg0) : FVec F S100000x128 .f32)
local notation "A_1" => (m ((c.tc : Thread nD τ).loc main_arg1) : IVec S2x640000 32)
local notation "A_3" => (m ((c.tc : Thread nD τ).loc main_arg3) : FVec F S3 .f32)
local notation "A_4" => (m ((c.tc : Thread nD τ).loc main_arg4) : FVec F S3x128x128 .f32)
local notation "A_5" => (m ((c.tc : Thread nD τ).loc main_arg5) : FVec F S3x128 .f32)
local notation "A_6" => (m ((c.tc : Thread nD τ).loc main_arg6) : FVec F S3x128 .f32)
local notation "A_7" => (m ((c.tc : Thread nD τ).loc main_arg7) : FVec F S3x128 .f32)
local notation "A_8" => (m ((c.tc : Thread nD τ).loc main_arg8) : FVec F S3x128 .f32)
local notation "A_9" => (m ((c.tc : Thread nD τ).loc main_arg9) : FVec F S3x128 .f32)
local notation "A_10" => (m ((c.tc : Thread nD τ).loc main_arg10) : FVec F S3x128x128 .f32)
local notation "A_11" => (m ((c.tc : Thread nD τ).loc main_arg11) : FVec F S3x128 .f32)

def E0 : FVec F S_ .f32 := shapeCast _ (extractStridedSlice S1 ![0] A_3 slices_S3_S1_0) shapeCasts_S1_S_
def E1 : FVec F S_ .f32 := shapeCast _ (extractStridedSlice S1 ![1] A_3 slices_S3_S1_1) shapeCasts_S1_S_
def E2 : FVec F S_ .f32 := shapeCast _ (extractStridedSlice S1 ![2] A_3 slices_S3_S1_2) shapeCasts_S1_S_

def rH1 : FVec F S100000x128 .f32 :=
  rLayerAt 0 slices_S3_S1_0 slices_S3x128_S1x128_0_0 slices_S3x128x128_S1x128x128_0_0_0 A_3 A_4 A_10 A_5 A_6 A_7 A_8 A_9 A_11 A_0 A_1
def rH2 : FVec F S100000x128 .f32 :=
  rLayerAt 1 slices_S3_S1_1 slices_S3x128_S1x128_1_0 slices_S3x128x128_S1x128x128_1_0_0 A_3 A_4 A_10 A_5 A_6 A_7 A_8 A_9 A_11 (rH1 m c) A_1
def rH3 : FVec F S100000x128 .f32 :=
  rLayerAt 2 slices_S3_S1_2 slices_S3x128_S1x128_2_0 slices_S3x128x128_S1x128x128_2_0_0 A_3 A_4 A_10 A_5 A_6 A_7 A_8 A_9 A_11 (rH2 m c) A_1

end Names

section AtIdeal
variable (m : (ℓ : Loc nD τ sig) → Buf (Elt Ideal) ℓ) (c : Dev nD)

set_option quotPrecheck false

local notation "A_0" => (m ((c.tc : Thread nD τ).loc main_arg0) : FVec Ideal S100000x128 .f32)
local notation "A_1" => (m ((c.tc : Thread nD τ).loc main_arg1) : IVec S2x640000 32)
local notation "A_2" => (m ((c.tc : Thread nD τ).loc main_arg2) : IVec S100000 32)
local notation "A_3" => (m ((c.tc : Thread nD τ).loc main_arg3) : FVec Ideal S3 .f32)
local notation "A_4" => (m ((c.tc : Thread nD τ).loc main_arg4) : FVec Ideal S3x128x128 .f32)
local notation "A_5" => (m ((c.tc : Thread nD τ).loc main_arg5) : FVec Ideal S3x128 .f32)
local notation "A_6" => (m ((c.tc : Thread nD τ).loc main_arg6) : FVec Ideal S3x128 .f32)
local notation "A_7" => (m ((c.tc : Thread nD τ).loc main_arg7) : FVec Ideal S3x128 .f32)
local notation "A_8" => (m ((c.tc : Thread nD τ).loc main_arg8) : FVec Ideal S3x128 .f32)
local notation "A_9" => (m ((c.tc : Thread nD τ).loc main_arg9) : FVec Ideal S3x128 .f32)
local notation "A_10" => (m ((c.tc : Thread nD τ).loc main_arg10) : FVec Ideal S3x128x128 .f32)
local notation "A_11" => (m ((c.tc : Thread nD τ).loc main_arg11) : FVec Ideal S3x128 .f32)

theorem rH1_apply (n : Fin 100000) (j : Fin 128) :
    rH1 m c (ix2 n j)
      = Cert.Spec.mlp (fun k y => Cert.Spec.bnR (A_6 (ix2 (0 : Fin 3) k)) (Ideal.rsqrt (HAdd.hAdd (α := EReal) (β := EReal) (γ := EReal) (A_9 (ix2 (0 : Fin 3) k)) (Ideal.ofBits .f32 0x3727C5AC#32))) (A_7 (ix2 (0 : Fin 3) k)) (A_8 (ix2 (0 : Fin 3) k)) y)
          (fun n i => rZ (F := Ideal) (E0 m c) A_0 A_1 (ix2 n i)) (fun i k => A_4 (ix3 (0 : Fin 3) i k)) (fun k => A_5 (ix2 (0 : Fin 3) k))
          (fun k j => A_10 (ix3 (0 : Fin 3) k j)) (fun j => A_11 (ix2 (0 : Fin 3) j)) n j :=
  rLayerAt_apply 0 0 rfl _ _ _ A_3 A_4 A_10 A_5 A_6 A_7 A_8 A_9 A_11 A_0 A_1 n j

theorem rH2_apply (n : Fin 100000) (j : Fin 128) :
    rH2 m c (ix2 n j)
      = Cert.Spec.mlp (fun k y => Cert.Spec.bnR (A_6 (ix2 (1 : Fin 3) k)) (Ideal.rsqrt (HAdd.hAdd (α := EReal) (β := EReal) (γ := EReal) (A_9 (ix2 (1 : Fin 3) k)) (Ideal.ofBits .f32 0x3727C5AC#32))) (A_7 (ix2 (1 : Fin 3) k)) (A_8 (ix2 (1 : Fin 3) k)) y)
          (fun n i => rZ (F := Ideal) (E1 m c) (rH1 m c) A_1 (ix2 n i)) (fun i k => A_4 (ix3 (1 : Fin 3) i k)) (fun k => A_5 (ix2 (1 : Fin 3) k))
          (fun k j => A_10 (ix3 (1 : Fin 3) k j)) (fun j => A_11 (ix2 (1 : Fin 3) j)) n j :=
  rLayerAt_apply 1 1 rfl _ _ _ A_3 A_4 A_10 A_5 A_6 A_7 A_8 A_9 A_11 (rH1 m c) A_1 n j

theorem rH3_apply (n : Fin 100000) (j : Fin 128) :
    rH3 m c (ix2 n j)
      = Cert.Spec.mlp (fun k y => Cert.Spec.bnR (A_6 (ix2 (2 : Fin 3) k)) (Ideal.rsqrt (HAdd.hAdd (α := EReal) (β := EReal) (γ := EReal) (A_9 (ix2 (2 : Fin 3) k)) (Ideal.ofBits .f32 0x3727C5AC#32))) (A_7 (ix2 (2 : Fin 3) k)) (A_8 (ix2 (2 : Fin 3) k)) y)
          (fun n i => rZ (F := Ideal) (E2 m c) (rH2 m c) A_1 (ix2 n i)) (fun i k => A_4 (ix3 (2 : Fin 3) i k)) (fun k => A_5 (ix2 (2 : Fin 3) k))
          (fun k j => A_10 (ix3 (2 : Fin 3) k j)) (fun j => A_11 (ix2 (2 : Fin 3) j)) n j :=
  rLayerAt_apply 2 2 rfl _ _ _ A_3 A_4 A_10 A_5 A_6 A_7 A_8 A_9 A_11 (rH2 m c) A_1 n j

theorem rP_apply (h : FVec Ideal S100000x128 .f32) (g : Fin 512) (j : Fin 128) :
    rPool (F := Ideal) h A_2 (ix2 g j) = Cert.Spec.pool (fun e k => h (ix2 e k)) (fun e => A_2 (ix1 e)) g j :=
  rPool_apply h A_2 g j

end AtIdeal

end Cert.ReferenceIdeal.Hand

end
-- ==== Proof.RefEvalPT.lean ====
import proofs.«416174_j54228257079641_1_alg».proof.Proof.RefCuts
import proofs.«416174_j54228257079641_1_alg».proof.Proof.RefLayer

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem after_oP_src (W : Valuation τ sig (Elt F)) :
    after oP W (Proc.devRef .tc main_v1)
      = shapeCast _ (extractStridedSlice S1x640000 ![0, 0] (W (Proc.devRef .tc main_arg1)) slices_S2x640000_S1x640000_0_0) shapeCasts_S1x640000_S640000 := by
  after_results
  rfl

theorem after_oP_dst (W : Valuation τ sig (Elt F)) :
    after oP W (Proc.devRef .tc main_v3)
      = shapeCast _ (extractStridedSlice S1x640000 ![1, 0] (W (Proc.devRef .tc main_arg1)) slices_S2x640000_S1x640000_1_0) shapeCasts_S1x640000_S640000 := by
  after_results
  rfl

theorem after_oT_out (W : Valuation τ sig (Elt F)) :
    after oT W (Proc.devRef .tc main_v195)
      = rTail (W (Proc.devRef .tc main_v186)) (W (Proc.devRef .tc main_arg12)) (W (Proc.devRef .tc main_arg13)) (W (Proc.devRef .tc main_arg14)) (W (Proc.devRef .tc main_arg15)) := by
  after_results_simp
  rfl

end Cert.ReferenceIdeal.Hand

end
-- ==== Proof.RefEvalL.lean ====
import proofs.«416174_j54228257079641_1_alg».proof.Proof.RefCuts
import proofs.«416174_j54228257079641_1_alg».proof.Proof.RefLayer
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem
open Idealize.ShloMosaic.StableHlo Idealize.ShloMosaic.ValueIdx

variable {F : FTy → Type} [FloatOps F]

-- composing a layer's operations in order gives the nested expression rLayer names; the last four give the segment sum
set_option maxHeartbeats 4000000 in
theorem oL0_h_of (W : Valuation τ sig (Elt F)) (a3 : FVec F S3 .f32) (a4 a10 : FVec F S3x128x128 .f32)
    (a5 a6 a7 a8 a9 a11 : FVec F S3x128 .f32) (h : FVec F S100000x128 .f32) (ei : IVec S2x640000 32)
    (h3 : W main_arg3 = a3) (h4 : W main_arg4 = a4) (h5 : W main_arg5 = a5) (h6 : W main_arg6 = a6) (h7 : W main_arg7 = a7)
    (h8 : W main_arg8 = a8) (h9 : W main_arg9 = a9) (h10 : W main_arg10 = a10) (h11 : W main_arg11 = a11) (hh : W main_arg0 = h)
    (hs : W main_v1 = (shapeCast S640000 (extractStridedSlice S1x640000 ![0, 0] ei slices_S2x640000_S1x640000_0_0) shapeCasts_S1x640000_S640000))
    (hd : W main_v3 = (shapeCast S640000 (extractStridedSlice S1x640000 ![1, 0] ei slices_S2x640000_S1x640000_1_0) shapeCasts_S1x640000_S640000)) :
    (after oL0 W main_v61 : FVec F S100000x128 .f32)
      = rLayerAt 0 slices_S3_S1_0 slices_S3x128_S1x128_0_0 slices_S3x128x128_S1x128x128_0_0_0 a3 a4 a10 a5 a6 a7 a8 a9 a11 h ei := by
  subst h3 h4 h5 h6 h7 h8 h9 h10 h11 hh
  after_results_simp
  rw [hs, hd]
  rfl

set_option maxHeartbeats 4000000 in
theorem oL0_pool (W : Valuation τ sig (Elt F)) :
    (after oL0 W main_v64 : FVec F S512x128 .f32) = rPool (after oL0 W main_v61) (W main_arg2) := by
  after_results_simp
  rfl

set_option maxHeartbeats 4000000 in
theorem oL1_h_of (W : Valuation τ sig (Elt F)) (a3 : FVec F S3 .f32) (a4 a10 : FVec F S3x128x128 .f32)
    (a5 a6 a7 a8 a9 a11 : FVec F S3x128 .f32) (h : FVec F S100000x128 .f32) (ei : IVec S2x640000 32)
    (h3 : W main_arg3 = a3) (h4 : W main_arg4 = a4) (h5 : W main_arg5 = a5) (h6 : W main_arg6 = a6) (h7 : W main_arg7 = a7)
    (h8 : W main_arg8 = a8) (h9 : W main_arg9 = a9) (h10 : W main_arg10 = a10) (h11 : W main_arg11 = a11) (hh : W main_v61 = h)
    (hs : W main_v1 = (shapeCast S640000 (extractStridedSlice S1x640000 ![0, 0] ei slices_S2x640000_S1x640000_0_0) shapeCasts_S1x640000_S640000))
    (hd : W main_v3 = (shapeCast S640000 (extractStridedSlice S1x640000 ![1, 0] ei slices_S2x640000_S1x640000_1_0) shapeCasts_S1x640000_S640000)) :
    (after oL1 W main_v122 : FVec F S100000x128 .f32)
      = rLayerAt 1 slices_S3_S1_1 slices_S3x128_S1x128_1_0 slices_S3x128x128_S1x128x128_1_0_0 a3 a4 a10 a5 a6 a7 a8 a9 a11 h ei := by
  subst h3 h4 h5 h6 h7 h8 h9 h10 h11 hh
  after_results_simp
  rw [hs, hd]
  rfl

set_option maxHeartbeats 4000000 in
theorem oL1_pool (W : Valuation τ sig (Elt F)) :
    (after oL1 W main_v125 : FVec F S512x128 .f32) = rPool (after oL1 W main_v122) (W main_arg2) := by
  after_results_simp
  rfl

set_option maxHeartbeats 4000000 in
theorem oL2_h_of (W : Valuation τ sig (Elt F)) (a3 : FVec F S3 .f32) (a4 a10 : FVec F S3x128x128 .f32)
    (a5 a6 a7 a8 a9 a11 : FVec F S3x128 .f32) (h : FVec F S100000x128 .f32) (ei : IVec S2x640000 32)
    (h3 : W main_arg3 = a3) (h4 : W main_arg4 = a4) (h5 : W main_arg5 = a5) (h6 : W main_arg6 = a6) (h7 : W main_arg7 = a7)
    (h8 : W main_arg8 = a8) (h9 : W main_arg9 = a9) (h10 : W main_arg10 = a10) (h11 : W main_arg11 = a11) (hh : W main_v122 = h)
    (hs : W main_v1 = (shapeCast S640000 (extractStridedSlice S1x640000 ![0, 0] ei slices_S2x640000_S1x640000_0_0) shapeCasts_S1x640000_S640000))
    (hd : W main_v3 = (shapeCast S640000 (extractStridedSlice S1x640000 ![1, 0] ei slices_S2x640000_S1x640000_1_0) shapeCasts_S1x640000_S640000)) :
    (after oL2 W main_v183 : FVec F S100000x128 .f32)
      = rLayerAt 2 slices_S3_S1_2 slices_S3x128_S1x128_2_0 slices_S3x128x128_S1x128x128_2_0_0 a3 a4 a10 a5 a6 a7 a8 a9 a11 h ei := by
  subst h3 h4 h5 h6 h7 h8 h9 h10 h11 hh
  after_results_simp
  rw [hs, hd]
  rfl

set_option maxHeartbeats 4000000 in
theorem oL2_pool (W : Valuation τ sig (Elt F)) :
    (after oL2 W main_v186 : FVec F S512x128 .f32) = rPool (after oL2 W main_v183) (W main_arg2) := by
  after_results_simp
  rfl

end Cert.ReferenceIdeal.Hand
-- ==== Proof.RefRunP.lean ====
import proofs.«416174_j54228257079641_1_alg».proof.Proof.RefOps
import proofs.«416174_j54228257079641_1_alg».proof.Proof.RefCuts
import proofs.«416174_j54228257079641_1_alg».proof.Proof.RefVals
import proofs.«416174_j54228257079641_1_alg».proof.Proof.RefEvalPT
import proofs.«416174_j54228257079641_1_alg».proof.Proof.RefEvalL
import Idealize.ShloMosaic.Lib.Pipeline.Frame

noncomputable section

namespace Cert.ReferenceIdeal.ValueP

open Cert.ReferenceIdeal Cert.ReferenceIdeal.Gen Cert.ReferenceIdeal.Hand Idealize.ShloMosaic Idealize.ShloMosaic.TcCoe Idealize.SL.Sem Idealize.ShloMosaic.StableHlo

theorem after_ops {F : FTy → Type} [FloatOps F] (V : Valuation τ sig (Elt F)) :
    after ops V = after oT (after oL2 (after oL1 (after oL0 (after oP V)))) := by
  simp only [ops, after_append]

section AtIdeal
variable (m : (ℓ : Loc nD τ sig) → Buf (Elt Ideal) ℓ) (c : Dev nD)

set_option quotPrecheck false

local notation "A_0" => (m ((c.tc : Thread nD τ).loc main_arg0) : FVec Ideal S100000x128 .f32)
local notation "A_1" => (m ((c.tc : Thread nD τ).loc main_arg1) : IVec S2x640000 32)
local notation "A_2" => (m ((c.tc : Thread nD τ).loc main_arg2) : IVec S100000 32)
local notation "A_3" => (m ((c.tc : Thread nD τ).loc main_arg3) : FVec Ideal S3 .f32)
local notation "A_4" => (m ((c.tc : Thread nD τ).loc main_arg4) : FVec Ideal S3x128x128 .f32)
local notation "A_5" => (m ((c.tc : Thread nD τ).loc main_arg5) : FVec Ideal S3x128 .f32)
local notation "A_6" => (m ((c.tc : Thread nD τ).loc main_arg6) : FVec Ideal S3x128 .f32)
local notation "A_7" => (m ((c.tc : Thread nD τ).loc main_arg7) : FVec Ideal S3x128 .f32)
local notation "A_8" => (m ((c.tc : Thread nD τ).loc main_arg8) : FVec Ideal S3x128 .f32)
local notation "A_9" => (m ((c.tc : Thread nD τ).loc main_arg9) : FVec Ideal S3x128 .f32)
local notation "A_10" => (m ((c.tc : Thread nD τ).loc main_arg10) : FVec Ideal S3x128x128 .f32)
local notation "A_11" => (m ((c.tc : Thread nD τ).loc main_arg11) : FVec Ideal S3x128 .f32)
local notation "A_12" => (m ((c.tc : Thread nD τ).loc main_arg12) : FVec Ideal S128x128 .f32)
local notation "A_13" => (m ((c.tc : Thread nD τ).loc main_arg13) : FVec Ideal S128 .f32)
local notation "A_14" => (m ((c.tc : Thread nD τ).loc main_arg14) : FVec Ideal S128x16 .f32)
local notation "A_15" => (m ((c.tc : Thread nD τ).loc main_arg15) : FVec Ideal S16 .f32)

private abbrev V0 : Valuation τ sig (Elt Ideal) := launchContents m c
private abbrev V1 : Valuation τ sig (Elt Ideal) := after oP (V0 m c)
private abbrev V2 : Valuation τ sig (Elt Ideal) := after oL0 (V1 m c)
private abbrev V3 : Valuation τ sig (Elt Ideal) := after oL1 (V2 m c)
private abbrev V4 : Valuation τ sig (Elt Ideal) := after oL2 (V3 m c)
private abbrev V5 : Valuation τ sig (Elt Ideal) := after oT (V4 m c)

-- a buffer none of the first k pieces writes still holds its launch contents after them
private theorem a1 (r : Ref sig .tc) (h1 : r ∉ oP_W := by decide) : V1 m c (Proc.devRef .tc r) = m ((c.tc : Thread nD τ).loc r) :=
  after_oP_of _ r h1
private theorem a2 (r : Ref sig .tc) (h1 : r ∉ oP_W := by decide) (h2 : r ∉ oL0_W := by decide) :
    V2 m c (Proc.devRef .tc r) = m ((c.tc : Thread nD τ).loc r) :=
  (after_oL0_of _ r h2).trans (a1 m c r h1)
private theorem a3 (r : Ref sig .tc) (h1 : r ∉ oP_W := by decide) (h2 : r ∉ oL0_W := by decide) (h3 : r ∉ oL1_W := by decide) :
    V3 m c (Proc.devRef .tc r) = m ((c.tc : Thread nD τ).loc r) :=
  (after_oL1_of _ r h3).trans (a2 m c r h1 h2)
private theorem a4 (r : Ref sig .tc) (h1 : r ∉ oP_W := by decide) (h2 : r ∉ oL0_W := by decide) (h3 : r ∉ oL1_W := by decide)
    (h4 : r ∉ oL2_W := by decide) : V4 m c (Proc.devRef .tc r) = m ((c.tc : Thread nD τ).loc r) :=
  (after_oL2_of _ r h4).trans (a3 m c r h1 h2 h3)
private theorem a5 (r : Ref sig .tc) (h1 : r ∉ oP_W := by decide) (h2 : r ∉ oL0_W := by decide) (h3 : r ∉ oL1_W := by decide)
    (h4 : r ∉ oL2_W := by decide) (h5 : r ∉ oT_W := by decide) : V5 m c (Proc.devRef .tc r) = m ((c.tc : Thread nD τ).loc r) :=
  (after_oT_of _ r h5).trans (a4 m c r h1 h2 h3 h4)

private theorem s1 : V1 m c (Proc.devRef .tc main_v1) = (shapeCast S640000 (extractStridedSlice S1x640000 ![0, 0] A_1 slices_S2x640000_S1x640000_0_0) shapeCasts_S1x640000_S640000) := after_oP_src _
private theorem d1 : V1 m c (Proc.devRef .tc main_v3) = (shapeCast S640000 (extractStridedSlice S1x640000 ![1, 0] A_1 slices_S2x640000_S1x640000_1_0) shapeCasts_S1x640000_S640000) := after_oP_dst _
private theorem s2 : V2 m c (Proc.devRef .tc main_v1) = (shapeCast S640000 (extractStridedSlice S1x640000 ![0, 0] A_1 slices_S2x640000_S1x640000_0_0) shapeCasts_S1x640000_S640000) :=
  (after_oL0_of _ main_v1 (by decide)).trans (s1 m c)
private theorem d2 : V2 m c (Proc.devRef .tc main_v3) = (shapeCast S640000 (extractStridedSlice S1x640000 ![1, 0] A_1 slices_S2x640000_S1x640000_1_0) shapeCasts_S1x640000_S640000) :=
  (after_oL0_of _ main_v3 (by decide)).trans (d1 m c)
private theorem s3 : V3 m c (Proc.devRef .tc main_v1) = (shapeCast S640000 (extractStridedSlice S1x640000 ![0, 0] A_1 slices_S2x640000_S1x640000_0_0) shapeCasts_S1x640000_S640000) :=
  (after_oL1_of _ main_v1 (by decide)).trans (s2 m c)
private theorem d3 : V3 m c (Proc.devRef .tc main_v3) = (shapeCast S640000 (extractStridedSlice S1x640000 ![1, 0] A_1 slices_S2x640000_S1x640000_1_0) shapeCasts_S1x640000_S640000) :=
  (after_oL1_of _ main_v3 (by decide)).trans (d2 m c)

private theorem h2 : V2 m c (Proc.devRef .tc main_v61) = rH1 m c :=
  oL0_h_of (V1 m c) A_3 A_4 A_10 A_5 A_6 A_7 A_8 A_9 A_11 A_0 A_1 (a1 m c main_arg3) (a1 m c main_arg4) (a1 m c main_arg5) (a1 m c main_arg6) (a1 m c main_arg7)
    (a1 m c main_arg8) (a1 m c main_arg9) (a1 m c main_arg10) (a1 m c main_arg11) (a1 m c main_arg0) (s1 m c) (d1 m c)
private theorem p2 : V2 m c (Proc.devRef .tc main_v64) = rPool (rH1 m c) A_2 :=
  (oL0_pool (V1 m c)).trans (congrArg₂ (rPool (F := Ideal)) (h2 m c) (a1 m c main_arg2))
private theorem h3 : V3 m c (Proc.devRef .tc main_v122) = rH2 m c :=
  oL1_h_of (V2 m c) A_3 A_4 A_10 A_5 A_6 A_7 A_8 A_9 A_11 (rH1 m c) A_1 (a2 m c main_arg3) (a2 m c main_arg4) (a2 m c main_arg5) (a2 m c main_arg6) (a2 m c main_arg7)
    (a2 m c main_arg8) (a2 m c main_arg9) (a2 m c main_arg10) (a2 m c main_arg11) (h2 m c) (s2 m c) (d2 m c)
private theorem p3 : V3 m c (Proc.devRef .tc main_v125) = rPool (rH2 m c) A_2 :=
  (oL1_pool (V2 m c)).trans (congrArg₂ (rPool (F := Ideal)) (h3 m c) (a2 m c main_arg2))
private theorem h4 : V4 m c (Proc.devRef .tc main_v183) = rH3 m c :=
  oL2_h_of (V3 m c) A_3 A_4 A_10 A_5 A_6 A_7 A_8 A_9 A_11 (rH2 m c) A_1 (a3 m c main_arg3) (a3 m c main_arg4) (a3 m c main_arg5) (a3 m c main_arg6) (a3 m c main_arg7)
    (a3 m c main_arg8) (a3 m c main_arg9) (a3 m c main_arg10) (a3 m c main_arg11) (h3 m c) (s3 m c) (d3 m c)
private theorem p4 : V4 m c (Proc.devRef .tc main_v186) = rPool (rH3 m c) A_2 :=
  (oL2_pool (V3 m c)).trans (congrArg₂ (rPool (F := Ideal)) (h4 m c) (a3 m c main_arg2))

private theorem q5_64 : V5 m c (Proc.devRef .tc main_v64) = rPool (rH1 m c) A_2 :=
  (after_oT_of _ main_v64 (by decide)).trans ((after_oL2_of _ main_v64 (by decide)).trans ((after_oL1_of _ main_v64 (by decide)).trans (p2 m c)))
private theorem q5_125 : V5 m c (Proc.devRef .tc main_v125) = rPool (rH2 m c) A_2 :=
  (after_oT_of _ main_v125 (by decide)).trans ((after_oL2_of _ main_v125 (by decide)).trans (p3 m c))
private theorem q5_186 : V5 m c (Proc.devRef .tc main_v186) = rPool (rH3 m c) A_2 :=
  (after_oT_of _ main_v186 (by decide)).trans (p4 m c)
private theorem out5 : V5 m c (Proc.devRef .tc main_v195) = rTail (rPool (rH3 m c) A_2) A_12 A_13 A_14 A_15 := by
  refine (after_oT_out (V4 m c)).trans ?_
  rw [p4, a4 m c main_arg12, a4 m c main_arg13, a4 m c main_arg14, a4 m c main_arg15]

end AtIdeal

section Run
variable (m : (ℓ : Loc nD τ sig) → Buf (Elt Ideal) ℓ)

theorem run (ρ : Dev nD → PrngReg) :
    θ_run defs (onTc (τ := τ) (main (F := Ideal))) ⟨m, fun _ => 0, ρ⟩ fun r => ∀ c : Dev nD,
      r.2.mem ((c.tc : Thread nD τ).loc main_v195) = rTail (rPool (rH3 m c) (m ((c.tc : Thread nD τ).loc main_arg2) : IVec S100000 32)) (m ((c.tc : Thread nD τ).loc main_arg12) : FVec Ideal S128x128 .f32) (m ((c.tc : Thread nD τ).loc main_arg13) : FVec Ideal S128 .f32) (m ((c.tc : Thread nD τ).loc main_arg14) : FVec Ideal S128x16 .f32) (m ((c.tc : Thread nD τ).loc main_arg15) : FVec Ideal S16 .f32)
      ∧ r.2.mem ((c.tc : Thread nD τ).loc main_v64) = rPool (rH1 m c) (m ((c.tc : Thread nD τ).loc main_arg2) : IVec S100000 32)
      ∧ r.2.mem ((c.tc : Thread nD τ).loc main_v125) = rPool (rH2 m c) (m ((c.tc : Thread nD τ).loc main_arg2) : IVec S100000 32)
      ∧ r.2.mem ((c.tc : Thread nD τ).loc main_v186) = rPool (rH3 m c) (m ((c.tc : Thread nD τ).loc main_arg2) : IVec S100000 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
      have g (b : Ref sig .tc) := (h c b).trans (congrFun (after_ops (launchContents m c)) _)
      ⟨(g _).trans (out5 m c), (g _).trans (q5_64 m c), (g _).trans (q5_125 m c), (g _).trans (q5_186 m c),
        (g _).trans (a5 m c main_arg0), (g _).trans (a5 m c main_arg1), (g _).trans (a5 m c main_arg2), (g _).trans (a5 m c main_arg3),
        (g _).trans (a5 m c main_arg4), (g _).trans (a5 m c main_arg5), (g _).trans (a5 m c main_arg6), (g _).trans (a5 m c main_arg7),
        (g _).trans (a5 m c main_arg8), (g _).trans (a5 m c main_arg9), (g _).trans (a5 m c main_arg10), (g _).trans (a5 m c main_arg11),
        (g _).trans (a5 m c main_arg12), (g _).trans (a5 m c main_arg13), (g _).trans (a5 m c main_arg14), (g _).trans (a5 m c main_arg15)⟩)
    (run_raw m ρ)

end Run

end Cert.ReferenceIdeal.ValueP

end
-- ==== Proof.KI.MlpPay.lean ====
import proofs.«416174_j54228257079641_1_alg».proof.Proof.Gen.KernelIdeal.Skeleton
import proofs.«416174_j54228257079641_1_alg».proof.Proof.Spec
import Idealize.ShloMosaic.Lib.StackMember
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-- The layer's dense block over an input array of any number of rows, two weight matrices and four rows, at an entry of the array. -/
def mlpAt {N : Nat} (A0 : Vec Ideal ⟨2, ![N, 128]⟩ .f32) (A1 : Vec Ideal S128x128 .f32) (A2 A3 A4 : Vec Ideal S1x128 .f32)
    (A5 : Vec Ideal S128x128 .f32) (A6 : Vec Ideal S1x128 .f32) (i : (⟨2, ![N, 128]⟩ : Shape).Idx) : EReal :=
  Cert.Spec.mlp (fun k y => y * A3 (ix2 0 k) + A4 (ix2 0 k)) (fun n i => A0 (ix2 n i)) (fun i k => A1 (ix2 i k))
    (fun k => A2 (ix2 0 k)) (fun k j => A5 (ix2 k j)) (fun j => A6 (ix2 0 j)) (i 0) (i 1)

/-- A product into the zero accumulator is the plain product of the two matrices. -/
theorem mlp_matmul_apply {φ₁ φ₂ : FTy} (a : FVec Ideal S2000x128 φ₁) (b : FVec Ideal S128x128 φ₂) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) :=
  (Ideal.matmul_constant_zero_apply _ none a b _).trans
    ((Ideal.dotGeneral_apply _ none _ a b _).symm.trans (StackMember.dotGeneral_plain_apply none a b p q))

theorem zeros2 : (![0, 0] : Fin 2 → Nat) = fun _ => 0 := funext fun a => by fin_cases a <;> rfl

/-- The stored tile, entry by entry: relu of the second product plus its bias, over relu of the scaled and shifted relu of the first product plus its bias. -/
theorem mlp_pay_apply (x0 : Vec Ideal S2000x128 .f32) (x1 : Vec Ideal S128x128 .f32) (x2 x3 x4 : Vec Ideal S1x128 .f32)
    (x5 : Vec Ideal S128x128 .f32) (x6 : Vec Ideal S1x128 .f32) (p : Fin 2000) (q : Fin 128) :
    k0_pay1 x0 x1 x2 x3 x4 x5 x6 (ix2 p q) = mlpAt x0 x1 x2 x3 x4 x5 x6 (ix2 p q) := by
  unfold k0_pay1 mlpAt Cert.Spec.mlp Cert.Spec.relu
  simp only [shapeCast_self]
  simp only [maximumf_apply, addf_apply, mulf_apply, truncf_apply, broadcast_apply, mlp_matmul_apply, broadcastTo_1b_ab_apply]
  rw [show (FloatOps.ofBits .f32 0x00000000#32 : Ideal .f32) = 0 from Ideal.ofBits_zero_f32]

/-- The dense block at (n, j) reads only row n of its input: a tile whose row is a row of the array stores the array's dense block there. -/
theorem mlp_point {N : Nat} (A0 : Vec Ideal ⟨2, ![N, 128]⟩ .f32) (A1 : Vec Ideal S128x128 .f32) (A2 A3 A4 : Vec Ideal S1x128 .f32)
    (A5 : Vec Ideal S128x128 .f32) (A6 : Vec Ideal S1x128 .f32) (x0 : Vec Ideal S2000x128 .f32) (y : S2000x128.Idx)
    (i : (⟨2, ![N, 128]⟩ : Shape).Idx) (h0 : ∀ k, x0 (ix2 (y 0 : Fin 2000) k) = A0 (ix2 (i 0 : Fin N) k)) (h1 : (y 1 : Fin 128) = i 1) :
    k0_pay1 x0 A1 A2 A3 A4 A5 A6 y = mlpAt A0 A1 A2 A3 A4 A5 A6 i := by
  obtain ⟨p, q, rfl⟩ : ∃ (p : Fin 2000) (q : Fin 128), y = ix2 p q := ⟨_, _, eq_ix2 y⟩
  rw [mlp_pay_apply]
  unfold mlpAt Cert.Spec.mlp
  simp only [h0, h1]

end Cert.KernelIdeal.Hand
end
-- ==== Proof.KI.MlpValue0.lean ====
import proofs.«416174_j54228257079641_1_alg».proof.Proof.KI.MlpRegion0
import proofs.«416174_j54228257079641_1_alg».proof.Proof.KI.MlpPay
import Idealize.ShloMosaic.Lib.Pipeline.Value

noncomputable section

namespace Cert.KernelIdeal.Hand

open Cert.KernelIdeal Cert.KernelIdeal.Gen
open Idealize.ShloMosaic Idealize.ShloMosaic.TcCoe
open Idealize.SL.Sem
open Idealize.ShloMosaic.ValueIdx

variable (V : (c : Dev nD) → (b : Ref sig .tc) → Buf (Elt Ideal) ((c : Thread nD τ).loc b))

/-- A block at index (0, 0) that is as large as its array is the whole array. -/
theorem iblk0_eq (c : Dev nD) (t : Fin cfg0.N) :
    (iblk0 V c 1 t : Vec Ideal S128x128 .f32) = V c (Pipeline.arrRef spec0 1) ∧ (iblk0 V c 2 t : Vec Ideal S1x128 .f32) = V c (Pipeline.arrRef spec0 2)
    ∧ (iblk0 V c 3 t : Vec Ideal S1x128 .f32) = V c (Pipeline.arrRef spec0 3) ∧ (iblk0 V c 4 t : Vec Ideal S1x128 .f32) = V c (Pipeline.arrRef spec0 4)
    ∧ (iblk0 V c 5 t : Vec Ideal S128x128 .f32) = V c (Pipeline.arrRef spec0 5) ∧ (iblk0 V c 6 t : Vec Ideal S1x128 .f32) = V c (Pipeline.arrRef spec0 6) := by
  refine ⟨?_, ?_, ?_, ?_, ?_, ?_⟩ <;>
    exact Memref.read_access_unit_zero _ _ (funext fun a => match a with | ⟨0, _⟩ => rfl | ⟨1, _⟩ => rfl) _ _

set_option maxHeartbeats 1000000 in
/-- The input tile and the output tile are the same rows of their arrays, and the dense block at a row reads only that row of the input. -/
theorem flushed0_eq (c : Dev nD) (t : Fin cfg0.N) :
    (dat0 (F := Ideal) V c).flushed 7 t = ((cfg0.win 7).blk t).view.read (Elt Ideal)
      (mlpAt (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) := by
  show (cfg0.win 7).cut (grid0.coords t) ((dat0 (F := Ideal) V c).after 7 t) = _
  rw [after0_7]
  unfold out0_7
  rw [View.canon_unit_zero zeros2]
  simp only [View.ld_unit_zero (S := S2000x128) zeros2, View.ld_unit_zero (S := S128x128) zeros2, View.ld_unit_zero (S := S1x128) zeros2, iblk0_eq V c t]
  funext y
  show k0_pay1 (F := Ideal) _ _ _ _ _ _ _ y = mlpAt _ _ _ _ _ _ _ (((cfg0.win 7).blk t).view.emb y)
  refine mlp_point _ _ _ _ _ _ _ _ y _ (fun k => ?_) ?_
  · exact congrArg (V c (Pipeline.arrRef spec0 0)) (Shape.idx_ext₂ rfl (win0_0.rect_emb_val_of_index_zero t 1 rfl _))
  · exact Fin.ext (win0_7.rect_emb_val_of_index_zero t 1 rfl y).symm

theorem row0 : ∀ t : Fin cfg0.N, win0_7.index t 0 = t.val := (by decide +kernel : ∀ t : Fin grid0.N, _)

/-- Row r of the output array is in the block of point r / 2000. -/
theorem cover0 (i : S100000x128.Idx) : ∃ t : Fin cfg0.N, (cfg0.win 7).flush t = true ∧ i ∈ ((cfg0.win 7).blk t).view.set := by
  have h0 : (i 0).val < 100000 := (i 0).isLt
  have h1 : (i 1).val < 128 := (i 1).isLt
  have ht : (i 0).val / 2000 < cfg0.N := by rw [show cfg0.N = 50 from N_0]; omega
  refine ⟨⟨_, ht⟩, flush0_7 _, ?_⟩
  rw [View.set_slice_whole, Rect.mem_set_unit]
  intro a
  match a with
  | ⟨0, _⟩ =>
    show win0_7.index ⟨_, ht⟩ 0 * 2000 ≤ (i 0).val ∧ (i 0).val < win0_7.index ⟨_, ht⟩ 0 * 2000 + 2000
    rw [row0]
    show (i 0).val / 2000 * 2000 ≤ (i 0).val ∧ (i 0).val < (i 0).val / 2000 * 2000 + 2000
    omega
  | ⟨1, _⟩ => show 0 * 128 ≤ (i 1).val ∧ (i 1).val < 0 * 128 + 128; omega

theorem mlp_final0 (c : Dev nD) (n : Fin 100000) (j : Fin 128) :
    ((dat0 (F := Ideal) V c).arrAt 7 cfg0.N : Vec Ideal S100000x128 .f32) (ix2 n j)
      = Cert.Spec.mlp
          (fun k y => y * (V c (Pipeline.arrRef spec0 3) : Vec Ideal S1x128 .f32) (ix2 (0 : Fin 1) k) + (V c (Pipeline.arrRef spec0 4) : Vec Ideal S1x128 .f32) (ix2 (0 : Fin 1) k))
          (fun n i => (V c (Pipeline.arrRef spec0 0) : Vec Ideal S100000x128 .f32) (ix2 n i))
          (fun i k => (V c (Pipeline.arrRef spec0 1) : Vec Ideal S128x128 .f32) (ix2 i k))
          (fun k => (V c (Pipeline.arrRef spec0 2) : Vec Ideal S1x128 .f32) (ix2 (0 : Fin 1) k))
          (fun k j => (V c (Pipeline.arrRef spec0 5) : Vec Ideal S128x128 .f32) (ix2 k j))
          (fun j => (V c (Pipeline.arrRef spec0 6) : Vec Ideal S1x128 .f32) (ix2 (0 : Fin 1) j)) n j :=
  congrFun ((dat0 (F := Ideal) V c).arrAt_eq_of_cover 7 _ (fun t _ => flushed0_eq V c t) cover0) (ix2 n j)

end Cert.KernelIdeal.Hand
end
-- ==== Proof.KI.HostDefs.lean ====
import proofs.«416174_j54228257079641_1_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.Hand

open Cert.KernelIdeal.Gen Idealize.ShloMosaic Idealize.ShloMosaic.TcCoe Idealize.ShloMosaic.ValueIdx

variable {F : FTy → Type} [FloatOps F]

def kZ (e : FVec F S_ .f32) (h : FVec F S100000x128 .f32) (src dst : IVec S640000 32) : FVec F S100000x128 .f32 :=
  addf (mulf (broadcastInDim S100000x128 ![] bcast_S_S100000x128 (addf (constant S_ .f32 0x3F800000#32) e)) h)
    (Host.scatterAdd scatter_S100000x128_S640000x1_S640000x128_1_0_0_1
      (broadcastInDim S100000x128 ![] bcast_S_S100000x128 (constant S_ .f32 0x00000000#32))
      (broadcastInDim S640000x1 ![0] bcast_S640000_S640000x1_0 dst)
      (Host.gather gather_S100000x128_S640000x1_S640000x128_1_0_n_n_0_1_1128 h
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 100000#32))) src))))

def kEps (x : FVec F S3 .f32) (o : Nat) (h : S3.Slices ![o] S1) : FVec F S_ .f32 :=
  shapeCast S_ (extractStridedSlice S1 ![o] x h) shapeCasts_S1_S_

def kRow {α : Type} (x : S3x128.Idx → α) (o : Nat) (h : S3x128.Slices ![o, 0] S1x128) : S128.Idx → α :=
  shapeCast S128 (extractStridedSlice S1x128 ![o, 0] x h) shapeCasts_S1x128_S128

def kMat {α : Type} (x : S3x128x128.Idx → α) (o : Nat) (h : S3x128x128.Slices ![o, 0, 0] S1x128x128) : S128x128.Idx → α :=
  shapeCast S128x128 (extractStridedSlice S1x128x128 ![o, 0, 0] x h) shapeCasts_S1x128x128_S128x128

def kEdge {α : Type} (x : S2x640000.Idx → α) (o : Nat) (h : S2x640000.Slices ![o, 0] S1x640000) : S640000.Idx → α :=
  shapeCast S640000 (extractStridedSlice S1x640000 ![o, 0] x h) shapeCasts_S1x640000_S640000

def kScale (g v : FVec F S128 .f32) : FVec F S128 .f32 :=
  mulf g (Host.rsqrt (addf v (broadcastInDim S128 ![] bcast_S_S128 (constant S_ .f32 0x3727C5AC#32))))

def kShift (b mu sc : FVec F S128 .f32) : FVec F S128 .f32 := subf b (mulf mu sc)

def kTail (p : FVec F S512x128 .f32) (l1W : FVec F S128x128 .f32) (l1b : FVec F S128 .f32) (l2W : FVec F S128x16 .f32)
    (l2b : FVec F S16 .f32) : FVec F S512x16 .f32 :=
  addf (Host.dotGeneral dot_S512x128_S128x16_S512x16_1_0_0_1_n_n none
      (maximumf
        (addf (Host.dotGeneral dot_S512x128_S128x128_S512x128_1_0_0_1_n_n none p l1W)
          (broadcastInDim S512x128 ![0, 1] bcast_S1x128_S512x128_0_1 (broadcastInDim S1x128 ![1] bcast_S128_S1x128_1 l1b)))
        (broadcastInDim S512x128 ![] bcast_S_S512x128 (constant S_ .f32 0x00000000#32)))
      l2W)
    (broadcastInDim S512x16 ![0, 1] bcast_S1x16_S512x16_0_1 (broadcastInDim S1x16 ![1] bcast_S16_S1x16_1 l2b))

theorem kRow_apply {α : Type} (x : S3x128.Idx → α) (o : Nat) (h : S3x128.Slices ![o, 0] S1x128) (k : Fin 128) (L : Fin 3)
    (hL : L.val = o) : kRow x o h (ix1 k) = x (ix2 L k) := by
  unfold kRow
  rw [shapeCast_1a_a_apply, slice2_axis0_apply o x h (0 : Fin 1) k L (by rw [hL]; rfl)]

theorem kMat_apply {α : Type} (x : S3x128x128.Idx → α) (o : Nat) (h : S3x128x128.Slices ![o, 0, 0] S1x128x128) (i k : Fin 128)
    (L : Fin 3) (hL : L.val = o) : kMat x o h (ix2 i k) = x (ix3 L i k) := by
  unfold kMat
  rw [shapeCast_1ab_ab_apply]
  exact extractStridedSlice_apply _ _ _ _ _ (fun ax => by
    match ax with
    | ⟨0, _⟩ => exact hL.trans (Nat.add_zero _).symm
    | ⟨1, _⟩ => exact (Nat.zero_add _).symm
    | ⟨2, _⟩ => exact (Nat.zero_add _).symm)

theorem kScale_apply (g v : FVec Ideal S128 .f32) (k : Fin 128) :
    kScale g v (ix1 k) = g (ix1 k) * Ideal.rsqrt (v (ix1 k) + Ideal.ofBits .f32 0x3727C5AC#32) := rfl

theorem kShift_apply (b mu sc : FVec Ideal S128 .f32) (k : Fin 128) :
    kShift b mu sc (ix1 k) = b (ix1 k) - mu (ix1 k) * sc (ix1 k) := rfl

section At

variable {α : Type} {o : ℕ} {L : Fin 3} {k : Fin 128} {h : S3x128.Slices ![o, 0] S1x128}

-- A column vector read back as the vector it was cast from: both positions have the same row-major rank.
theorem asCol_at {a : ℕ} {X : (⟨2, ![a, 1]⟩ : Shape).Idx → α} {x : (⟨1, ![a]⟩ : Shape).Idx → α}
    {h : (⟨1, ![a]⟩ : Shape).ShapeCasts ⟨2, ![a, 1]⟩} (e : X = shapeCast ⟨2, ![a, 1]⟩ x h) {t : Fin a} :
    X (ix2 t (0 : Fin 1)) = x (ix1 t) := by
  subst e
  exact shapeCast_apply x h _ _ (by
    rw [Shape.rowMajor_val_two, Shape.rowMajor_val_one]
    show t.val = t.val * 1 + 0
    omega)

-- Layer L's matrix of a stack of three, entry by entry.
theorem mat_at {X : S128x128.Idx → α} {A A' : S3x128x128.Idx → α} {h : S3x128x128.Slices ![o, 0, 0] S1x128x128}
    (e : X = kMat A' o h) (hA : A' = A) (hL : L.val = o := by rfl) {i : Fin 128} : X (ix2 i k) = A (ix3 L i k) := by
  subst e hA; exact kMat_apply _ o h i k L hL

-- Layer L's row of a stack of three, laid out as a one-row matrix.
theorem row_at {X : S1x128.Idx → α} {A A' : S3x128.Idx → α} (e : X = shapeCast S1x128 (kRow A' o h) shapeCasts_S128_S1x128)
    (hA : A' = A) (hL : L.val = o := by rfl) : X (ix2 (0 : Fin 1) k) = A (ix2 L k) := by
  subst e hA; rw [shapeCast_a_1a_apply]; exact kRow_apply _ o h k L hL

variable {X : FVec Ideal S1x128 .f32} {b mu g v b' mu' g' v' : FVec Ideal S3x128 .f32}

-- The normalisation's scale g / sqrt (v + eps) at layer L, entry by entry.
theorem scale_at (e : X = shapeCast S1x128 (kScale (F := Ideal) (kRow g' o h) (kRow v' o h)) shapeCasts_S128_S1x128)
    (hg : g' = g) (hv : v' = v) (hL : L.val = o := by rfl) :
    X (ix2 (0 : Fin 1) k) = g (ix2 L k) * Ideal.rsqrt (v (ix2 L k) + Ideal.ofBits .f32 0x3727C5AC#32) := by
  subst e hg hv; rw [shapeCast_a_1a_apply, kScale_apply, kRow_apply _ o h k L hL, kRow_apply _ o h k L hL]

-- The normalisation's shift b - mu * scale at layer L, entry by entry.
theorem shift_at
    (e : X = shapeCast S1x128 (kShift (F := Ideal) (kRow b' o h) (kRow mu' o h) (kScale (F := Ideal) (kRow g' o h) (kRow v' o h)))
      shapeCasts_S128_S1x128) (hb : b' = b) (hmu : mu' = mu) (hg : g' = g) (hv : v' = v)
    (hL : L.val = o := by rfl) :
    X (ix2 (0 : Fin 1) k) = b (ix2 L k)
      - mu (ix2 L k) * (g (ix2 L k) * Ideal.rsqrt (v (ix2 L k) + Ideal.ofBits .f32 0x3727C5AC#32)) := by
  subst e hb hmu hg hv
  rw [shapeCast_a_1a_apply, kShift_apply, kScale_apply, kRow_apply _ o h k L hL, kRow_apply _ o h k L hL,
    kRow_apply _ o h k L hL, kRow_apply _ o h k L hL]

-- The aggregation input depends on its buffers only through their contents.
theorem z_at {X h : FVec F S100000x128 .f32} {x x' : FVec F S3 .f32} {s s' d d' : IVec S640000 32} {ho : S3.Slices ![o] S1}
    (e : X = kZ (kEps x' o ho) h s' d') (hx : x' = x) (hs : s' = s) (hd : d' = d) : X = kZ (kEps x o ho) h s d := by
  subst hx hs hd; exact e

end At

section Keep

variable {m : (ℓ : Loc nD τ sig) → Buf (Elt F) ℓ} {outs : Gen.Outs (F := F)} {c : Dev nD} (r : Ref sig .tc)
  (h48 : r ∉ [main_v48] := by decide) (h47 : r ∉ [main_v47] := by decide) (h0 : r ∉ hostOps0_W := by decide)
  (h92 : r ∉ [main_v92] := by decide) (h91 : r ∉ [main_v91] := by decide) (h2 : r ∉ hostOps2_W := by decide)

include h48 h47

-- A buffer that no item between two points of the program writes holds at the later what it held at the earlier.
theorem V3_to1 : Gen.V3 m outs c r = Gen.V1 m c r :=
  (Gen.V3_of m outs c r h48).trans (Gen.V2_of m outs c r h47)

include h0 in
theorem V3_back : Gen.V3 m outs c r = Gen.V0 m c r :=
  (V3_to1 r h48 h47).trans (Gen.V1_of m c r h0)

include h92 h91 h2

theorem V6_to1 : Gen.V6 m outs c r = Gen.V1 m c r :=
  (Gen.V6_of m outs c r h92).trans <| (Gen.V5_of m outs c r h91).trans <| (Gen.V4_of m outs c r h2).trans (V3_to1 r h48 h47)

include h0 in
theorem V6_back : Gen.V6 m outs c r = Gen.V0 m c r :=
  (V6_to1 r h48 h47 h92 h91 h2).trans (Gen.V1_of m c r h0)

end Keep

end Cert.KernelIdeal.Hand
-- ==== Proof.KI.HostVals.lean ====
import proofs.«416174_j54228257079641_1_alg».proof.Proof.KI.HostDefs

set_option maxRecDepth 16384

noncomputable section

namespace Cert.KernelIdeal.Hand

open Cert.KernelIdeal.Gen Idealize.ShloMosaic Idealize.ShloMosaic.TcCoe Idealize.ShloMosaic.ValueIdx

variable (m : (ℓ : Loc nD τ sig) → Buf (Elt Ideal) ℓ) (outs : Gen.Outs (F := Ideal))

theorem host0_src (c : Dev nD) :
    (Gen.V1 m c main_v1 : IVec S640000 32) = kEdge (m ((c : Thread nD τ).loc main_arg1) : IVec S2x640000 32) 0 slices_S2x640000_S1x640000_0_0 := by
  dsimp only [Gen.V1]; after_results; rfl

theorem host0_dst (c : Dev nD) :
    (Gen.V1 m c main_v3 : IVec S640000 32) = kEdge (m ((c : Thread nD τ).loc main_arg1) : IVec S2x640000 32) 1 slices_S2x640000_S1x640000_1_0 := by
  dsimp only [Gen.V1]; after_results; rfl

theorem host_lab (c : Dev nD) (t : Fin 100000) :
    (Gen.V1 m c main_v4 : IVec S100000x1 32) (ix2 t (0 : Fin 1)) = (m ((c : Thread nD τ).loc main_arg2) : IVec S100000 32) (ix1 t) :=
  asCol_at (by dsimp only [Gen.V1]; after_results; rfl)

theorem host_lab_V2 (c : Dev nD) : Gen.V2 m outs c main_v4 = Gen.V1 m c main_v4 := Gen.V2_of m outs c main_v4 (by decide)
theorem host_lab_V5 (c : Dev nD) : Gen.V5 m outs c main_v4 = Gen.V1 m c main_v4 :=
  (Gen.V5_of m outs c main_v4 (by decide)).trans <| (Gen.V4_of m outs c main_v4 (by decide)).trans (V3_to1 main_v4)
theorem host_lab_V8 (c : Dev nD) : Gen.V8 m outs c main_v4 = Gen.V1 m c main_v4 :=
  (Gen.V8_of m outs c main_v4 (by decide)).trans <| (Gen.V7_of m outs c main_v4 (by decide)).trans (V6_to1 main_v4)

set_option maxHeartbeats 1000000 in
theorem host0_z (c : Dev nD) :
    (Gen.V1 m c main_v20 : FVec Ideal S100000x128 .f32)
      = kZ (F := Ideal) (kEps (m ((c : Thread nD τ).loc main_arg3) : FVec Ideal S3 .f32) 0 slices_S3_S1_0) (m ((c : Thread nD τ).loc main_arg0) : FVec Ideal S100000x128 .f32)
          (Gen.V1 m c main_v1) (Gen.V1 m c main_v3) :=
  z_at (by dsimp only [Gen.V1]; after_results_simp; rfl) rfl (host0_src m c).symm (host0_dst m c).symm

theorem host0_W1 (c : Dev nD) (i k : Fin 128) :
    (Gen.V1 m c main_v36 : FVec Ideal S128x128 .f32) (ix2 i k) = (m ((c : Thread nD τ).loc main_arg4) : FVec Ideal S3x128x128 .f32) (ix3 (0 : Fin 3) i k) :=
  mat_at (by dsimp only [Gen.V1]; after_results; rfl) rfl

theorem host0_b1 (c : Dev nD) (k : Fin 128) :
    (Gen.V1 m c main_v43 : FVec Ideal S1x128 .f32) (ix2 (0 : Fin 1) k) = (m ((c : Thread nD τ).loc main_arg5) : FVec Ideal S3x128 .f32) (ix2 (0 : Fin 3) k) :=
  row_at (by dsimp only [Gen.V1]; after_results; rfl) rfl

set_option maxHeartbeats 1000000 in
theorem host0_scale (c : Dev nD) (k : Fin 128) (g v : FVec Ideal S3x128 .f32)
    (hg : g = m ((c : Thread nD τ).loc main_arg6)) (hv : v = m ((c : Thread nD τ).loc main_arg9)) :
    (Gen.V1 m c main_v44 : FVec Ideal S1x128 .f32) (ix2 (0 : Fin 1) k)
      = g (ix2 (0 : Fin 3) k) * Ideal.rsqrt (v (ix2 (0 : Fin 3) k) + Ideal.ofBits .f32 0x3727C5AC#32) := by
  subst hg hv; exact scale_at (by dsimp only [Gen.V1]; after_results_simp; rfl) rfl rfl

set_option maxHeartbeats 1000000 in
theorem host0_shift (c : Dev nD) (k : Fin 128) (b mu g v : FVec Ideal S3x128 .f32)
    (hb : b = m ((c : Thread nD τ).loc main_arg7)) (hmu : mu = m ((c : Thread nD τ).loc main_arg8))
    (hg : g = m ((c : Thread nD τ).loc main_arg6)) (hv : v = m ((c : Thread nD τ).loc main_arg9)) :
    (Gen.V1 m c main_v45 : FVec Ideal S1x128 .f32) (ix2 (0 : Fin 1) k)
      = b (ix2 (0 : Fin 3) k)
        - mu (ix2 (0 : Fin 3) k) * (g (ix2 (0 : Fin 3) k) * Ideal.rsqrt (v (ix2 (0 : Fin 3) k) + Ideal.ofBits .f32 0x3727C5AC#32)) := by
  subst hb hmu hg hv; exact shift_at (by dsimp only [Gen.V1]; after_results_simp; rfl) rfl rfl rfl rfl

theorem host0_W2 (c : Dev nD) (k j : Fin 128) :
    (Gen.V1 m c main_v40 : FVec Ideal S128x128 .f32) (ix2 k j) = (m ((c : Thread nD τ).loc main_arg10) : FVec Ideal S3x128x128 .f32) (ix3 (0 : Fin 3) k j) :=
  mat_at (by dsimp only [Gen.V1]; after_results; rfl) rfl

theorem host0_b2 (c : Dev nD) (j : Fin 128) :
    (Gen.V1 m c main_v46 : FVec Ideal S1x128 .f32) (ix2 (0 : Fin 1) j) = (m ((c : Thread nD τ).loc main_arg11) : FVec Ideal S3x128 .f32) (ix2 (0 : Fin 3) j) :=
  row_at (by dsimp only [Gen.V1]; after_results; rfl) rfl

theorem host_tail (U : Valuation τ sig (Elt Ideal)) :
    (StableHlo.after hostOps6_2 (StableHlo.after hostOps6_1 (StableHlo.after hostOps6 U)) main_v145 : FVec Ideal S512x16 .f32)
      = kTail (F := Ideal) (U main_v136) (U main_arg12) (U main_arg13) (U main_arg14) (U main_arg15) := by
  after_results; rfl

end Cert.KernelIdeal.Hand
-- ==== Proof.KI.MlpValue2.lean ====
import proofs.«416174_j54228257079641_1_alg».proof.Proof.KI.MlpRegion2
import proofs.«416174_j54228257079641_1_alg».proof.Proof.KI.MlpPay
import Idealize.ShloMosaic.Lib.Pipeline.Value

noncomputable section

namespace Cert.KernelIdeal.Hand

open Cert.KernelIdeal Cert.KernelIdeal.Gen
open Idealize.ShloMosaic Idealize.ShloMosaic.TcCoe
open Idealize.SL.Sem
open Idealize.ShloMosaic.ValueIdx

variable (V : (c : Dev nD) → (b : Ref sig .tc) → Buf (Elt Ideal) ((c : Thread nD τ).loc b))

/-- A block at index (0, 0) that is as large as its array is the whole array. -/
theorem iblk2_eq (c : Dev nD) (t : Fin cfg2.N) :
    (iblk2 V c 1 t : Vec Ideal S128x128 .f32) = V c (Pipeline.arrRef spec2 1) ∧ (iblk2 V c 2 t : Vec Ideal S1x128 .f32) = V c (Pipeline.arrRef spec2 2)
    ∧ (iblk2 V c 3 t : Vec Ideal S1x128 .f32) = V c (Pipeline.arrRef spec2 3) ∧ (iblk2 V c 4 t : Vec Ideal S1x128 .f32) = V c (Pipeline.arrRef spec2 4)
    ∧ (iblk2 V c 5 t : Vec Ideal S128x128 .f32) = V c (Pipeline.arrRef spec2 5) ∧ (iblk2 V c 6 t : Vec Ideal S1x128 .f32) = V c (Pipeline.arrRef spec2 6) := by
  refine ⟨?_, ?_, ?_, ?_, ?_, ?_⟩ <;>
    exact Memref.read_access_unit_zero _ _ (funext fun a => match a with | ⟨0, _⟩ => rfl | ⟨1, _⟩ => rfl) _ _

set_option maxHeartbeats 1000000 in
/-- The input tile and the output tile are the same rows of their arrays, and the dense block at a row reads only that row of the input. -/
theorem flushed2_eq (c : Dev nD) (t : Fin cfg2.N) :
    (dat2 (F := Ideal) V c).flushed 7 t = ((cfg2.win 7).blk t).view.read (Elt Ideal)
      (mlpAt (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))) := by
  show (cfg2.win 7).cut (grid2.coords t) ((dat2 (F := Ideal) V c).after 7 t) = _
  rw [after2_7]
  unfold out2_7
  rw [View.canon_unit_zero zeros2]
  simp only [View.ld_unit_zero (S := S2000x128) zeros2, View.ld_unit_zero (S := S128x128) zeros2, View.ld_unit_zero (S := S1x128) zeros2, iblk2_eq V c t]
  funext y
  show k2_pay1 (F := Ideal) _ _ _ _ _ _ _ y = mlpAt _ _ _ _ _ _ _ (((cfg2.win 7).blk t).view.emb y)
  refine mlp_point _ _ _ _ _ _ _ _ y _ (fun k => ?_) ?_
  · exact congrArg (V c (Pipeline.arrRef spec2 0)) (Shape.idx_ext₂ rfl (win2_0.rect_emb_val_of_index_zero t 1 rfl _))
  · exact Fin.ext (win2_7.rect_emb_val_of_index_zero t 1 rfl y).symm

theorem row2 : ∀ t : Fin cfg2.N, win2_7.index t 0 = t.val := (by decide +kernel : ∀ t : Fin grid2.N, _)

/-- Row r of the output array is in the block of point r / 2000. -/
theorem cover2 (i : S100000x128.Idx) : ∃ t : Fin cfg2.N, (cfg2.win 7).flush t = true ∧ i ∈ ((cfg2.win 7).blk t).view.set := by
  have h0 : (i 0).val < 100000 := (i 0).isLt
  have h1 : (i 1).val < 128 := (i 1).isLt
  have ht : (i 0).val / 2000 < cfg2.N := by rw [show cfg2.N = 50 from N_2]; omega
  refine ⟨⟨_, ht⟩, flush2_7 _, ?_⟩
  rw [View.set_slice_whole, Rect.mem_set_unit]
  intro a
  match a with
  | ⟨0, _⟩ =>
    show win2_7.index ⟨_, ht⟩ 0 * 2000 ≤ (i 0).val ∧ (i 0).val < win2_7.index ⟨_, ht⟩ 0 * 2000 + 2000
    rw [row2]
    show (i 0).val / 2000 * 2000 ≤ (i 0).val ∧ (i 0).val < (i 0).val / 2000 * 2000 + 2000
    omega
  | ⟨1, _⟩ => show 0 * 128 ≤ (i 1).val ∧ (i 1).val < 0 * 128 + 128; omega

theorem mlp_final2 (c : Dev nD) (n : Fin 100000) (j : Fin 128) :
    ((dat2 (F := Ideal) V c).arrAt 7 cfg2.N : Vec Ideal S100000x128 .f32) (ix2 n j)
      = Cert.Spec.mlp
          (fun k y => y * (V c (Pipeline.arrRef spec2 3) : Vec Ideal S1x128 .f32) (ix2 (0 : Fin 1) k) + (V c (Pipeline.arrRef spec2 4) : Vec Ideal S1x128 .f32) (ix2 (0 : Fin 1) k))
          (fun n i => (V c (Pipeline.arrRef spec2 0) : Vec Ideal S100000x128 .f32) (ix2 n i))
          (fun i k => (V c (Pipeline.arrRef spec2 1) : Vec Ideal S128x128 .f32) (ix2 i k))
          (fun k => (V c (Pipeline.arrRef spec2 2) : Vec Ideal S1x128 .f32) (ix2 (0 : Fin 1) k))
          (fun k j => (V c (Pipeline.arrRef spec2 5) : Vec Ideal S128x128 .f32) (ix2 k j))
          (fun j => (V c (Pipeline.arrRef spec2 6) : Vec Ideal S1x128 .f32) (ix2 (0 : Fin 1) j)) n j :=
  congrFun ((dat2 (F := Ideal) V c).arrAt_eq_of_cover 7 _ (fun t _ => flushed2_eq V c t) cover2) (ix2 n j)

end Cert.KernelIdeal.Hand
end
-- ==== Proof.KI.HostVals1.lean ====
import proofs.«416174_j54228257079641_1_alg».proof.Proof.KI.HostDefs

set_option maxRecDepth 16384

noncomputable section

namespace Cert.KernelIdeal.Hand

open Cert.KernelIdeal.Gen Idealize.ShloMosaic Idealize.ShloMosaic.TcCoe Idealize.ShloMosaic.ValueIdx

variable (m : (ℓ : Loc nD τ sig) → Buf (Elt Ideal) ℓ) (outs : Gen.Outs (F := Ideal))

set_option maxHeartbeats 1000000 in
theorem host1_z (c : Dev nD) :
    (Gen.V4 m outs c main_v64 : FVec Ideal S100000x128 .f32)
      = kZ (F := Ideal) (kEps (m ((c : Thread nD τ).loc main_arg3) : FVec Ideal S3 .f32) 1 slices_S3_S1_1)
          (Gen.V3 m outs c main_v47) (Gen.V1 m c main_v1) (Gen.V1 m c main_v3) :=
  z_at (by dsimp only [Gen.V4]; after_results_simp; rfl) (V3_back main_arg3) (V3_to1 main_v1) (V3_to1 main_v3)

set_option maxHeartbeats 400000

theorem host1_W1 (c : Dev nD) (i k : Fin 128) :
    (Gen.V4 m outs c main_v80 : FVec Ideal S128x128 .f32) (ix2 i k)
      = (m ((c : Thread nD τ).loc main_arg4) : FVec Ideal S3x128x128 .f32) (ix3 (1 : Fin 3) i k) :=
  mat_at (by dsimp only [Gen.V4]; after_results_simp; rfl) (V3_back main_arg4)

theorem host1_W2 (c : Dev nD) (k j : Fin 128) :
    (Gen.V4 m outs c main_v84 : FVec Ideal S128x128 .f32) (ix2 k j)
      = (m ((c : Thread nD τ).loc main_arg10) : FVec Ideal S3x128x128 .f32) (ix3 (1 : Fin 3) k j) :=
  mat_at (by dsimp only [Gen.V4]; after_results_simp; rfl) (V3_back main_arg10)

theorem host1_b1 (c : Dev nD) (k : Fin 128) :
    (Gen.V4 m outs c main_v87 : FVec Ideal S1x128 .f32) (ix2 (0 : Fin 1) k) = (m ((c : Thread nD τ).loc main_arg5) : FVec Ideal S3x128 .f32) (ix2 (1 : Fin 3) k) :=
  row_at (by dsimp only [Gen.V4]; after_results_simp; rfl) (V3_back main_arg5)

theorem host1_b2 (c : Dev nD) (j : Fin 128) :
    (Gen.V4 m outs c main_v90 : FVec Ideal S1x128 .f32) (ix2 (0 : Fin 1) j) = (m ((c : Thread nD τ).loc main_arg11) : FVec Ideal S3x128 .f32) (ix2 (1 : Fin 3) j) :=
  row_at (by dsimp only [Gen.V4]; after_results_simp; rfl) (V3_back main_arg11)

theorem host1_scale (c : Dev nD) (k : Fin 128) (g v : FVec Ideal S3x128 .f32)
    (hg : g = (m ((c : Thread nD τ).loc main_arg6) : FVec Ideal S3x128 .f32)) (hv : v = (m ((c : Thread nD τ).loc main_arg9) : FVec Ideal S3x128 .f32)) :
    (Gen.V4 m outs c main_v88 : FVec Ideal S1x128 .f32) (ix2 (0 : Fin 1) k)
      = g (ix2 (1 : Fin 3) k) * Ideal.rsqrt (v (ix2 (1 : Fin 3) k) + Ideal.ofBits .f32 0x3727C5AC#32) := by
  subst hg hv
  exact scale_at (by dsimp only [Gen.V4]; after_results_simp; rfl) (V3_back main_arg6) (V3_back main_arg9)

theorem host1_shift (c : Dev nD) (k : Fin 128) (b mu g v : FVec Ideal S3x128 .f32)
    (hb : b = (m ((c : Thread nD τ).loc main_arg7) : FVec Ideal S3x128 .f32)) (hmu : mu = (m ((c : Thread nD τ).loc main_arg8) : FVec Ideal S3x128 .f32))
    (hg : g = (m ((c : Thread nD τ).loc main_arg6) : FVec Ideal S3x128 .f32)) (hv : v = (m ((c : Thread nD τ).loc main_arg9) : FVec Ideal S3x128 .f32)) :
    (Gen.V4 m outs c main_v89 : FVec Ideal S1x128 .f32) (ix2 (0 : Fin 1) k)
      = b (ix2 (1 : Fin 3) k)
        - mu (ix2 (1 : Fin 3) k)
          * (g (ix2 (1 : Fin 3) k) * Ideal.rsqrt (v (ix2 (1 : Fin 3) k) + Ideal.ofBits .f32 0x3727C5AC#32)) := by
  subst hb hmu hg hv
  exact shift_at (by dsimp only [Gen.V4]; after_results_simp; rfl) (V3_back main_arg7) (V3_back main_arg8) (V3_back main_arg6)
    (V3_back main_arg9)

end Cert.KernelIdeal.Hand
-- ==== Proof.KI.MlpValue4.lean ====
import proofs.«416174_j54228257079641_1_alg».proof.Proof.KI.MlpRegion4
import proofs.«416174_j54228257079641_1_alg».proof.Proof.KI.MlpPay
import Idealize.ShloMosaic.Lib.Pipeline.Value

noncomputable section

namespace Cert.KernelIdeal.Hand

open Cert.KernelIdeal Cert.KernelIdeal.Gen
open Idealize.ShloMosaic Idealize.ShloMosaic.TcCoe
open Idealize.SL.Sem
open Idealize.ShloMosaic.ValueIdx

variable (V : (c : Dev nD) → (b : Ref sig .tc) → Buf (Elt Ideal) ((c : Thread nD τ).loc b))

/-- A block at index (0, 0) that is as large as its array is the whole array. -/
theorem iblk4_eq (c : Dev nD) (t : Fin cfg4.N) :
    (iblk4 V c 1 t : Vec Ideal S128x128 .f32) = V c (Pipeline.arrRef spec4 1) ∧ (iblk4 V c 2 t : Vec Ideal S1x128 .f32) = V c (Pipeline.arrRef spec4 2)
    ∧ (iblk4 V c 3 t : Vec Ideal S1x128 .f32) = V c (Pipeline.arrRef spec4 3) ∧ (iblk4 V c 4 t : Vec Ideal S1x128 .f32) = V c (Pipeline.arrRef spec4 4)
    ∧ (iblk4 V c 5 t : Vec Ideal S128x128 .f32) = V c (Pipeline.arrRef spec4 5) ∧ (iblk4 V c 6 t : Vec Ideal S1x128 .f32) = V c (Pipeline.arrRef spec4 6) := by
  refine ⟨?_, ?_, ?_, ?_, ?_, ?_⟩ <;>
    exact Memref.read_access_unit_zero _ _ (funext fun a => match a with | ⟨0, _⟩ => rfl | ⟨1, _⟩ => rfl) _ _

set_option maxHeartbeats 1000000 in
/-- The input tile and the output tile are the same rows of their arrays, and the dense block at a row reads only that row of the input. -/
theorem flushed4_eq (c : Dev nD) (t : Fin cfg4.N) :
    (dat4 (F := Ideal) V c).flushed 7 t = ((cfg4.win 7).blk t).view.read (Elt Ideal)
      (mlpAt (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6))) := by
  show (cfg4.win 7).cut (grid4.coords t) ((dat4 (F := Ideal) V c).after 7 t) = _
  rw [after4_7]
  unfold out4_7
  rw [View.canon_unit_zero zeros2]
  simp only [View.ld_unit_zero (S := S2000x128) zeros2, View.ld_unit_zero (S := S128x128) zeros2, View.ld_unit_zero (S := S1x128) zeros2, iblk4_eq V c t]
  funext y
  show k4_pay1 (F := Ideal) _ _ _ _ _ _ _ y = mlpAt _ _ _ _ _ _ _ (((cfg4.win 7).blk t).view.emb y)
  refine mlp_point _ _ _ _ _ _ _ _ y _ (fun k => ?_) ?_
  · exact congrArg (V c (Pipeline.arrRef spec4 0)) (Shape.idx_ext₂ rfl (win4_0.rect_emb_val_of_index_zero t 1 rfl _))
  · exact Fin.ext (win4_7.rect_emb_val_of_index_zero t 1 rfl y).symm

theorem row4 : ∀ t : Fin cfg4.N, win4_7.index t 0 = t.val := (by decide +kernel : ∀ t : Fin grid4.N, _)

/-- Row r of the output array is in the block of point r / 2000. -/
theorem cover4 (i : S100000x128.Idx) : ∃ t : Fin cfg4.N, (cfg4.win 7).flush t = true ∧ i ∈ ((cfg4.win 7).blk t).view.set := by
  have h0 : (i 0).val < 100000 := (i 0).isLt
  have h1 : (i 1).val < 128 := (i 1).isLt
  have ht : (i 0).val / 2000 < cfg4.N := by rw [show cfg4.N = 50 from N_4]; omega
  refine ⟨⟨_, ht⟩, flush4_7 _, ?_⟩
  rw [View.set_slice_whole, Rect.mem_set_unit]
  intro a
  match a with
  | ⟨0, _⟩ =>
    show win4_7.index ⟨_, ht⟩ 0 * 2000 ≤ (i 0).val ∧ (i 0).val < win4_7.index ⟨_, ht⟩ 0 * 2000 + 2000
    rw [row4]
    show (i 0).val / 2000 * 2000 ≤ (i 0).val ∧ (i 0).val < (i 0).val / 2000 * 2000 + 2000
    omega
  | ⟨1, _⟩ => show 0 * 128 ≤ (i 1).val ∧ (i 1).val < 0 * 128 + 128; omega

theorem mlp_final4 (c : Dev nD) (n : Fin 100000) (j : Fin 128) :
    ((dat4 (F := Ideal) V c).arrAt 7 cfg4.N : Vec Ideal S100000x128 .f32) (ix2 n j)
      = Cert.Spec.mlp
          (fun k y => y * (V c (Pipeline.arrRef spec4 3) : Vec Ideal S1x128 .f32) (ix2 (0 : Fin 1) k) + (V c (Pipeline.arrRef spec4 4) : Vec Ideal S1x128 .f32) (ix2 (0 : Fin 1) k))
          (fun n i => (V c (Pipeline.arrRef spec4 0) : Vec Ideal S100000x128 .f32) (ix2 n i))
          (fun i k => (V c (Pipeline.arrRef spec4 1) : Vec Ideal S128x128 .f32) (ix2 i k))
          (fun k => (V c (Pipeline.arrRef spec4 2) : Vec Ideal S1x128 .f32) (ix2 (0 : Fin 1) k))
          (fun k j => (V c (Pipeline.arrRef spec4 5) : Vec Ideal S128x128 .f32) (ix2 k j))
          (fun j => (V c (Pipeline.arrRef spec4 6) : Vec Ideal S1x128 .f32) (ix2 (0 : Fin 1) j)) n j :=
  congrFun ((dat4 (F := Ideal) V c).arrAt_eq_of_cover 7 _ (fun t _ => flushed4_eq V c t) cover4) (ix2 n j)

end Cert.KernelIdeal.Hand
end
-- ==== Proof.KI.HostVals2.lean ====
import proofs.«416174_j54228257079641_1_alg».proof.Proof.KI.HostDefs

set_option maxRecDepth 16384

noncomputable section

namespace Cert.KernelIdeal.Hand

open Cert.KernelIdeal.Gen Idealize.ShloMosaic Idealize.ShloMosaic.TcCoe Idealize.ShloMosaic.ValueIdx

variable (m : (ℓ : Loc nD τ sig) → Buf (Elt Ideal) ℓ) (outs : Gen.Outs (F := Ideal))

set_option maxHeartbeats 1000000 in
theorem host2_z (c : Dev nD) :
    (Gen.V7 m outs c main_v108 : FVec Ideal S100000x128 .f32)
      = kZ (F := Ideal) (kEps (m ((c : Thread nD τ).loc main_arg3) : FVec Ideal S3 .f32) 2 slices_S3_S1_2)
          (Gen.V6 m outs c main_v91) (Gen.V1 m c main_v1) (Gen.V1 m c main_v3) :=
  z_at (by dsimp only [Gen.V7]; after_results_simp; rfl) (V6_back main_arg3) (V6_to1 main_v1) (V6_to1 main_v3)

set_option maxHeartbeats 400000

theorem host2_W1 (c : Dev nD) (i k : Fin 128) :
    (Gen.V7 m outs c main_v124 : FVec Ideal S128x128 .f32) (ix2 i k)
      = (m ((c : Thread nD τ).loc main_arg4) : FVec Ideal S3x128x128 .f32) (ix3 (2 : Fin 3) i k) :=
  mat_at (by dsimp only [Gen.V7]; after_results_simp; rfl) (V6_back main_arg4)

theorem host2_W2 (c : Dev nD) (k j : Fin 128) :
    (Gen.V7 m outs c main_v128 : FVec Ideal S128x128 .f32) (ix2 k j)
      = (m ((c : Thread nD τ).loc main_arg10) : FVec Ideal S3x128x128 .f32) (ix3 (2 : Fin 3) k j) :=
  mat_at (by dsimp only [Gen.V7]; after_results_simp; rfl) (V6_back main_arg10)

theorem host2_b1 (c : Dev nD) (k : Fin 128) :
    (Gen.V7 m outs c main_v131 : FVec Ideal S1x128 .f32) (ix2 (0 : Fin 1) k) = (m ((c : Thread nD τ).loc main_arg5) : FVec Ideal S3x128 .f32) (ix2 (2 : Fin 3) k) :=
  row_at (by dsimp only [Gen.V7]; after_results_simp; rfl) (V6_back main_arg5)

theorem host2_b2 (c : Dev nD) (j : Fin 128) :
    (Gen.V7 m outs c main_v134 : FVec Ideal S1x128 .f32) (ix2 (0 : Fin 1) j) = (m ((c : Thread nD τ).loc main_arg11) : FVec Ideal S3x128 .f32) (ix2 (2 : Fin 3) j) :=
  row_at (by dsimp only [Gen.V7]; after_results_simp; rfl) (V6_back main_arg11)

theorem host2_scale (c : Dev nD) (k : Fin 128) (g v : FVec Ideal S3x128 .f32)
    (hg : g = (m ((c : Thread nD τ).loc main_arg6) : FVec Ideal S3x128 .f32)) (hv : v = (m ((c : Thread nD τ).loc main_arg9) : FVec Ideal S3x128 .f32)) :
    (Gen.V7 m outs c main_v132 : FVec Ideal S1x128 .f32) (ix2 (0 : Fin 1) k)
      = g (ix2 (2 : Fin 3) k) * Ideal.rsqrt (v (ix2 (2 : Fin 3) k) + Ideal.ofBits .f32 0x3727C5AC#32) := by
  subst hg hv
  exact scale_at (by dsimp only [Gen.V7]; after_results_simp; rfl) (V6_back main_arg6) (V6_back main_arg9)

theorem host2_shift (c : Dev nD) (k : Fin 128) (b mu g v : FVec Ideal S3x128 .f32)
    (hb : b = (m ((c : Thread nD τ).loc main_arg7) : FVec Ideal S3x128 .f32)) (hmu : mu = (m ((c : Thread nD τ).loc main_arg8) : FVec Ideal S3x128 .f32))
    (hg : g = (m ((c : Thread nD τ).loc main_arg6) : FVec Ideal S3x128 .f32)) (hv : v = (m ((c : Thread nD τ).loc main_arg9) : FVec Ideal S3x128 .f32)) :
    (Gen.V7 m outs c main_v133 : FVec Ideal S1x128 .f32) (ix2 (0 : Fin 1) k)
      = b (ix2 (2 : Fin 3) k)
        - mu (ix2 (2 : Fin 3) k)
          * (g (ix2 (2 : Fin 3) k) * Ideal.rsqrt (v (ix2 (2 : Fin 3) k) + Ideal.ofBits .f32 0x3727C5AC#32)) := by
  subst hb hmu hg hv
  exact shift_at (by dsimp only [Gen.V7]; after_results_simp; rfl) (V6_back main_arg7) (V6_back main_arg8) (V6_back main_arg6)
    (V6_back main_arg9)

end Cert.KernelIdeal.Hand
-- ==== Proof.Cross.lean ====
import proofs.«416174_j54228257079641_1_alg».proof.Proof.KI.HostDefs
import proofs.«416174_j54228257079641_1_alg».proof.Proof.RefLayer

set_option maxRecDepth 8192

noncomputable section

namespace Cert.Cross

open Idealize.ShloMosaic

variable {F : FTy → Type} [FloatOps F]

theorem kZ_eq_rZ (e : FVec F Cert.KernelIdeal.S_ .f32) (h : FVec F Cert.KernelIdeal.S100000x128 .f32)
    (ei : IVec Cert.KernelIdeal.S2x640000 32)
    (h0 : Cert.KernelIdeal.S2x640000.Slices ![0, 0] Cert.KernelIdeal.S1x640000)
    (h1 : Cert.KernelIdeal.S2x640000.Slices ![1, 0] Cert.KernelIdeal.S1x640000) :
    Cert.KernelIdeal.Hand.kZ e h (Cert.KernelIdeal.Hand.kEdge ei 0 h0) (Cert.KernelIdeal.Hand.kEdge ei 1 h1)
      = Cert.ReferenceIdeal.Hand.rZ e h ei := by
  unfold Cert.KernelIdeal.Hand.kZ Cert.ReferenceIdeal.Hand.rZ Cert.ReferenceIdeal.Hand.rAgg Cert.KernelIdeal.Hand.kEdge
  rfl

theorem kTail_eq_rTail (p : FVec F Cert.KernelIdeal.S512x128 .f32) (l1W : FVec F Cert.KernelIdeal.S128x128 .f32)
    (l1b : FVec F Cert.KernelIdeal.S128 .f32) (l2W : FVec F Cert.KernelIdeal.S128x16 .f32)
    (l2b : FVec F Cert.KernelIdeal.S16 .f32) :
    Cert.KernelIdeal.Hand.kTail p l1W l1b l2W l2b = Cert.ReferenceIdeal.Hand.rTail p l1W l1b l2W l2b := by
  unfold Cert.KernelIdeal.Hand.kTail Cert.ReferenceIdeal.Hand.rTail
  rfl

end Cert.Cross

end
-- ==== Proof.Core.lean ====
import proofs.«416174_j54228257079641_1_alg».proof.Proof.Spec
import Idealize.ShloMosaic.Lib.IdealHost

noncomputable section

namespace Cert.Core
open Idealize.ShloMosaic

private theorem epsB_val :
    Ideal.ofBits .f32 0x3727C5AC#32 = (((10995116 : ℝ) * (2 : ℝ) ^ (-40 : ℤ) : ℝ) : EReal) := by
  simp [Ideal.ofBits, Ideal.ieee, -EReal.coe_mul]

theorem epsB_pos : ∃ e : ℝ, 0 < e ∧ Ideal.ofBits .f32 0x3727C5AC#32 = (e : EReal) :=
  ⟨(10995116 : ℝ) * (2 : ℝ) ^ (-40 : ℤ), by positivity, epsB_val⟩

theorem bn_entry (g b mm v : ℝ) (hv : 0 ≤ v) (y : EReal) :
    y * ((g : EReal) * Ideal.rsqrt ((v : EReal) + Ideal.ofBits .f32 0x3727C5AC#32))
        + ((b : EReal) - (mm : EReal) * ((g : EReal) * Ideal.rsqrt ((v : EReal) + Ideal.ofBits .f32 0x3727C5AC#32)))
      = Cert.Spec.bnR (g : EReal) (Ideal.rsqrt ((v : EReal) + Ideal.ofBits .f32 0x3727C5AC#32)) (b : EReal) (mm : EReal) y := by
  obtain ⟨e, he, hE⟩ := epsB_pos
  obtain ⟨r, hr, hR⟩ := Cert.Spec.rsqrt_pos v e hv he

  rw [hE, hR]
  exact Cert.Spec.bn_law g r b mm hr y

theorem mlp_kernel_eq_ref {N : Nat} (G B M Vr : Fin 128 → EReal)
    (hreal : ∀ k, ∃ g b mm v : ℝ, 0 ≤ v ∧ G k = (g : EReal) ∧ B k = (b : EReal) ∧ M k = (mm : EReal) ∧ Vr k = (v : EReal))
    (Z : Fin N → Fin 128 → EReal) (W1 : Fin 128 → Fin 128 → EReal) (b1 : Fin 128 → EReal) (W2 : Fin 128 → Fin 128 → EReal) (b2 : Fin 128 → EReal) (n : Fin N) (j : Fin 128) :
    Cert.Spec.mlp (fun k y => y * (G k * Ideal.rsqrt (Vr k + Ideal.ofBits .f32 0x3727C5AC#32)) + (B k - M k * (G k * Ideal.rsqrt (Vr k + Ideal.ofBits .f32 0x3727C5AC#32)))) Z W1 b1 W2 b2 n j
      = Cert.Spec.mlp (fun k y => Cert.Spec.bnR (G k) (Ideal.rsqrt (Vr k + Ideal.ofBits .f32 0x3727C5AC#32)) (B k) (M k) y) Z W1 b1 W2 b2 n j := by
  refine Cert.Spec.mlp_congr_bn (fun k y => ?_) Z W1 b1 W2 b2 n j
  obtain ⟨g, b, mm, v, hv, hG, hB, hM, hV⟩ := hreal k
  simp only [hG, hB, hM, hV]
  exact bn_entry g b mm v hv y

end Cert.Core
-- ==== Proof.BridgeCore.lean ====
import proofs.«416174_j54228257079641_1_alg».proof.Proof.Spec
import proofs.«416174_j54228257079641_1_alg».proof.Proof.Core
import Idealize.ShloMosaic.Lib.ValueIdx

noncomputable section

namespace Cert.BridgeCore
open Idealize.ShloMosaic Idealize.ShloMosaic.ValueIdx

abbrev Arr2 (r c : Nat) := (⟨2, ![r, c]⟩ : Shape).Idx → EReal

abbrev Arr3 (a r c : Nat) := (⟨3, ![a, r, c]⟩ : Shape).Idx → EReal

theorem layer_eq (L : Fin 3)
    (kOut Zk : Arr2 100000 128) (W1k : Arr2 128 128) (b1k sck shk : Arr2 1 128) (W2k : Arr2 128 128) (b2k : Arr2 1 128)
    (hk : ∀ (n : Fin 100000) (j : Fin 128), kOut (ix2 n j) = Cert.Spec.mlp (fun k y => y * sck (ix2 (0 : Fin 1) k) + shk (ix2 (0 : Fin 1) k))
        (fun n i => Zk (ix2 n i)) (fun i k => W1k (ix2 i k)) (fun k => b1k (ix2 (0 : Fin 1) k)) (fun k j => W2k (ix2 k j)) (fun j => b2k (ix2 (0 : Fin 1) j)) n j)
    (A4 A10 : Arr3 3 128 128) (A5 A6 A7 A8 A9 A11 : Arr2 3 128)
    (hW1 : ∀ i k, W1k (ix2 i k) = A4 (ix3 L i k)) (hb1 : ∀ k, b1k (ix2 (0 : Fin 1) k) = A5 (ix2 L k))
    (hsc : ∀ k, sck (ix2 (0 : Fin 1) k) = A6 (ix2 L k) * Ideal.rsqrt (A9 (ix2 L k) + Ideal.ofBits .f32 0x3727C5AC#32))
    (hsh : ∀ k, shk (ix2 (0 : Fin 1) k) = A7 (ix2 L k) - A8 (ix2 L k) * (A6 (ix2 L k) * Ideal.rsqrt (A9 (ix2 L k) + Ideal.ofBits .f32 0x3727C5AC#32)))
    (hW2 : ∀ k j, W2k (ix2 k j) = A10 (ix3 L k j)) (hb2 : ∀ j, b2k (ix2 (0 : Fin 1) j) = A11 (ix2 L j))
    (hreal : ∀ k, ∃ g b mm v : ℝ, 0 ≤ v ∧ A6 (ix2 L k) = (g : EReal) ∧ A7 (ix2 L k) = (b : EReal) ∧ A8 (ix2 L k) = (mm : EReal) ∧ A9 (ix2 L k) = (v : EReal))
    (rOut Zr : Arr2 100000 128)
    (hr : ∀ (n : Fin 100000) (j : Fin 128), rOut (ix2 n j) = Cert.Spec.mlp
        (fun k y => Cert.Spec.bnR (A6 (ix2 L k)) (Ideal.rsqrt (A9 (ix2 L k) + Ideal.ofBits .f32 0x3727C5AC#32)) (A7 (ix2 L k)) (A8 (ix2 L k)) y)
        (fun n i => Zr (ix2 n i)) (fun i k => A4 (ix3 L i k)) (fun k => A5 (ix2 L k)) (fun k j => A10 (ix3 L k j)) (fun j => A11 (ix2 L j)) n j)
    (hZ : Zk = Zr) : kOut = rOut := by
  funext idx
  obtain ⟨n, j, rfl⟩ : ∃ (n : Fin 100000) (j : Fin 128), idx = ix2 n j := ⟨idx 0, idx 1, eq_ix2 idx⟩
  rw [hk, hr]
  subst hZ

  have e1 : (fun i k => W1k (ix2 i k)) = (fun i k => A4 (ix3 L i k)) := funext fun i => funext fun k => hW1 i k
  have e2 : (fun k => b1k (ix2 (0 : Fin 1) k)) = (fun k => A5 (ix2 L k)) := funext hb1
  have e3 : (fun k j => W2k (ix2 k j)) = (fun k j => A10 (ix3 L k j)) := funext fun k => funext fun j => hW2 k j
  have e4 : (fun j => b2k (ix2 (0 : Fin 1) j)) = (fun j => A11 (ix2 L j)) := funext hb2
  have e5 : (fun (k : Fin 128) (y : EReal) => y * sck (ix2 (0 : Fin 1) k) + shk (ix2 (0 : Fin 1) k))
      = (fun k y => y * (A6 (ix2 L k) * Ideal.rsqrt (A9 (ix2 L k) + Ideal.ofBits .f32 0x3727C5AC#32))
          + (A7 (ix2 L k) - A8 (ix2 L k) * (A6 (ix2 L k) * Ideal.rsqrt (A9 (ix2 L k) + Ideal.ofBits .f32 0x3727C5AC#32)))) :=
    funext fun k => funext fun y => by rw [hsc, hsh]
  rw [e1, e2, e3, e4, e5]
  exact Cert.Core.mlp_kernel_eq_ref (fun k => A6 (ix2 L k)) (fun k => A7 (ix2 L k)) (fun k => A8 (ix2 L k)) (fun k => A9 (ix2 L k))
    hreal _ _ _ _ _ n j

theorem pool_eq (kP rP : Arr2 512 128) (hk hr : Arr2 100000 128)
    (labk : (⟨2, ![100000, 1]⟩ : Shape).Idx → BitVec 32) (labr : (⟨1, ![100000]⟩ : Shape).Idx → BitVec 32)
    (hkp : ∀ (g : Fin 512) (j : Fin 128), kP (ix2 g j) = Cert.Spec.pool (fun e k => hk (ix2 e k)) (fun e => labk (ix2 e (0 : Fin 1))) g j)
    (hrp : ∀ (g : Fin 512) (j : Fin 128), rP (ix2 g j) = Cert.Spec.pool (fun e k => hr (ix2 e k)) (fun e => labr (ix1 e)) g j)
    (hh : hk = hr) (hl : ∀ e : Fin 100000, labk (ix2 e (0 : Fin 1)) = labr (ix1 e)) : kP = rP := by
  funext idx
  obtain ⟨g, j, rfl⟩ : ∃ (g : Fin 512) (j : Fin 128), idx = ix2 g j := ⟨idx 0, idx 1, eq_ix2 idx⟩
  rw [hkp, hrp]
  subst hh

  have hlab : (fun e : Fin 100000 => labk (ix2 e (0 : Fin 1))) = (fun e => labr (ix1 e)) := funext hl
  rw [hlab]

end Cert.BridgeCore
-- ==== Proof.PreFacts.lean ====
import proofs.«416174_j54228257079641_1_alg».proof.Pre_finite_inputs
import proofs.«416174_j54228257079641_1_alg».proof.Proof.Gen.Pre_finite_inputs
import Idealize.ShloMosaic.Lib.ReduceAll
import Idealize.ShloMosaic.Lib.ValueIdx
import Idealize.ShloMosaic.Lib.StableHlo.Predicate
import Idealize.ShloMosaic.PureOps.Ideal
import Idealize.ShloMosaic.PureOps.Ideal.Laws

noncomputable section

namespace Cert.PreFacts

open Idealize.ShloMosaic Idealize.ShloMosaic.ValueIdx
open Cert.Pre_finite_inputs

instance : Subsingleton S_.Idx := ⟨fun a b => funext fun d => d.elim0⟩

theorem real_of_abs_lt (x : EReal)
    (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  unfold Ideal.cmp at h
  rw [StableHlo.Predicate.ofBool_eq_one_iff] at h
  simp only [decide_eq_true_eq] at h
  induction x using EReal.rec with
  | bot => simp at h
  | coe r => exact ⟨r, rfl⟩
  | top => simp at h

theorem nonneg_of_ge (x : EReal)
    (h : Ideal.cmp .oge x (Ideal.ofBits .f32 0x00000000#32) = 1#1) : 0 ≤ x := by
  rw [Ideal.ofBits_zero_f32] at h
  unfold Ideal.cmp at h
  rw [StableHlo.Predicate.ofBool_eq_one_iff] at h
  simpa only [decide_eq_true_eq] using h

theorem entry_real [hF : Cert.Pre_finite_inputs.Facts] (a : FVec Ideal S3x128 .f32) (init : IVec S_ 1)
    (h : Host.reduce IntOp.andi
          (cmpf .olt (Host.absf (F := Ideal) a)
            (broadcastInDim S3x128 ![] Facts.bcast_S_S3x128 (constant (F := Ideal) S_ .f32 0x7F800000#32)))
          init Facts.reducesTo_S3x128_S_d0_1 Facts.h_S_ ix0 = 1#1)
    (i : S3x128.Idx) : ∃ r : ℝ, a i = (r : EReal) :=
  real_of_abs_lt (a i) (Host.reduce_andi_all _ _ _ _ _ h i)

theorem entry_nonneg [hF : Cert.Pre_finite_inputs.Facts] (a : FVec Ideal S3x128 .f32) (init : IVec S_ 1)
    (h : Host.reduce IntOp.andi
          (cmpf .oge a (broadcastInDim S3x128 ![] Facts.bcast_S_S3x128 (constant (F := Ideal) S_ .f32 0x00000000#32)))
          init Facts.reducesTo_S3x128_S_d0_1 Facts.h_S_ ix0 = 1#1)
    (i : S3x128.Idx) : 0 ≤ a i :=
  nonneg_of_ge (a i) (Host.reduce_andi_all _ _ _ _ _ h i)

theorem params_real [hF : Cert.Pre_finite_inputs.Facts]
    (a0 : FVec Ideal S100000x128 .f32) (a1 : IVec S2x640000 32) (a2 : IVec S100000 32) (a3 : FVec Ideal S3 .f32) (a4 : FVec Ideal S3x128x128 .f32)
    (a5 a6 a7 a8 a9 : FVec Ideal S3x128 .f32) (a10 : FVec Ideal S3x128x128 .f32) (a11 : FVec Ideal S3x128 .f32) (a12 : FVec Ideal S128x128 .f32)
    (a13 : FVec Ideal S128 .f32) (a14 : FVec Ideal S128x16 .f32) (a15 : FVec Ideal S16 .f32)
    (h : Cert.Pre_finite_inputs.fn (F := Ideal) a0 a1 a2 a3 a4 a5 a6 a7 a8 a9 a10 a11 a12 a13 a14 a15 = (fun _ => 1#1))
    (l : Fin 3) (k : Fin 128) :
    ∃ g b mm v : ℝ, 0 ≤ v ∧ a6 (ix2 l k) = (g : EReal) ∧ a7 (ix2 l k) = (b : EReal) ∧ a8 (ix2 l k) = (mm : EReal) ∧ a9 (ix2 l k) = (v : EReal) := by
  have e := congrFun h ix0
  dsimp only [fn, fn_part1, fn_part2, fn_part3, fn_part4] at e
  simp only [andi, IntOp.andi_eq_one] at e
  obtain ⟨⟨⟨⟨⟨⟨⟨⟨⟨⟨⟨-, h6⟩, h7⟩, h8⟩, h9⟩, -⟩, -⟩, -⟩, -⟩, -⟩, -⟩, hge⟩ := e
  obtain ⟨g, hg⟩ := entry_real a6 _ h6 (ix2 l k)
  obtain ⟨b, hb⟩ := entry_real a7 _ h7 (ix2 l k)
  obtain ⟨mm, hmm⟩ := entry_real a8 _ h8 (ix2 l k)
  obtain ⟨v, hv⟩ := entry_real a9 _ h9 (ix2 l k)
  have h0 := entry_nonneg a9 _ hge (ix2 l k)
  rw [hv] at h0
  exact ⟨g, b, mm, v, EReal.coe_nonneg.1 h0, hg, hb, hmm, hv⟩

end Cert.PreFacts

end
-- ==== Proof.Bridge1.lean ====
import proofs.«416174_j54228257079641_1_alg».proof.Defs
import proofs.«416174_j54228257079641_1_alg».proof.Proof.Gen.Pre_finite_inputs
import proofs.«416174_j54228257079641_1_alg».proof.Proof.KI.Run
import proofs.«416174_j54228257079641_1_alg».proof.Proof.KI.MlpValue0
import proofs.«416174_j54228257079641_1_alg».proof.Proof.KI.HostVals
import proofs.«416174_j54228257079641_1_alg».proof.Proof.KI.MlpValue2
import proofs.«416174_j54228257079641_1_alg».proof.Proof.KI.HostVals1
import proofs.«416174_j54228257079641_1_alg».proof.Proof.KI.MlpValue4
import proofs.«416174_j54228257079641_1_alg».proof.Proof.KI.HostVals2
import proofs.«416174_j54228257079641_1_alg».proof.Proof.RefVals
import proofs.«416174_j54228257079641_1_alg».proof.Proof.Cross
import proofs.«416174_j54228257079641_1_alg».proof.Proof.BridgeCore
import proofs.«416174_j54228257079641_1_alg».proof.Proof.PreFacts

set_option maxRecDepth 16384

noncomputable section

namespace Cert.Bridge

open Idealize.ShloMosaic Idealize.ShloMosaic.ValueIdx Idealize.ShloMosaic.TcCoe Idealize.SL.Sem
open Cert.KernelIdeal Cert.KernelIdeal.Gen Cert.KernelIdeal.Hand Cert.BridgeCore
open Cert.ReferenceIdeal.Hand (rZ rH1 rH2 rH3 rH1_apply rH2_apply rH3_apply)

def Agree (m : (ℓ : Loc nD τ sig) → Buf (Elt Ideal) ℓ)
    (m' : (ℓ : Loc Cert.ReferenceIdeal.nD Cert.ReferenceIdeal.τ Cert.ReferenceIdeal.sig) → Buf (Elt Ideal) ℓ) : Prop :=
  ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)

variable (m : (ℓ : Loc nD τ sig) → Buf (Elt Ideal) ℓ)
  (m' : (ℓ : Loc Cert.ReferenceIdeal.nD Cert.ReferenceIdeal.τ Cert.ReferenceIdeal.sig) → Buf (Elt Ideal) ℓ)
  (hpre : Cert.Pre_KernelIdeal (hPre_finite_inputs := Cert.Pre_finite_inputs.Gen.facts) m) (hag : Agree m m') (c : Dev nD)

include hag

-- The aggregation reads only the features, the edge list and one scalar, and both sides hold the same three.
theorem z_eq {o : ℕ} (hs : S3.Slices ![o] S1) {e' : FVec Ideal S_ .f32} (he : kEps (m' ((c.tc : Thread Cert.ReferenceIdeal.nD Cert.ReferenceIdeal.τ).loc Cert.ReferenceIdeal.main_arg3)) o hs = e')
    {h h' : FVec Ideal S100000x128 .f32} (hh : h = h') :
    kZ (F := Ideal) (kEps (m ((c.tc : Thread nD τ).loc main_arg3)) o hs) h (Gen.V1 m c main_v1) (Gen.V1 m c main_v3) = rZ e' h' (m' ((c.tc : Thread Cert.ReferenceIdeal.nD Cert.ReferenceIdeal.τ).loc Cert.ReferenceIdeal.main_arg1)) := by
  obtain ⟨_, a1, _, a3, _⟩ := hag c
  subst he hh
  rw [host0_src m c, host0_dst m c, Cert.Cross.kZ_eq_rZ, a1, a3]

include hpre

-- Once every operand of the kernel's layer is the matching slice of a shared argument, the two layers are one formula.
theorem layer (L : Fin 3) {kOut Zk : Arr2 100000 128} {W1k W2k : Arr2 128 128} {b1k sck shk b2k : Arr2 1 128} {A6 A7 A8 A9 : Arr2 3 128}
    (hk : ∀ (n : Fin 100000) (j : Fin 128), kOut (ix2 n j) = Cert.Spec.mlp (fun k y => y * sck (ix2 (0 : Fin 1) k) + shk (ix2 (0 : Fin 1) k))
        (fun n i => Zk (ix2 n i)) (fun i k => W1k (ix2 i k)) (fun k => b1k (ix2 (0 : Fin 1) k)) (fun k j => W2k (ix2 k j)) (fun j => b2k (ix2 (0 : Fin 1) j)) n j)
    (hW1 : ∀ i k, W1k (ix2 i k) = (m ((c.tc : Thread nD τ).loc main_arg4) : Arr3 3 128 128) (ix3 L i k))
    (hb1 : ∀ k, b1k (ix2 (0 : Fin 1) k) = (m ((c.tc : Thread nD τ).loc main_arg5) : Arr2 3 128) (ix2 L k))
    (h6 : A6 = m ((c.tc : Thread nD τ).loc main_arg6)) (h7 : A7 = m ((c.tc : Thread nD τ).loc main_arg7)) (h8 : A8 = m ((c.tc : Thread nD τ).loc main_arg8)) (h9 : A9 = m ((c.tc : Thread nD τ).loc main_arg9))
    (hsc : ∀ k, sck (ix2 (0 : Fin 1) k) = A6 (ix2 L k) * Ideal.rsqrt (A9 (ix2 L k) + Ideal.ofBits .f32 0x3727C5AC#32))
    (hsh : ∀ k, shk (ix2 (0 : Fin 1) k) = A7 (ix2 L k) - A8 (ix2 L k) * (A6 (ix2 L k) * Ideal.rsqrt (A9 (ix2 L k) + Ideal.ofBits .f32 0x3727C5AC#32)))
    (hW2 : ∀ k j, W2k (ix2 k j) = (m ((c.tc : Thread nD τ).loc main_arg10) : Arr3 3 128 128) (ix3 L k j))
    (hb2 : ∀ j, b2k (ix2 (0 : Fin 1) j) = (m ((c.tc : Thread nD τ).loc main_arg11) : Arr2 3 128) (ix2 L j))
    {rOut Zr : Arr2 100000 128}
    (hr : ∀ (n : Fin 100000) (j : Fin 128), rOut (ix2 n j) = Cert.Spec.mlp
        (fun k y => Cert.Spec.bnR ((m' ((c.tc : Thread Cert.ReferenceIdeal.nD Cert.ReferenceIdeal.τ).loc Cert.ReferenceIdeal.main_arg6) : Arr2 3 128) (ix2 L k)) (Ideal.rsqrt (HAdd.hAdd (α := EReal) (β := EReal) (γ := EReal) ((m' ((c.tc : Thread Cert.ReferenceIdeal.nD Cert.ReferenceIdeal.τ).loc Cert.ReferenceIdeal.main_arg9) : Arr2 3 128) (ix2 L k)) (Ideal.ofBits .f32 0x3727C5AC#32)))
          ((m' ((c.tc : Thread Cert.ReferenceIdeal.nD Cert.ReferenceIdeal.τ).loc Cert.ReferenceIdeal.main_arg7) : Arr2 3 128) (ix2 L k)) ((m' ((c.tc : Thread Cert.ReferenceIdeal.nD Cert.ReferenceIdeal.τ).loc Cert.ReferenceIdeal.main_arg8) : Arr2 3 128) (ix2 L k)) y)
        (fun n i => Zr (ix2 n i)) (fun i k => (m' ((c.tc : Thread Cert.ReferenceIdeal.nD Cert.ReferenceIdeal.τ).loc Cert.ReferenceIdeal.main_arg4) : Arr3 3 128 128) (ix3 L i k)) (fun k => (m' ((c.tc : Thread Cert.ReferenceIdeal.nD Cert.ReferenceIdeal.τ).loc Cert.ReferenceIdeal.main_arg5) : Arr2 3 128) (ix2 L k))
        (fun k j => (m' ((c.tc : Thread Cert.ReferenceIdeal.nD Cert.ReferenceIdeal.τ).loc Cert.ReferenceIdeal.main_arg10) : Arr3 3 128 128) (ix3 L k j)) (fun j => (m' ((c.tc : Thread Cert.ReferenceIdeal.nD Cert.ReferenceIdeal.τ).loc Cert.ReferenceIdeal.main_arg11) : Arr2 3 128) (ix2 L j)) n j)
    (hZ : Zk = Zr) : kOut = rOut := by
  obtain ⟨_, _, _, _, a4, a5, a6, a7, a8, a9, a10, a11, _⟩ := hag c
  subst h6 h7 h8 h9
  rw [a4, a5, a6, a7, a8, a9, a10, a11] at hr
  exact layer_eq L kOut Zk W1k b1k sck shk W2k b2k hk _ _ _ _ _ _ _ _ hW1 hb1 hsc hsh hW2 hb2
    (fun k => Cert.PreFacts.params_real (hF := Cert.Pre_finite_inputs.Gen.facts) _ _ _ _ _ _ _ _ _ _ _ _ _ _ _ _ (hpre c) L k) rOut Zr hr hZ

theorem h1_eq : (U2 m c main_v47 : Arr2 100000 128) = rH1 m' c :=
  (Function.update_self _ _ _).trans <| layer m m' hpre hag c 0 (mlp_final0 (fun c b => Gen.V1 m c b) c)
    (host0_W1 m c) (host0_b1 m c) rfl rfl rfl rfl (fun k => host0_scale m c k _ _ rfl rfl) (fun k => host0_shift m c k _ _ _ _ rfl rfl rfl rfl)
    (host0_W2 m c) (host0_b2 m c) (rH1_apply m' c) ((host0_z m c).trans (z_eq m m' hag c _ rfl (hag c).1.symm))

theorem h2_eq : (U5 m c main_v91 : Arr2 100000 128) = rH2 m' c :=
  (Function.update_self _ _ _).trans <| funext (V4_eq m) ▸ layer m m' hpre hag c 1 (mlp_final2 (fun c b => Gen.V4 m (outs m) c b) c)
    (host1_W1 m _ c) (host1_b1 m _ c) rfl rfl rfl rfl (fun k => host1_scale m _ c k _ _ rfl rfl) (fun k => host1_shift m _ c k _ _ _ _ rfl rfl rfl rfl)
    (host1_W2 m _ c) (host1_b2 m _ c) (rH2_apply m' c) ((host1_z m _ c).trans (z_eq m m' hag c _ rfl
      ((congrFun (V3_eq m c) _).trans ((Function.update_of_ne (StableHlo.devRef_ne_of_ne (by decide)) _ _).trans (h1_eq m m' hpre hag c)))))

theorem h3_eq : (U8 m c main_v135 : Arr2 100000 128) = rH3 m' c :=
  (Function.update_self _ _ _).trans <| funext (V7_eq m) ▸ layer m m' hpre hag c 2 (mlp_final4 (fun c b => Gen.V7 m (outs m) c b) c)
    (host2_W1 m _ c) (host2_b1 m _ c) rfl rfl rfl rfl (fun k => host2_scale m _ c k _ _ rfl rfl) (fun k => host2_shift m _ c k _ _ _ _ rfl rfl rfl rfl)
    (host2_W2 m _ c) (host2_b2 m _ c) (rH3_apply m' c) ((host2_z m _ c).trans (z_eq m m' hag c _ rfl
      ((congrFun (V6_eq m c) _).trans ((Function.update_of_ne (StableHlo.devRef_ne_of_ne (by decide)) _ _).trans (h2_eq m m' hpre hag c)))))

end Cert.Bridge
-- ==== Proof.KI.RunAll.lean ====
import proofs.«416174_j54228257079641_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution terminates with every unscoped buffer at the contents the twelve items fold to. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Gen.V12 m (outs m) c b) := by
  refine Pipeline.θ_run_regions_kit_dev (pcfgs (F := F)) adm (pdats m) () cellOf_inj emb₁ defs₀ Variants.none Lz lvz m ρ main
    (Gen.segs m (outs m) Variants.none Lz lvz E () (pdats m) (reg0 m) (reg1 m) (reg2 m) (reg3 m) (reg4 m) (reg5 m))
    (fun c Q => by
      rewrite [main_chain c, Seg.run_eq_chain,
        show (Gen.segs m (outs m) Variants.none Lz lvz E () (pdats m) (reg0 m) (reg1 m) (reg2 m) (reg3 m) (reg4 m) (reg5 m) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          Prog.lift (.customCall (Pipeline.entry 5) ()),
          StableHlo.seq hostOps6,
          StableHlo.seq hostOps6_1,
          StableHlo.seq hostOps6_2 ] from rfl]
      exact .rfl)
    (fun c => by simp only [Gen.segs, Seg.pipes_host, Seg.pipes_region, Seg.pipes_nil]; decide) 0 (fun _ _ => rfl)
    (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V12 m (outs m) c))
    (hch := fun c => ⟨.rfl, hpre0 m c, (hpost0 m c).trans (hpre1 m c), hpost1 m c, hpre2 m c, (hpost2 m c).trans (hpre3 m c), hpost3 m c,
      hpre4 m c, (hpost4 m c).trans (hpre5 m c), hpost5 m c, .rfl, .rfl, sep_mono .rfl (hE6 c)⟩)
    (hinit := ?_)
    (QY := fun c s => ∀ b ∈ Pipeline.ucRefs τ sig, s.mem (((c : Thread nD τ)).1, b) = Gen.V12 m (outs m) c b)
    (hfin := fun c s' => ?_) (hQ := fun _ h => h)
  ·
    refine Pipeline.initEach Lz lvz fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    imodintro
    iapply (pointsTo_read_all (Pipeline.ucRefs τ sig) (fun b => (((c : Thread nD τ)).1, b)) (Gen.V12 m (outs m) c) s')
    isplitl [Hh] <;> iassumption

theorem V12_v48 (c : Dev nD) : Gen.V12 m (outs m) c main_v48 = (dat1 (fun c b => U2 m c b) c).arrAt 2 cfg1.N :=
  (V12_of m (outs m) c main_v48 (by decide)).trans <| (V11_of m (outs m) c main_v48 (by decide)).trans <|
  (V10_of m (outs m) c main_v48 (by decide)).trans <| (V9_of m (outs m) c main_v48 (by decide)).trans <|
  (V8_of m (outs m) c main_v48 (by decide)).trans <| (V7_of m (outs m) c main_v48 (by decide)).trans <|
  (V6_of m (outs m) c main_v48 (by decide)).trans <| (V5_of m (outs m) c main_v48 (by decide)).trans <|
  (V4_of m (outs m) c main_v48 (by decide)).trans <| by
    rw [V3_eq]; exact Function.update_self (Proc.devRef (τ := τ) .tc main_v48) _ (U2 m c)

theorem V12_v92 (c : Dev nD) : Gen.V12 m (outs m) c main_v92 = (dat3 (fun c b => U5 m c b) c).arrAt 2 cfg3.N :=
  (V12_of m (outs m) c main_v92 (by decide)).trans <| (V11_of m (outs m) c main_v92 (by decide)).trans <|
  (V10_of m (outs m) c main_v92 (by decide)).trans <| (V9_of m (outs m) c main_v92 (by decide)).trans <|
  (V8_of m (outs m) c main_v92 (by decide)).trans <| (V7_of m (outs m) c main_v92 (by decide)).trans <| by
    rw [V6_eq]; exact Function.update_self (Proc.devRef (τ := τ) .tc main_v92) _ (U5 m c)

theorem V12_v136 (c : Dev nD) : Gen.V12 m (outs m) c main_v136 = (dat5 (fun c b => U8 m c b) c).arrAt 2 cfg5.N :=
  (V12_of m (outs m) c main_v136 (by decide)).trans <| (V11_of m (outs m) c main_v136 (by decide)).trans <|
  (V10_of m (outs m) c main_v136 (by decide)).trans <| by
    rw [V9_eq]; exact Function.update_self (Proc.devRef (τ := τ) .tc main_v136) _ (U8 m c)

theorem V12_v145 (c : Dev nD) : Gen.V12 m (outs m) c main_v145
    = StableHlo.after hostOps6_2 (StableHlo.after hostOps6_1 (StableHlo.after hostOps6 (U9 m c))) main_v145 := by
  rw [show Gen.V12 m (outs m) c = StableHlo.after hostOps6_2 (StableHlo.after hostOps6_1 (StableHlo.after hostOps6 (Gen.V9 m (outs m) c))) from rfl,
    V9_eq]

end Cert.KernelIdeal.Hand

end
-- ==== Proof.KI.PoolPay.lean ====
import proofs.«416174_j54228257079641_1_alg».proof.Proof.Gen.KernelIdeal.Skeleton
import proofs.«416174_j54228257079641_1_alg».proof.Proof.Spec
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-- Every entry of the constant-zero payload is zero. -/
theorem pool_zero_apply (g : Fin 512) (j : Fin 128) : (k1_pay1 (F := Ideal)) (ix2 g j) = 0 := by
  unfold k1_pay1
  rw [shapeCast_self]
  exact Ideal.ofBits_zero_f32

abbrev pool_dd : DotDims S1000x512 S1000x128 S512x128 := dot_S1000x512_S1000x128_S512x128_0_0_1_1_n_n

/-- Both operands are contracted along their rows: the product at (g, j) sums column g of the first against column j of the second. -/
theorem pool_matmul_apply (A : FVec Ideal S1000x512 .bf16) (B : FVec Ideal S1000x128 .bf16) (g : Fin 512) (j : Fin 128) :
    matmul pool_dd none A B (constant (F := Ideal) S512x128 .f32 0x00000000#32) (ix2 g j)
      = ∑ r : Fin 1000, A (ix2 r g) * B (ix2 r j) := by
  show FloatOps.matmul pool_dd none A B (constant (F := Ideal) S512x128 .f32 0x00000000#32) (ix2 g j) = _
  rw [Ideal.matmul_constant_zero_apply, ← Equiv.sum_comp (contrEquiv1 pool_dd 1000 rfl rfl).symm]
  refine Finset.sum_congr rfl fun r _ => ?_
  have c := contrEquiv1_symm_val pool_dd 1000 rfl rfl r
  rw [show pool_dd.lhsIdx (ix2 g j) ((contrEquiv1 pool_dd 1000 rfl rfl).symm r) = ix2 r g from Shape.idx_ext₂ c rfl,
    show pool_dd.rhsIdx (ix2 g j) ((contrEquiv1 pool_dd 1000 rfl rfl).symm r) = ix2 r j from Shape.idx_ext₂ c rfl]

/-- The weight of row r for group g: 1 when the row's label is the word of g, else 0. -/
theorem pool_onehot_apply (ls : Vec Ideal S1000x1 .i32) (r : Fin 1000) (g : Fin 512) :
    (truncf .bf16 (sitofp (F := Ideal) .f32 (extui 32 (cmpi .eq (broadcastTo S1000x512 ls broadcasts_S1000x1_S1000x512)
        (iota .tc S1000x512 32 [1] iota_S1000x512_d1_w32)) natLt_1_32)) bitsLt_bf16_f32 : FVec Ideal S1000x512 .bf16) (ix2 r g)
      = if ls (ix2 r (0 : Fin 1)) = BitVec.ofNat 32 g.val then (1 : EReal) else 0 := by
  rw [truncf_apply, sitofp_apply, extui_apply]
  show FloatOps.sitofp (F := Ideal) .f32 ((IntOp.cmpi .eq (broadcastTo S1000x512 ls broadcasts_S1000x1_S1000x512 (ix2 r g))
      (iota .tc S1000x512 32 [1] iota_S1000x512_d1_w32 (ix2 r g))).setWidth 32) = _
  rw [iota_single_apply, broadcastTo_apply ls broadcasts_S1000x1_S1000x512 (ix2 r g) (ix2 r (0 : Fin 1)) (fun a => by
    match a with
    | ⟨0, _⟩ => rfl
    | ⟨1, _⟩ => rfl)]
  show ((((IntOp.cmpi .eq (ls (ix2 r (0 : Fin 1))) (BitVec.ofNat 32 g.val)).setWidth 32).toInt : ℝ) : EReal) = _
  by_cases h : ls (ix2 r (0 : Fin 1)) = BitVec.ofNat 32 g.val
  · rw [if_pos h, h]
    have e : IntOp.cmpi .eq (BitVec.ofNat 32 g.val) (BitVec.ofNat 32 g.val) = 1#1 := by
      simp only [IntOp.cmpi, beq_self_eq_true, BitVec.ofBool_true]; rfl
    rw [e]
    have e2 : ((1#1).setWidth 32).toInt = 1 := by decide
    rw [e2]; simp
  · rw [if_neg h]
    have e : IntOp.cmpi .eq (ls (ix2 r (0 : Fin 1))) (BitVec.ofNat 32 g.val) = 0#1 := by
      simp only [IntOp.cmpi, beq_eq_false_iff_ne.mpr h, BitVec.ofBool_false]; rfl
    rw [e]
    have e2 : ((0#1).setWidth 32).toInt = 0 := by decide
    rw [e2]; simp

/-- One step adds, to what was carried, the tile's rows weighted by whether their label is the group's word. -/
theorem pool_step_apply (xs : Vec Ideal S1000x128 .f32) (ls : Vec Ideal S1000x1 .i32) (a : Vec Ideal S512x128 .f32) (g : Fin 512) (j : Fin 128) :
    k1_pay2 xs ls a (ix2 g j)
      = a (ix2 g j) + ∑ r : Fin 1000, (if ls (ix2 r (0 : Fin 1)) = BitVec.ofNat 32 g.val then (1 : EReal) else 0) * xs (ix2 r j) := by
  unfold k1_pay2
  simp only [shapeCast_self]
  rw [addf_apply]
  refine congrArg (a (ix2 g j) + ·) ?_
  refine (pool_matmul_apply _ _ g j).trans ?_
  refine Finset.sum_congr rfl fun r _ => ?_
  rw [pool_onehot_apply, truncf_apply]

end Cert.KernelIdeal.Hand
end
-- ==== Proof.KI.PoolValue1.lean ====
import proofs.«416174_j54228257079641_1_alg».proof.Proof.KI.PoolData1
import proofs.«416174_j54228257079641_1_alg».proof.Proof.KI.PoolPay

noncomputable section

namespace Cert.KernelIdeal.Hand

open Cert.KernelIdeal Cert.KernelIdeal.Gen
open Idealize.ShloMosaic Idealize.ShloMosaic.TcCoe
open Idealize.ShloMosaic.ValueIdx
open scoped BigOperators

variable (V : (c : Dev nD) → (b : Ref sig .tc) → Buf (Elt Ideal) ((c : Thread nD τ).loc b))

theorem row1 : ∀ t : Fin cfg1.N, win1_0.index t 0 = t.val := (by decide +kernel : ∀ t : Fin grid1.N, _)

/-- What row e adds to entry (g, j): its entry j if its label is g's word, else nothing. -/
def term1 (c : Dev nD) (g : Fin 512) (j : Fin 128) (e : ℕ) : EReal :=
  if h : e < 100000 then
    (if (V c (Pipeline.arrRef spec1 1) : IVec S100000x1 32) (ix2 (⟨e, h⟩ : Fin 100000) (0 : Fin 1)) = BitVec.ofNat 32 g.val
        then (1 : EReal) else 0)
      * (V c (Pipeline.arrRef spec1 0) : Vec Ideal S100000x128 .f32) (ix2 (⟨e, h⟩ : Fin 100000) j)
  else 0

/-- Both tiles at point t are rows 1000·t … 1000·t + 999 of their arrays. -/
theorem tile_term1 (c : Dev nD) (t : Fin cfg1.N) (g : Fin 512) (j : Fin 128) (r : Fin 1000) :
    (if (iblk1 V c 1 t : Vec Ideal S1000x1 .i32) (ix2 r (0 : Fin 1)) = BitVec.ofNat 32 g.val then (1 : EReal) else 0)
        * (iblk1 V c 0 t : Vec Ideal S1000x128 .f32) (ix2 r j)
      = term1 V c g j (t.val * 1000 + r.val) := by
  have hN : cfg1.N = 100 := N_1
  have ht := t.isLt
  have hlt : t.val * 1000 + r.val < 100000 := by omega
  unfold term1
  rw [dif_pos hlt,
    show (iblk1 V c 0 t : Vec Ideal S1000x128 .f32) (ix2 r j) = V c (Pipeline.arrRef spec1 0) (ix2 ⟨_, hlt⟩ j) from
      congrArg (V c (Pipeline.arrRef spec1 0)) (Shape.idx_ext₂ ((win1_0.rect_emb_val t _ 0).trans (congrArg (· * 1000 + r.val) (row1 t)))
        (win1_0.rect_emb_val_of_index_zero t 1 rfl _)),
    show (iblk1 V c 1 t : Vec Ideal S1000x1 .i32) (ix2 r (0 : Fin 1)) = V c (Pipeline.arrRef spec1 1) (ix2 ⟨_, hlt⟩ (0 : Fin 1)) from
      congrArg (V c (Pipeline.arrRef spec1 1)) (Shape.idx_ext₂ ((win1_1.rect_emb_val t _ 0).trans (congrArg (· * 1000 + r.val) (row1 t)))
        (win1_1.rect_emb_val_of_index_zero t 1 rfl _))]

/-- By induction on n: each step adds tile n's rows to the sum over tiles 0 … n − 1. -/
theorem accAt1_apply (c : Dev nD) (g : Fin 512) (j : Fin 128) : ∀ (n : ℕ) (hn : n < cfg1.N),
    accAt1 V c n hn (ix2 g j) = ∑ t ∈ Finset.range (n + 1), ∑ r : Fin 1000, term1 V c g j (t * 1000 + r.val)
  | 0, hn => by
    rw [Finset.sum_range_one]
    show k1_pay2 (iblk1 V c 0 ⟨0, hn⟩) (iblk1 V c 1 ⟨0, hn⟩) (k1_pay1 (F := Ideal)) (ix2 g j) = _
    refine (pool_step_apply _ _ _ g j).trans ?_
    rw [show k1_pay1 (F := Ideal) (ix2 g j) = 0 from pool_zero_apply g j, zero_add]
    exact Finset.sum_congr rfl fun r _ => tile_term1 V c ⟨0, hn⟩ g j r
  | n + 1, hn => by
    rw [Finset.sum_range_succ]
    show k1_pay2 (iblk1 V c 0 ⟨n + 1, hn⟩) (iblk1 V c 1 ⟨n + 1, hn⟩) (accAt1 V c n (Nat.lt_of_succ_lt hn)) (ix2 g j) = _
    refine (pool_step_apply _ _ _ g j).trans ?_
    rw [accAt1_apply c g j n]
    exact congrArg _ (Finset.sum_congr rfl fun r _ => tile_term1 V c ⟨n + 1, hn⟩ g j r)

abbrev tLast1 : Fin cfg1.N := ⟨99, by decide⟩

/-- A block at index (0, 0) that is as large as its array is the whole array. -/
theorem flushed1_2 (c : Dev nD) (t : Fin cfg1.N) (hf : (cfg1.win 2).flush t = true) :
    (dat1 V c).flushed 2 t = ((cfg1.win 2).blk t).view.read (Elt Ideal) (accAt1 V c 99 tLast1.isLt) := by
  have hN : cfg1.N = 100 := N_1
  obtain rfl : t = tLast1 := Fin.ext (show t.val = 99 by have := (flush1_2 t).mp hf; have := t.isLt; omega)
  show (cfg1.win 2).cut (grid1.coords tLast1) ((dat1 V c).after 2 tLast1) = _
  rw [after1_2]
  symm
  exact Memref.read_access_unit_zero _ _ (funext fun a => match a with | ⟨0, _⟩ => rfl | ⟨1, _⟩ => rfl) _ _

theorem pool_arr1 (c : Dev nD) : (dat1 V c).arrAt 2 cfg1.N = accAt1 V c 99 tLast1.isLt :=
  (dat1 V c).arrAt_eq_of_cover 2 _ (flushed1_2 V c) fun i =>
    ⟨tLast1, (flush1_2 tLast1).mpr rfl, by
      have h0 : (i 0).val < 512 := (i 0).isLt
      have h1 : (i 1).val < 128 := (i 1).isLt
      show i ∈ ((View.whole (Pipeline.arrRef spec1 2)).slice (win1_2.rect tLast1)).set
      rw [View.set_slice_whole, Rect.mem_set_unit]
      intro a
      match a with
      | ⟨0, _⟩ => show 0 * 512 ≤ (i 0).val ∧ (i 0).val < 0 * 512 + 512; omega
      | ⟨1, _⟩ => show 0 * 128 ≤ (i 1).val ∧ (i 1).val < 0 * 128 + 128; omega⟩

theorem pool_final1 (c : Dev nD) (g : Fin 512) (j : Fin 128) :
    ((dat1 (F := Ideal) V c).arrAt 2 cfg1.N : Vec Ideal S512x128 .f32) (ix2 g j)
      = Cert.Spec.pool (fun e k => (V c (Pipeline.arrRef spec1 0) : Vec Ideal S100000x128 .f32) (ix2 e k))
          (fun e => (V c (Pipeline.arrRef spec1 1) : IVec S100000x1 32) (ix2 e (0 : Fin 1))) g j := by
  rw [pool_arr1, accAt1_apply V c g j 99, Cert.Spec.pool_eq_weighted]
  show ∑ t ∈ Finset.range 100, ∑ r : Fin 1000, term1 V c g j (t * 1000 + r.val) = _
  rw [Finset.sum_range]
  refine Eq.trans ?_ (Cert.Spec.sum_tiles _)
  refine Finset.sum_congr rfl fun t _ => Finset.sum_congr rfl fun r _ => ?_
  have ht := t.isLt
  have hr := r.isLt
  unfold term1
  rw [dif_pos (by omega)]

end Cert.KernelIdeal.Hand
end
-- ==== Proof.KI.PoolValue3.lean ====
import proofs.«416174_j54228257079641_1_alg».proof.Proof.KI.PoolData3
import proofs.«416174_j54228257079641_1_alg».proof.Proof.KI.PoolPay

noncomputable section

namespace Cert.KernelIdeal.Hand

open Cert.KernelIdeal Cert.KernelIdeal.Gen
open Idealize.ShloMosaic Idealize.ShloMosaic.TcCoe
open Idealize.ShloMosaic.ValueIdx
open scoped BigOperators

variable (V : (c : Dev nD) → (b : Ref sig .tc) → Buf (Elt Ideal) ((c : Thread nD τ).loc b))

theorem row3 : ∀ t : Fin cfg3.N, win3_0.index t 0 = t.val := (by decide +kernel : ∀ t : Fin grid3.N, _)

/-- What row e adds to entry (g, j): its entry j if its label is g's word, else nothing. -/
def term3 (c : Dev nD) (g : Fin 512) (j : Fin 128) (e : ℕ) : EReal :=
  if h : e < 100000 then
    (if (V c (Pipeline.arrRef spec3 1) : IVec S100000x1 32) (ix2 (⟨e, h⟩ : Fin 100000) (0 : Fin 1)) = BitVec.ofNat 32 g.val
        then (1 : EReal) else 0)
      * (V c (Pipeline.arrRef spec3 0) : Vec Ideal S100000x128 .f32) (ix2 (⟨e, h⟩ : Fin 100000) j)
  else 0

/-- Both tiles at point t are rows 1000·t … 1000·t + 999 of their arrays. -/
theorem tile_term3 (c : Dev nD) (t : Fin cfg3.N) (g : Fin 512) (j : Fin 128) (r : Fin 1000) :
    (if (iblk3 V c 1 t : Vec Ideal S1000x1 .i32) (ix2 r (0 : Fin 1)) = BitVec.ofNat 32 g.val then (1 : EReal) else 0)
        * (iblk3 V c 0 t : Vec Ideal S1000x128 .f32) (ix2 r j)
      = term3 V c g j (t.val * 1000 + r.val) := by
  have hN : cfg3.N = 100 := N_3
  have ht := t.isLt
  have hlt : t.val * 1000 + r.val < 100000 := by omega
  unfold term3
  rw [dif_pos hlt,
    show (iblk3 V c 0 t : Vec Ideal S1000x128 .f32) (ix2 r j) = V c (Pipeline.arrRef spec3 0) (ix2 ⟨_, hlt⟩ j) from
      congrArg (V c (Pipeline.arrRef spec3 0)) (Shape.idx_ext₂ ((win3_0.rect_emb_val t _ 0).trans (congrArg (· * 1000 + r.val) (row3 t)))
        (win3_0.rect_emb_val_of_index_zero t 1 rfl _)),
    show (iblk3 V c 1 t : Vec Ideal S1000x1 .i32) (ix2 r (0 : Fin 1)) = V c (Pipeline.arrRef spec3 1) (ix2 ⟨_, hlt⟩ (0 : Fin 1)) from
      congrArg (V c (Pipeline.arrRef spec3 1)) (Shape.idx_ext₂ ((win3_1.rect_emb_val t _ 0).trans (congrArg (· * 1000 + r.val) (row3 t)))
        (win3_1.rect_emb_val_of_index_zero t 1 rfl _))]

/-- By induction on n: each step adds tile n's rows to the sum over tiles 0 … n − 1. -/
theorem accAt3_apply (c : Dev nD) (g : Fin 512) (j : Fin 128) : ∀ (n : ℕ) (hn : n < cfg3.N),
    accAt3 V c n hn (ix2 g j) = ∑ t ∈ Finset.range (n + 1), ∑ r : Fin 1000, term3 V c g j (t * 1000 + r.val)
  | 0, hn => by
    rw [Finset.sum_range_one]
    show k3_pay2 (iblk3 V c 0 ⟨0, hn⟩) (iblk3 V c 1 ⟨0, hn⟩) (k3_pay1 (F := Ideal)) (ix2 g j) = _
    refine (pool_step_apply _ _ _ g j).trans ?_
    rw [show k3_pay1 (F := Ideal) (ix2 g j) = 0 from pool_zero_apply g j, zero_add]
    exact Finset.sum_congr rfl fun r _ => tile_term3 V c ⟨0, hn⟩ g j r
  | n + 1, hn => by
    rw [Finset.sum_range_succ]
    show k3_pay2 (iblk3 V c 0 ⟨n + 1, hn⟩) (iblk3 V c 1 ⟨n + 1, hn⟩) (accAt3 V c n (Nat.lt_of_succ_lt hn)) (ix2 g j) = _
    refine (pool_step_apply _ _ _ g j).trans ?_
    rw [accAt3_apply c g j n]
    exact congrArg _ (Finset.sum_congr rfl fun r _ => tile_term3 V c ⟨n + 1, hn⟩ g j r)

abbrev tLast3 : Fin cfg3.N := ⟨99, by decide⟩

/-- A block at index (0, 0) that is as large as its array is the whole array. -/
theorem flushed3_2 (c : Dev nD) (t : Fin cfg3.N) (hf : (cfg3.win 2).flush t = true) :
    (dat3 V c).flushed 2 t = ((cfg3.win 2).blk t).view.read (Elt Ideal) (accAt3 V c 99 tLast3.isLt) := by
  have hN : cfg3.N = 100 := N_3
  obtain rfl : t = tLast3 := Fin.ext (show t.val = 99 by have := (flush3_2 t).mp hf; have := t.isLt; omega)
  show (cfg3.win 2).cut (grid3.coords tLast3) ((dat3 V c).after 2 tLast3) = _
  rw [after3_2]
  symm
  exact Memref.read_access_unit_zero _ _ (funext fun a => match a with | ⟨0, _⟩ => rfl | ⟨1, _⟩ => rfl) _ _

theorem pool_arr3 (c : Dev nD) : (dat3 V c).arrAt 2 cfg3.N = accAt3 V c 99 tLast3.isLt :=
  (dat3 V c).arrAt_eq_of_cover 2 _ (flushed3_2 V c) fun i =>
    ⟨tLast3, (flush3_2 tLast3).mpr rfl, by
      have h0 : (i 0).val < 512 := (i 0).isLt
      have h1 : (i 1).val < 128 := (i 1).isLt
      show i ∈ ((View.whole (Pipeline.arrRef spec3 2)).slice (win3_2.rect tLast3)).set
      rw [View.set_slice_whole, Rect.mem_set_unit]
      intro a
      match a with
      | ⟨0, _⟩ => show 0 * 512 ≤ (i 0).val ∧ (i 0).val < 0 * 512 + 512; omega
      | ⟨1, _⟩ => show 0 * 128 ≤ (i 1).val ∧ (i 1).val < 0 * 128 + 128; omega⟩

theorem pool_final3 (c : Dev nD) (g : Fin 512) (j : Fin 128) :
    ((dat3 (F := Ideal) V c).arrAt 2 cfg3.N : Vec Ideal S512x128 .f32) (ix2 g j)
      = Cert.Spec.pool (fun e k => (V c (Pipeline.arrRef spec3 0) : Vec Ideal S100000x128 .f32) (ix2 e k))
          (fun e => (V c (Pipeline.arrRef spec3 1) : IVec S100000x1 32) (ix2 e (0 : Fin 1))) g j := by
  rw [pool_arr3, accAt3_apply V c g j 99, Cert.Spec.pool_eq_weighted]
  show ∑ t ∈ Finset.range 100, ∑ r : Fin 1000, term3 V c g j (t * 1000 + r.val) = _
  rw [Finset.sum_range]
  refine Eq.trans ?_ (Cert.Spec.sum_tiles _)
  refine Finset.sum_congr rfl fun t _ => Finset.sum_congr rfl fun r _ => ?_
  have ht := t.isLt
  have hr := r.isLt
  unfold term3
  rw [dif_pos (by omega)]

end Cert.KernelIdeal.Hand
end
-- ==== Proof.KI.PoolValue5.lean ====
import proofs.«416174_j54228257079641_1_alg».proof.Proof.KI.PoolData5
import proofs.«416174_j54228257079641_1_alg».proof.Proof.KI.PoolPay

noncomputable section

namespace Cert.KernelIdeal.Hand

open Cert.KernelIdeal Cert.KernelIdeal.Gen
open Idealize.ShloMosaic Idealize.ShloMosaic.TcCoe
open Idealize.ShloMosaic.ValueIdx
open scoped BigOperators

variable (V : (c : Dev nD) → (b : Ref sig .tc) → Buf (Elt Ideal) ((c : Thread nD τ).loc b))

theorem row5 : ∀ t : Fin cfg5.N, win5_0.index t 0 = t.val := (by decide +kernel : ∀ t : Fin grid5.N, _)

/-- What row e adds to entry (g, j): its entry j if its label is g's word, else nothing. -/
def term5 (c : Dev nD) (g : Fin 512) (j : Fin 128) (e : ℕ) : EReal :=
  if h : e < 100000 then
    (if (V c (Pipeline.arrRef spec5 1) : IVec S100000x1 32) (ix2 (⟨e, h⟩ : Fin 100000) (0 : Fin 1)) = BitVec.ofNat 32 g.val
        then (1 : EReal) else 0)
      * (V c (Pipeline.arrRef spec5 0) : Vec Ideal S100000x128 .f32) (ix2 (⟨e, h⟩ : Fin 100000) j)
  else 0

/-- Both tiles at point t are rows 1000·t … 1000·t + 999 of their arrays. -/
theorem tile_term5 (c : Dev nD) (t : Fin cfg5.N) (g : Fin 512) (j : Fin 128) (r : Fin 1000) :
    (if (iblk5 V c 1 t : Vec Ideal S1000x1 .i32) (ix2 r (0 : Fin 1)) = BitVec.ofNat 32 g.val then (1 : EReal) else 0)
        * (iblk5 V c 0 t : Vec Ideal S1000x128 .f32) (ix2 r j)
      = term5 V c g j (t.val * 1000 + r.val) := by
  have hN : cfg5.N = 100 := N_5
  have ht := t.isLt
  have hlt : t.val * 1000 + r.val < 100000 := by omega
  unfold term5
  rw [dif_pos hlt,
    show (iblk5 V c 0 t : Vec Ideal S1000x128 .f32) (ix2 r j) = V c (Pipeline.arrRef spec5 0) (ix2 ⟨_, hlt⟩ j) from
      congrArg (V c (Pipeline.arrRef spec5 0)) (Shape.idx_ext₂ ((win5_0.rect_emb_val t _ 0).trans (congrArg (· * 1000 + r.val) (row5 t)))
        (win5_0.rect_emb_val_of_index_zero t 1 rfl _)),
    show (iblk5 V c 1 t : Vec Ideal S1000x1 .i32) (ix2 r (0 : Fin 1)) = V c (Pipeline.arrRef spec5 1) (ix2 ⟨_, hlt⟩ (0 : Fin 1)) from
      congrArg (V c (Pipeline.arrRef spec5 1)) (Shape.idx_ext₂ ((win5_1.rect_emb_val t _ 0).trans (congrArg (· * 1000 + r.val) (row5 t)))
        (win5_1.rect_emb_val_of_index_zero t 1 rfl _))]

/-- By induction on n: each step adds tile n's rows to the sum over tiles 0 … n − 1. -/
theorem accAt5_apply (c : Dev nD) (g : Fin 512) (j : Fin 128) : ∀ (n : ℕ) (hn : n < cfg5.N),
    accAt5 V c n hn (ix2 g j) = ∑ t ∈ Finset.range (n + 1), ∑ r : Fin 1000, term5 V c g j (t * 1000 + r.val)
  | 0, hn => by
    rw [Finset.sum_range_one]
    show k5_pay2 (iblk5 V c 0 ⟨0, hn⟩) (iblk5 V c 1 ⟨0, hn⟩) (k5_pay1 (F := Ideal)) (ix2 g j) = _
    refine (pool_step_apply _ _ _ g j).trans ?_
    rw [show k5_pay1 (F := Ideal) (ix2 g j) = 0 from pool_zero_apply g j, zero_add]
    exact Finset.sum_congr rfl fun r _ => tile_term5 V c ⟨0, hn⟩ g j r
  | n + 1, hn => by
    rw [Finset.sum_range_succ]
    show k5_pay2 (iblk5 V c 0 ⟨n + 1, hn⟩) (iblk5 V c 1 ⟨n + 1, hn⟩) (accAt5 V c n (Nat.lt_of_succ_lt hn)) (ix2 g j) = _
    refine (pool_step_apply _ _ _ g j).trans ?_
    rw [accAt5_apply c g j n]
    exact congrArg _ (Finset.sum_congr rfl fun r _ => tile_term5 V c ⟨n + 1, hn⟩ g j r)

abbrev tLast5 : Fin cfg5.N := ⟨99, by decide⟩

/-- A block at index (0, 0) that is as large as its array is the whole array. -/
theorem flushed5_2 (c : Dev nD) (t : Fin cfg5.N) (hf : (cfg5.win 2).flush t = true) :
    (dat5 V c).flushed 2 t = ((cfg5.win 2).blk t).view.read (Elt Ideal) (accAt5 V c 99 tLast5.isLt) := by
  have hN : cfg5.N = 100 := N_5
  obtain rfl : t = tLast5 := Fin.ext (show t.val = 99 by have := (flush5_2 t).mp hf; have := t.isLt; omega)
  show (cfg5.win 2).cut (grid5.coords tLast5) ((dat5 V c).after 2 tLast5) = _
  rw [after5_2]
  symm
  exact Memref.read_access_unit_zero _ _ (funext fun a => match a with | ⟨0, _⟩ => rfl | ⟨1, _⟩ => rfl) _ _

theorem pool_arr5 (c : Dev nD) : (dat5 V c).arrAt 2 cfg5.N = accAt5 V c 99 tLast5.isLt :=
  (dat5 V c).arrAt_eq_of_cover 2 _ (flushed5_2 V c) fun i =>
    ⟨tLast5, (flush5_2 tLast5).mpr rfl, by
      have h0 : (i 0).val < 512 := (i 0).isLt
      have h1 : (i 1).val < 128 := (i 1).isLt
      show i ∈ ((View.whole (Pipeline.arrRef spec5 2)).slice (win5_2.rect tLast5)).set
      rw [View.set_slice_whole, Rect.mem_set_unit]
      intro a
      match a with
      | ⟨0, _⟩ => show 0 * 512 ≤ (i 0).val ∧ (i 0).val < 0 * 512 + 512; omega
      | ⟨1, _⟩ => show 0 * 128 ≤ (i 1).val ∧ (i 1).val < 0 * 128 + 128; omega⟩

theorem pool_final5 (c : Dev nD) (g : Fin 512) (j : Fin 128) :
    ((dat5 (F := Ideal) V c).arrAt 2 cfg5.N : Vec Ideal S512x128 .f32) (ix2 g j)
      = Cert.Spec.pool (fun e k => (V c (Pipeline.arrRef spec5 0) : Vec Ideal S100000x128 .f32) (ix2 e k))
          (fun e => (V c (Pipeline.arrRef spec5 1) : IVec S100000x1 32) (ix2 e (0 : Fin 1))) g j := by
  rw [pool_arr5, accAt5_apply V c g j 99, Cert.Spec.pool_eq_weighted]
  show ∑ t ∈ Finset.range 100, ∑ r : Fin 1000, term5 V c g j (t * 1000 + r.val) = _
  rw [Finset.sum_range]
  refine Eq.trans ?_ (Cert.Spec.sum_tiles _)
  refine Finset.sum_congr rfl fun t _ => Finset.sum_congr rfl fun r _ => ?_
  have ht := t.isLt
  have hr := r.isLt
  unfold term5
  rw [dif_pos (by omega)]

end Cert.KernelIdeal.Hand
end
-- ==== Proof.Bridge2.lean ====
import proofs.«416174_j54228257079641_1_alg».proof.Proof.Bridge1
import proofs.«416174_j54228257079641_1_alg».proof.Defs
import proofs.«416174_j54228257079641_1_alg».proof.Proof.Gen.Pre_finite_inputs
import proofs.«416174_j54228257079641_1_alg».proof.Proof.KI.RunAll
import proofs.«416174_j54228257079641_1_alg».proof.Proof.KI.PoolValue1
import proofs.«416174_j54228257079641_1_alg».proof.Proof.KI.PoolValue3
import proofs.«416174_j54228257079641_1_alg».proof.Proof.KI.PoolValue5
import proofs.«416174_j54228257079641_1_alg».proof.Proof.KI.HostVals
import proofs.«416174_j54228257079641_1_alg».proof.Proof.RefVals
import proofs.«416174_j54228257079641_1_alg».proof.Proof.Cross
import proofs.«416174_j54228257079641_1_alg».proof.Proof.BridgeCore

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.Hand Cert.BridgeCore
open Cert.ReferenceIdeal.Hand (rH1 rH2 rH3 rPool rTail rP_apply)

variable (m : (ℓ : Loc nD τ sig) → Buf (Elt Ideal) ℓ)
  (m' : (ℓ : Loc Cert.ReferenceIdeal.nD Cert.ReferenceIdeal.τ Cert.ReferenceIdeal.sig) → Buf (Elt Ideal) ℓ)
  (hpre : Cert.Pre_KernelIdeal (hPre_finite_inputs := Cert.Pre_finite_inputs.Gen.facts) m) (hag : Agree m m') (c : Dev nD)

-- None of the last three steps writes r, so r holds at the end what it held before them.
theorem tail_operand {r : Ref sig .tc} {x} (h0 : r ∉ hostOps6_W) (h1 : r ∉ hostOps6_1_W) (h2 : r ∉ hostOps6_2_W)
    (h : Gen.V12 m (outs m) c r = x) : U9 m c r = x := by
  rw [← V9_eq m c, ← V10_of m _ c r h0, ← V11_of m _ c r h1, ← V12_of m _ c r h2, h]

include hag

-- Pooling sums the same rows under the same labels on both sides.
theorem pool {kP : Arr2 512 128} {hk hr : Arr2 100000 128} {lab : IVec S100000x1 32}
    (hkp : ∀ (g : Fin 512) (j : Fin 128), kP (ix2 g j) = Cert.Spec.pool (fun e k => hk (ix2 e k)) (fun e => lab (ix2 e (0 : Fin 1))) g j)
    (hh : hk = hr) (hl : lab = Gen.V1 m c main_v4) : kP = rPool (F := Ideal) hr (m' ((c.tc : Thread Cert.ReferenceIdeal.nD Cert.ReferenceIdeal.τ).loc Cert.ReferenceIdeal.main_arg2) : IVec Cert.ReferenceIdeal.S100000 32) :=
  pool_eq kP _ hk hr lab _ hkp (rP_apply m' c hr) hh fun e => by
    rw [hl, host_lab m c e]; exact (congrFun (hag c).2.2.1 (ix1 e)).symm

include hpre

theorem p0_eq : (Gen.V12 m (outs m) c main_v48 : Arr2 512 128) = rPool (F := Ideal) (rH1 m' c) (m' ((c.tc : Thread Cert.ReferenceIdeal.nD Cert.ReferenceIdeal.τ).loc Cert.ReferenceIdeal.main_arg2) : IVec Cert.ReferenceIdeal.S100000 32) :=
  (V12_v48 m c).trans <| pool m m' hag c (pool_final1 (fun c b => U2 m c b) c) (h1_eq m m' hpre hag c)
    (funext (V2_eq m) ▸ host_lab_V2 m _ c)

theorem p1_eq : (Gen.V12 m (outs m) c main_v92 : Arr2 512 128) = rPool (F := Ideal) (rH2 m' c) (m' ((c.tc : Thread Cert.ReferenceIdeal.nD Cert.ReferenceIdeal.τ).loc Cert.ReferenceIdeal.main_arg2) : IVec Cert.ReferenceIdeal.S100000 32) :=
  (V12_v92 m c).trans <| pool m m' hag c (pool_final3 (fun c b => U5 m c b) c) (h2_eq m m' hpre hag c)
    (funext (V5_eq m) ▸ host_lab_V5 m _ c)

theorem p2_eq : (Gen.V12 m (outs m) c main_v136 : Arr2 512 128) = rPool (F := Ideal) (rH3 m' c) (m' ((c.tc : Thread Cert.ReferenceIdeal.nD Cert.ReferenceIdeal.τ).loc Cert.ReferenceIdeal.main_arg2) : IVec Cert.ReferenceIdeal.S100000 32) :=
  (V12_v136 m c).trans <| pool m m' hag c (pool_final5 (fun c b => U8 m c b) c) (h3_eq m m' hpre hag c)
    (funext (V8_eq m) ▸ host_lab_V8 m _ c)

theorem out_eq : (Gen.V12 m (outs m) c main_v145 : FVec Ideal Cert.ReferenceIdeal.S512x16 .f32)
      = rTail (F := Ideal) (rPool (F := Ideal) (rH3 m' c) (m' ((c.tc : Thread Cert.ReferenceIdeal.nD Cert.ReferenceIdeal.τ).loc Cert.ReferenceIdeal.main_arg2) : IVec Cert.ReferenceIdeal.S100000 32)) (m' ((c.tc : Thread Cert.ReferenceIdeal.nD Cert.ReferenceIdeal.τ).loc Cert.ReferenceIdeal.main_arg12) : FVec Ideal Cert.ReferenceIdeal.S128x128 .f32)
        (m' ((c.tc : Thread Cert.ReferenceIdeal.nD Cert.ReferenceIdeal.τ).loc Cert.ReferenceIdeal.main_arg13) : FVec Ideal Cert.ReferenceIdeal.S128 .f32) (m' ((c.tc : Thread Cert.ReferenceIdeal.nD Cert.ReferenceIdeal.τ).loc Cert.ReferenceIdeal.main_arg14) : FVec Ideal Cert.ReferenceIdeal.S128x16 .f32) (m' ((c.tc : Thread Cert.ReferenceIdeal.nD Cert.ReferenceIdeal.τ).loc Cert.ReferenceIdeal.main_arg15) : FVec Ideal Cert.ReferenceIdeal.S16 .f32) := by
  obtain ⟨_, _, _, _, _, _, _, _, _, _, _, _, a12, a13, a14, a15⟩ := hag c
  rw [V12_v145 m c, host_tail, Cert.Cross.kTail_eq_rTail, a12, a13, a14, a15, ← p2_eq m m' hpre hag c,
    tail_operand m c (by decide) (by decide) (by decide) (V12_main_arg12 m _ c), tail_operand m c (by decide) (by decide) (by decide) (V12_main_arg13 m _ c),
    tail_operand m c (by decide) (by decide) (by decide) (V12_main_arg14 m _ c), tail_operand m c (by decide) (by decide) (by decide) (V12_main_arg15 m _ c),
    tail_operand m c (r := main_v136) (by decide) (by decide) (by decide) rfl]

end Cert.Bridge

end
-- ==== Proof.lean ====
import proofs.«416174_j54228257079641_1_alg».proof.Defs
import proofs.«416174_j54228257079641_1_alg».proof.Proof.Gen.Kernel
import proofs.«416174_j54228257079641_1_alg».proof.Proof.Gen.Kernel.Skeleton
import proofs.«416174_j54228257079641_1_alg».proof.Proof.Gen.Kernel.Launch
import proofs.«416174_j54228257079641_1_alg».proof.Proof.Gen.Kernel.Regions
import proofs.«416174_j54228257079641_1_alg».proof.Proof.Gen.Kernel.Points
import proofs.«416174_j54228257079641_1_alg».proof.Proof.Gen.KernelIdeal
import proofs.«416174_j54228257079641_1_alg».proof.Proof.Gen.KernelIdeal.Skeleton
import proofs.«416174_j54228257079641_1_alg».proof.Proof.Gen.KernelIdeal.Launch
import proofs.«416174_j54228257079641_1_alg».proof.Proof.Gen.KernelIdeal.Regions
import proofs.«416174_j54228257079641_1_alg».proof.Proof.Gen.KernelIdeal.Points
import proofs.«416174_j54228257079641_1_alg».proof.Proof.Gen.ReferenceIdeal
import proofs.«416174_j54228257079641_1_alg».proof.Proof.Gen.Pre_finite_inputs
import proofs.«416174_j54228257079641_1_alg».proof.Proof.KB.Run
import proofs.«416174_j54228257079641_1_alg».proof.Proof.KI.Run
import proofs.«416174_j54228257079641_1_alg».proof.Proof.RefRunP
import proofs.«416174_j54228257079641_1_alg».proof.Proof.Bridge2
import Idealize.ShloMosaic.Adequacy
import Idealize.ShloMosaic.Init

noncomputable section

namespace Cert.Proof

open Idealize.ShloMosaic Idealize.ShloMosaic.TcCoe Idealize.SL.Sem

open Cert.ReferenceIdeal.ValueP renaming run → refRun

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2.2.2) (refRun m ρ)

theorem ledger : Cert.preserves_Kernel_KernelIdeal := trivial

theorem algebraic : Cert.algebraic_KernelIdeal_ReferenceIdeal := by
  intro m ρ m' ρ' hpre hagree
  refine ⟨fun c => Cert.KernelIdeal.Gen.V12 m (Cert.KernelIdeal.Hand.outs m) c Cert.KernelIdeal.main_v145, fun c => Cert.KernelIdeal.Gen.V12 m (Cert.KernelIdeal.Hand.outs m) c Cert.KernelIdeal.main_v48,
    fun c => Cert.KernelIdeal.Gen.V12 m (Cert.KernelIdeal.Hand.outs m) c Cert.KernelIdeal.main_v92, fun c => Cert.KernelIdeal.Gen.V12 m (Cert.KernelIdeal.Hand.outs m) c Cert.KernelIdeal.main_v136, ?_, ?_⟩
  · exact (θ_run Cert.KernelIdeal.defs _ _).mono (fun r h c => ⟨h c _ (Cert.KernelIdeal.Hand.mem_uc Cert.KernelIdeal.main_v145 (by decide)),
        h c _ (Cert.KernelIdeal.Hand.mem_uc Cert.KernelIdeal.main_v48 (by decide)),
        h c _ (Cert.KernelIdeal.Hand.mem_uc Cert.KernelIdeal.main_v92 (by decide)),
        h c _ (Cert.KernelIdeal.Hand.mem_uc Cert.KernelIdeal.main_v136 (by decide)),
        (h c _ (Cert.KernelIdeal.Hand.mem_uc Cert.KernelIdeal.main_arg0 (by decide))).trans (Cert.KernelIdeal.Gen.V12_main_arg0 m (Cert.KernelIdeal.Hand.outs m) c),
        (h c _ (Cert.KernelIdeal.Hand.mem_uc Cert.KernelIdeal.main_arg1 (by decide))).trans (Cert.KernelIdeal.Gen.V12_main_arg1 m (Cert.KernelIdeal.Hand.outs m) c),
        (h c _ (Cert.KernelIdeal.Hand.mem_uc Cert.KernelIdeal.main_arg2 (by decide))).trans (Cert.KernelIdeal.Gen.V12_main_arg2 m (Cert.KernelIdeal.Hand.outs m) c),
        (h c _ (Cert.KernelIdeal.Hand.mem_uc Cert.KernelIdeal.main_arg3 (by decide))).trans (Cert.KernelIdeal.Gen.V12_main_arg3 m (Cert.KernelIdeal.Hand.outs m) c),
        (h c _ (Cert.KernelIdeal.Hand.mem_uc Cert.KernelIdeal.main_arg4 (by decide))).trans (Cert.KernelIdeal.Gen.V12_main_arg4 m (Cert.KernelIdeal.Hand.outs m) c),
        (h c _ (Cert.KernelIdeal.Hand.mem_uc Cert.KernelIdeal.main_arg5 (by decide))).trans (Cert.KernelIdeal.Gen.V12_main_arg5 m (Cert.KernelIdeal.Hand.outs m) c),
        (h c _ (Cert.KernelIdeal.Hand.mem_uc Cert.KernelIdeal.main_arg6 (by decide))).trans (Cert.KernelIdeal.Gen.V12_main_arg6 m (Cert.KernelIdeal.Hand.outs m) c),
        (h c _ (Cert.KernelIdeal.Hand.mem_uc Cert.KernelIdeal.main_arg7 (by decide))).trans (Cert.KernelIdeal.Gen.V12_main_arg7 m (Cert.KernelIdeal.Hand.outs m) c),
        (h c _ (Cert.KernelIdeal.Hand.mem_uc Cert.KernelIdeal.main_arg8 (by decide))).trans (Cert.KernelIdeal.Gen.V12_main_arg8 m (Cert.KernelIdeal.Hand.outs m) c),
        (h c _ (Cert.KernelIdeal.Hand.mem_uc Cert.KernelIdeal.main_arg9 (by decide))).trans (Cert.KernelIdeal.Gen.V12_main_arg9 m (Cert.KernelIdeal.Hand.outs m) c),
        (h c _ (Cert.KernelIdeal.Hand.mem_uc Cert.KernelIdeal.main_arg10 (by decide))).trans (Cert.KernelIdeal.Gen.V12_main_arg10 m (Cert.KernelIdeal.Hand.outs m) c),
        (h c _ (Cert.KernelIdeal.Hand.mem_uc Cert.KernelIdeal.main_arg11 (by decide))).trans (Cert.KernelIdeal.Gen.V12_main_arg11 m (Cert.KernelIdeal.Hand.outs m) c),
        (h c _ (Cert.KernelIdeal.Hand.mem_uc Cert.KernelIdeal.main_arg12 (by decide))).trans (Cert.KernelIdeal.Gen.V12_main_arg12 m (Cert.KernelIdeal.Hand.outs m) c),
        (h c _ (Cert.KernelIdeal.Hand.mem_uc Cert.KernelIdeal.main_arg13 (by decide))).trans (Cert.KernelIdeal.Gen.V12_main_arg13 m (Cert.KernelIdeal.Hand.outs m) c),
        (h c _ (Cert.KernelIdeal.Hand.mem_uc Cert.KernelIdeal.main_arg14 (by decide))).trans (Cert.KernelIdeal.Gen.V12_main_arg14 m (Cert.KernelIdeal.Hand.outs m) c),
        (h c _ (Cert.KernelIdeal.Hand.mem_uc Cert.KernelIdeal.main_arg15 (by decide))).trans (Cert.KernelIdeal.Gen.V12_main_arg15 m (Cert.KernelIdeal.Hand.outs m) c)⟩)
      (Cert.KernelIdeal.Hand.run_all m ρ)
  · exact (θ_run Cert.ReferenceIdeal.defs _ _).mono (fun r h c => ⟨(h c).1.trans (Cert.Bridge.out_eq m m' hpre hagree c).symm,
        (h c).2.1.trans (Cert.Bridge.p0_eq m m' hpre hagree c).symm,
        (h c).2.2.1.trans (Cert.Bridge.p1_eq m m' hpre hagree c).symm,
        (h c).2.2.2.1.trans (Cert.Bridge.p2_eq m m' hpre hagree c).symm,
        (h c).2.2.2.2⟩)
      (refRun m' ρ')

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.ledger, Cert.Proof.algebraic⟩

end
